-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x15 : Shape := ⟨2, ![100000, 15]⟩
abbrev S100000 : Shape := ⟨1, ![100000]⟩
abbrev S100000x32 : Shape := ⟨2, ![100000, 32]⟩
abbrev S384 : Shape := ⟨1, ![384]⟩
abbrev S48x128 : Shape := ⟨2, ![48, 128]⟩
abbrev S128 : Shape := ⟨1, ![128]⟩
abbrev S256x128 : Shape := ⟨2, ![256, 128]⟩
abbrev S384x128 : Shape := ⟨2, ![384, 128]⟩
abbrev S2x600000 : Shape := ⟨2, ![2, 600000]⟩
abbrev S_ : Shape := ⟨0, ![]⟩

class Facts : Prop where
  bcast_S_S100000x15 : S_.BroadcastsInDim S100000x15 (![] : Fin 0 → Fin S100000x15.rank)
  reducesTo_S100000x15_S_d0_1 : S100000x15.ReducesTo [0, 1] S_
  h_S_ : 0 < S_.numel
  bcast_S_S100000 : S_.BroadcastsInDim S100000 (![] : Fin 0 → Fin S100000.rank)
  reducesTo_S100000_S_d0 : S100000.ReducesTo [0] S_
  bcast_S_S100000x32 : S_.BroadcastsInDim S100000x32 (![] : Fin 0 → Fin S100000x32.rank)
  reducesTo_S100000x32_S_d0_1 : S100000x32.ReducesTo [0, 1] S_
  bcast_S_S384 : S_.BroadcastsInDim S384 (![] : Fin 0 → Fin S384.rank)
  reducesTo_S384_S_d0 : S384.ReducesTo [0] S_
  bcast_S_S48x128 : S_.BroadcastsInDim S48x128 (![] : Fin 0 → Fin S48x128.rank)
  reducesTo_S48x128_S_d0_1 : S48x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg10 : IVec S2x600000 32) (main_arg11 : IVec S100000 32) (main_v48 : IVec S_ 1) (main_v50 : IVec S2x600000 1) : IVec S_ 1 :=
  let main_c_19 : IVec S_ 1 := constantI S_ 1 1#1
  let main_v51 : IVec S_ 1 := (fun x v => Host.reduce IntOp.andi x v reducesTo_S2x600000_S_d0_1 h_S_) main_v50 main_c_19
  let main_v52 : IVec S_ 1 := andi main_v48 main_v51
  let main_c_20 : IVec S_ 32 := constantI S_ 32 100000#32
  let main_v53 : IVec S2x600000 32 := broadcastInDim S2x600000 ![] bcast_S_S2x600000 main_c_20
  let main_v54 : IVec S2x600000 1 := cmpi .slt main_arg10 main_v53
  let main_c_21 : IVec S_ 1 := constantI S_ 1 1#1
  let main_v55 : IVec S_ 1 := (fun x v => Host.reduce IntOp.andi x v reducesTo_S2x600000_S_d0_1 h_S_) main_v54 main_c_21
  let main_v56 : IVec S_ 1 := andi main_v52 main_v55
  let main_c_22 : IVec S_ 32 := constantI S_ 32 0#32
  let main_v57 : IVec S100000 32 := broadcastInDim S100000 ![] bcast_S_S100000 main_c_22
  let main_v58 : IVec S100000 1 := cmpi .sge main_arg11 main_v57
  let main_c_23 : IVec S_ 1 := constantI S_ 1 1#1
  let main_v59 : IVec S_ 1 := (fun x v => Host.reduce IntOp.andi x v reducesTo_S100000_S_d0 h_S_) main_v58 main_c_23
  let main_v60 : IVec S_ 1 := andi main_v56 main_v59
  let main_c_24 : IVec S_ 32 := constantI S_ 32 384#32
  let main_v61 : IVec S100000 32 := broadcastInDim S100000 ![] bcast_S_S100000 main_c_24
  let main_v62 : IVec S100000 1 := cmpi .slt main_arg11 main_v61
  let main_c_25 : IVec S_ 1 := constantI S_ 1 1#1
  let main_v63 : IVec S_ 1 := (fun x v => Host.reduce IntOp.andi x v reducesTo_S100000_S_d0 h_S_) main_v62 main_c_25
  let main_v64 : IVec S_ 1 := andi main_v60 main_v63
  main_v64

def fn_part2 {F : FTy → Type} [FloatOps F] (main_arg7 : FVec F S128 .f32) (main_arg8 : FVec F S384x128 .f32) (main_arg9 : FVec F S128 .f32) (main_arg10 : IVec S2x600000 32) (main_arg11 : IVec S100000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg8
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S2x600000 32 := broadcastInDim S2x600000 ![] bcast_S_S2x600000 main_c_18
  let main_v50 : IVec S2x600000 1 := cmpi .sge main_arg10 main_v49
  fn_part3 (F := F) main_arg10 main_arg11 main_v48 main_v50

def fn_part1 {F : FTy → Type} [FloatOps F] (main_arg4 : FVec F S48x128 .f32) (main_arg5 : FVec F S128 .f32) (main_arg6 : FVec F S256x128 .f32) (main_arg7 : FVec F S128 .f32) (main_arg8 : FVec F S384x128 .f32) (main_arg9 : FVec F S128 .f32) (main_arg10 : IVec S2x600000 32) (main_arg11 : IVec S100000 32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S48x128 .f32 := Host.absf main_arg4
  let main_cst_6 : FVec F S_ .f32 := constant S_ .f32 0x7F800000#32
  let main_v20 : FVec F S48x128 .f32 := broadcastInDim S48x128 ![] bcast_S_S48x128 main_cst_6
  let main_v21 : IVec S48x128 1 := cmpf .olt main_v19 main_v20
  let main_c_7 : IVec S_ 1 := constantI S_ 1 1#1
  let main_v22 : IVec S_ 1 := (fun x v => Host.reduce IntOp.andi x v reducesTo_S48x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x15 .f32) (main_arg1 : FVec F S100000 .f32) (main_arg2 : FVec F S100000x32 .f32) (main_arg3 : FVec F S384 .f32) (main_arg4 : FVec F S48x128 .f32) (main_arg5 : FVec F S128 .f32) (main_arg6 : FVec F S256x128 .f32) (main_arg7 : FVec F S128 .f32) (main_arg8 : FVec F S384x128 .f32) (main_arg9 : FVec F S128 .f32) (main_arg10 : IVec S2x600000 32) (main_arg11 : IVec S100000 32) (main_arg12 : IVec S100000 32) : IVec S_ 1 :=
  let main_v0 : FVec F S100000x15 .f32 := Host.absf main_arg0
  let main_cst : FVec F S_ .f32 := constant S_ .f32 0x7F800000#32
  let main_v1 : FVec F S100000x15 .f32 := broadcastInDim S100000x15 ![] bcast_S_S100000x15 main_cst
  let main_v2 : IVec S100000x15 1 := cmpf .olt main_v0 main_v1
  let main_c : IVec S_ 1 := constantI S_ 1 1#1
  let main_v3 : IVec S_ 1 := (fun x v => Host.reduce IntOp.andi x v reducesTo_S100000x15_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000x32 .f32 := Host.absf main_arg2
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_arg7 main_arg8 main_arg9 main_arg10 main_arg11 main_v13 main_v16
-- ==== Kernel.lean ====
abbrev S100000x15 : Shape := ⟨2, ![100000, 15]⟩
abbrev S100000 : Shape := ⟨1, ![100000]⟩
abbrev S100000x32 : Shape := ⟨2, ![100000, 32]⟩
abbrev S384 : Shape := ⟨1, ![384]⟩
abbrev S48x128 : Shape := ⟨2, ![48, 128]⟩
abbrev S128 : Shape := ⟨1, ![128]⟩
abbrev S256x128 : Shape := ⟨2, ![256, 128]⟩
abbrev S384x128 : Shape := ⟨2, ![384, 128]⟩
abbrev S2x600000 : Shape := ⟨2, ![2, 600000]⟩
abbrev S100000x1 : Shape := ⟨2, ![100000, 1]⟩
abbrev S100000x48 : Shape := ⟨2, ![100000, 48]⟩
abbrev S1x128 : Shape := ⟨2, ![1, 128]⟩
abbrev S100000x128 : Shape := ⟨2, ![100000, 128]⟩
abbrev S2000x48 : Shape := ⟨2, ![2000, 48]⟩
abbrev S2000x128 : Shape := ⟨2, ![2000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S600000x256 : Shape := ⟨2, ![600000, 256]⟩
abbrev S10000x256 : Shape := ⟨2, ![10000, 256]⟩
abbrev S10000x128 : Shape := ⟨2, ![10000, 128]⟩
abbrev S384x1 : Shape := ⟨2, ![384, 1]⟩
abbrev S100000x384 : Shape := ⟨2, ![100000, 384]⟩
abbrev S2000x384 : Shape := ⟨2, ![2000, 384]⟩

abbrev nBuf : Space → Nat
  | .hbm => 356
  | .vmem => 48
  | .smem => 0
  | _ => 0

abbrev hbmTy0_0 (i : Nat) : BufTy := match i % 128 with
  | 0 => ⟨S100000x15, .f32⟩
  | 1 => ⟨S100000, .f32⟩
  | 2 => ⟨S100000x32, .f32⟩
  | 3 => ⟨S384, .f32⟩
  | 4 => ⟨S48x128, .f32⟩
  | 5 => ⟨S128, .f32⟩
  | 6 => ⟨S256x128, .f32⟩
  | 7 => ⟨S128, .f32⟩
  | 8 => ⟨S384x128, .f32⟩
  | 9 => ⟨S128, .f32⟩
  | 10 => ⟨S2x600000, .i32⟩
  | 11 => ⟨S100000, .i32⟩
  | 12 => ⟨S100000, .i32⟩
  | 13 => ⟨S100000x1, .f32⟩
  | 14 => ⟨S100000x48, .f32⟩
  | 15 => ⟨S48x128, .bf16⟩
  | 16 => ⟨S1x128, .f32⟩
  | 17 => ⟨S100000x128, .f32⟩
  | 18 => ⟨S1x600000, .i32⟩
  | 19 => ⟨S600000, .i32⟩
  | 20 => ⟨S1x600000, .i32⟩
  | 21 => ⟨S600000, .i32⟩
  | 22 => ⟨S256x128, .bf16⟩
  | 23 => ⟨S1x128, .f32⟩
  | 24 => ⟨S384x128, .bf16⟩
  | 25 => ⟨S1x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S1, .i32⟩
  | 35 => ⟨S_, .i32⟩
  | 36 => ⟨S600000x1, .i32⟩
  | 37 => ⟨S600000x1, .i1⟩
  | 38 => ⟨S1x1, .i32⟩
  | 39 => ⟨S600000x1, .i32⟩
  | 40 => ⟨S600000x1, .i1⟩
  | 41 => ⟨S600000x1, .i1⟩
  | 42 => ⟨S_, .i1⟩
  | 43 => ⟨S600000, .i1⟩
  | 44 => ⟨S600000x128, .f32⟩
  | 45 => ⟨S600000x128, .i1⟩
  | 46 => ⟨S_, .f32⟩
  | 47 => ⟨S600000x128, .f32⟩
  | 48 => ⟨S600000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S1, .i32⟩
  | 58 => ⟨S_, .i32⟩
  | 59 => ⟨S600000x1, .i32⟩
  | 60 => ⟨S600000x1, .i1⟩
  | 61 => ⟨S1x1, .i32⟩
  | 62 => ⟨S600000x1, .i32⟩
  | 63 => ⟨S600000x1, .i1⟩
  | 64 => ⟨S600000x1, .i1⟩
  | 65 => ⟨S_, .i1⟩
  | 66 => ⟨S600000, .i1⟩
  | 67 => ⟨S600000x128, .f32⟩
  | 68 => ⟨S600000x128, .i1⟩
  | 69 => ⟨S_, .f32⟩
  | 70 => ⟨S600000x128, .f32⟩
  | 71 => ⟨S600000x128, .f32⟩
  | 72 => ⟨S600000x256, .f32⟩
  | 73 => ⟨S600000x256, .bf16⟩
  | 74 => ⟨S600000x128, .f32⟩
  | 75 => ⟨S_, .f32⟩
  | 76 => ⟨S100000x128, .f32⟩
  | 77 => ⟨S600000x1, .i32⟩
  | 78 => ⟨S100000x128, .f32⟩
  | 79 => ⟨S_, .f32⟩
  | 80 => ⟨S600000, .f32⟩
  | 81 => ⟨S_, .f32⟩
  | 82 => ⟨S100000, .f32⟩
  | 83 => ⟨S600000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x128, .f32⟩
  | 90 => ⟨S100000x128, .f32⟩
  | 91 => ⟨S_, .f32⟩
  | 92 => ⟨S384x128, .f32⟩
  | 93 => ⟨S100000x1, .i32⟩
  | 94 => ⟨S384x128, .f32⟩
  | 95 => ⟨S_, .f32⟩
  | 96 => ⟨S100000, .f32⟩
  | 97 => ⟨S_, .f32⟩
  | 98 => ⟨S384, .f32⟩
  | 99 => ⟨S100000x1, .i32⟩
  | 100 => ⟨S384, .f32⟩
  | 101 => ⟨S_, .f32⟩
  | 102 => ⟨S384, .f32⟩
  | 103 => ⟨S384, .f32⟩
  | 104 => ⟨S384x1, .f32⟩
  | 105 => ⟨S384x128, .f32⟩
  | 106 => ⟨S384x128, .f32⟩
  | 107 => ⟨S384x1, .f32⟩
  | 108 => ⟨S384x128, .f32⟩
  | 109 => ⟨S384x128, .f32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S1, .i32⟩
  | 119 => ⟨S_, .i32⟩
  | 120 => ⟨S100000x1, .i32⟩
  | 121 => ⟨S100000x1, .i1⟩
  | 122 => ⟨S1x1, .i32⟩
  | 123 => ⟨S100000x1, .i32⟩
  | 124 => ⟨S100000x1, .i1⟩
  | 125 => ⟨S100000x1, .i1⟩
  | 126 => ⟨S_, .i1⟩
  | 127 => ⟨S100000, .i1⟩
  | _ => ⟨S100000x15, .f32⟩

abbrev hbmTy0_1 (i : Nat) : BufTy := match i % 128 with
  | 0 => ⟨S100000x128, .f32⟩
  | 1 => ⟨S100000x128, .i1⟩
  | 2 => ⟨S_, .f32⟩
  | 3 => ⟨S100000x128, .f32⟩
  | 4 => ⟨S100000x128, .f32⟩
  | 5 => ⟨S100000x384, .f32⟩
  | 6 => ⟨S100000x384, .bf16⟩
  | 7 => ⟨S100000x128, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S1, .i32⟩
  | 17 => ⟨S_, .i32⟩
  | 18 => ⟨S600000x1, .i32⟩
  | 19 => ⟨S600000x1, .i1⟩
  | 20 => ⟨S1x1, .i32⟩
  | 21 => ⟨S600000x1, .i32⟩
  | 22 => ⟨S600000x1, .i1⟩
  | 23 => ⟨S600000x1, .i1⟩
  | 24 => ⟨S_, .i1⟩
  | 25 => ⟨S600000, .i1⟩
  | 26 => ⟨S600000x128, .f32⟩
  | 27 => ⟨S600000x128, .i1⟩
  | 28 => ⟨S_, .f32⟩
  | 29 => ⟨S600000x128, .f32⟩
  | 30 => ⟨S600000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S1, .i32⟩
  | 40 => ⟨S_, .i32⟩
  | 41 => ⟨S600000x1, .i32⟩
  | 42 => ⟨S600000x1, .i1⟩
  | 43 => ⟨S1x1, .i32⟩
  | 44 => ⟨S600000x1, .i32⟩
  | 45 => ⟨S600000x1, .i1⟩
  | 46 => ⟨S600000x1, .i1⟩
  | 47 => ⟨S_, .i1⟩
  | 48 => ⟨S600000, .i1⟩
  | 49 => ⟨S600000x128, .f32⟩
  | 50 => ⟨S600000x128, .i1⟩
  | 51 => ⟨S_, .f32⟩
  | 52 => ⟨S600000x128, .f32⟩
  | 53 => ⟨S600000x128, .f32⟩
  | 54 => ⟨S600000x256, .f32⟩
  | 55 => ⟨S600000x256, .bf16⟩
  | 56 => ⟨S600000x128, .f32⟩
  | 57 => ⟨S_, .f32⟩
  | 58 => ⟨S100000x128, .f32⟩
  | 59 => ⟨S600000x1, .i32⟩
  | 60 => ⟨S100000x128, .f32⟩
  | 61 => ⟨S_, .f32⟩
  | 62 => ⟨S600000, .f32⟩
  | 63 => ⟨S_, .f32⟩
  | 64 => ⟨S100000, .f32⟩
  | 65 => ⟨S600000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S_, .f32⟩
  | 74 => ⟨S384x128, .f32⟩
  | 75 => ⟨S100000x1, .i32⟩
  | 76 => ⟨S384x128, .f32⟩
  | 77 => ⟨S_, .f32⟩
  | 78 => ⟨S100000, .f32⟩
  | 79 => ⟨S_, .f32⟩
  | 80 => ⟨S384, .f32⟩
  | 81 => ⟨S100000x1, .i32⟩
  | 82 => ⟨S384, .f32⟩
  | 83 => ⟨S_, .f32⟩
  | 84 => ⟨S384, .f32⟩
  | 85 => ⟨S384, .f32⟩
  | 86 => ⟨S384x1, .f32⟩
  | 87 => ⟨S384x128, .f32⟩
  | 88 => ⟨S384x128, .f32⟩
  | 89 => ⟨S384x1, .f32⟩
  | 90 => ⟨S384x128, .f32⟩
  | 91 => ⟨S384x128, .f32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S1, .i32⟩
  | 101 => ⟨S_, .i32⟩
  | 102 => ⟨S100000x1, .i32⟩
  | 103 => ⟨S100000x1, .i1⟩
  | 104 => ⟨S1x1, .i32⟩
  | 105 => ⟨S100000x1, .i32⟩
  | 106 => ⟨S100000x1, .i1⟩
  | 107 => ⟨S100000x1, .i1⟩
  | 108 => ⟨S_, .i1⟩
  | 109 => ⟨S100000, .i1⟩
  | 110 => ⟨S100000x128, .f32⟩
  | 111 => ⟨S100000x128, .i1⟩
  | 112 => ⟨S_, .f32⟩
  | 113 => ⟨S100000x128, .f32⟩
  | 114 => ⟨S100000x128, .f32⟩
  | 115 => ⟨S100000x384, .f32⟩
  | 116 => ⟨S100000x384, .bf16⟩
  | 117 => ⟨S100000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S1, .i32⟩
  | 127 => ⟨S_, .i32⟩
  | _ => ⟨S100000x15, .f32⟩

abbrev hbmTy0_2 (i : Nat) : BufTy := match i % 128 with
  | 0 => ⟨S600000x1, .i32⟩
  | 1 => ⟨S600000x1, .i1⟩
  | 2 => ⟨S1x1, .i32⟩
  | 3 => ⟨S600000x1, .i32⟩
  | 4 => ⟨S600000x1, .i1⟩
  | 5 => ⟨S600000x1, .i1⟩
  | 6 => ⟨S_, .i1⟩
  | 7 => ⟨S600000, .i1⟩
  | 8 => ⟨S600000x128, .f32⟩
  | 9 => ⟨S600000x128, .i1⟩
  | 10 => ⟨S_, .f32⟩
  | 11 => ⟨S600000x128, .f32⟩
  | 12 => ⟨S600000x128, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S1, .i32⟩
  | 22 => ⟨S_, .i32⟩
  | 23 => ⟨S600000x1, .i32⟩
  | 24 => ⟨S600000x1, .i1⟩
  | 25 => ⟨S1x1, .i32⟩
  | 26 => ⟨S600000x1, .i32⟩
  | 27 => ⟨S600000x1, .i1⟩
  | 28 => ⟨S600000x1, .i1⟩
  | 29 => ⟨S_, .i1⟩
  | 30 => ⟨S600000, .i1⟩
  | 31 => ⟨S600000x128, .f32⟩
  | 32 => ⟨S600000x128, .i1⟩
  | 33 => ⟨S_, .f32⟩
  | 34 => ⟨S600000x128, .f32⟩
  | 35 => ⟨S600000x128, .f32⟩
  | 36 => ⟨S600000x256, .f32⟩
  | 37 => ⟨S600000x256, .bf16⟩
  | 38 => ⟨S600000x128, .f32⟩
  | 39 => ⟨S_, .f32⟩
  | 40 => ⟨S100000x128, .f32⟩
  | 41 => ⟨S600000x1, .i32⟩
  | 42 => ⟨S100000x128, .f32⟩
  | 43 => ⟨S_, .f32⟩
  | 44 => ⟨S600000, .f32⟩
  | 45 => ⟨S_, .f32⟩
  | 46 => ⟨S100000, .f32⟩
  | 47 => ⟨S600000x1, .i32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x128, .f32⟩
  | 54 => ⟨S100000x128, .f32⟩
  | 55 => ⟨S_, .f32⟩
  | 56 => ⟨S384x128, .f32⟩
  | 57 => ⟨S100000x1, .i32⟩
  | 58 => ⟨S384x128, .f32⟩
  | 59 => ⟨S_, .f32⟩
  | 60 => ⟨S100000, .f32⟩
  | 61 => ⟨S_, .f32⟩
  | 62 => ⟨S384, .f32⟩
  | 63 => ⟨S100000x1, .i32⟩
  | 64 => ⟨S384, .f32⟩
  | 65 => ⟨S_, .f32⟩
  | 66 => ⟨S384, .f32⟩
  | 67 => ⟨S384, .f32⟩
  | 68 => ⟨S384x1, .f32⟩
  | 69 => ⟨S384x128, .f32⟩
  | 70 => ⟨S384x128, .f32⟩
  | 71 => ⟨S384x1, .f32⟩
  | 72 => ⟨S384x128, .f32⟩
  | 73 => ⟨S384x128, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S1, .i32⟩
  | 83 => ⟨S_, .i32⟩
  | 84 => ⟨S100000x1, .i32⟩
  | 85 => ⟨S100000x1, .i1⟩
  | 86 => ⟨S1x1, .i32⟩
  | 87 => ⟨S100000x1, .i32⟩
  | 88 => ⟨S100000x1, .i1⟩
  | 89 => ⟨S100000x1, .i1⟩
  | 90 => ⟨S_, .i1⟩
  | 91 => ⟨S100000, .i1⟩
  | 92 => ⟨S100000x128, .f32⟩
  | 93 => ⟨S100000x128, .i1⟩
  | 94 => ⟨S_, .f32⟩
  | 95 => ⟨S100000x128, .f32⟩
  | 96 => ⟨S100000x128, .f32⟩
  | 97 => ⟨S100000x384, .f32⟩
  | 98 => ⟨S100000x384, .bf16⟩
  | 99 => ⟨S100000x128, .f32⟩
  | _ => ⟨S100000x15, .f32⟩

abbrev hbmTy (i : Nat) : BufTy := match i / 128 with
  | 0 => hbmTy0_0 i
  | 1 => hbmTy0_1 i
  | 2 => hbmTy0_2 i
  | _ => ⟨S100000x15, .f32⟩

abbrev bufTy : (tb : Table) → Fin (tcTables nBuf tb) → BufTy
  | .hbm, ⟨i, _⟩ => hbmTy i
  | .local _ .vmem, ⟨0, _⟩ => ⟨S2000x48, .f32⟩
  | .local _ .vmem, ⟨1, _⟩ => ⟨S2000x48, .f32⟩
  | .local _ .vmem, ⟨2, _⟩ => ⟨S48x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S10000x256, .bf16⟩
  | .local _ .vmem, ⟨7, _⟩ => ⟨S10000x256, .bf16⟩
  | .local _ .vmem, ⟨8, _⟩ => ⟨S256x128, .bf16⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S2000x384, .bf16⟩
  | .local _ .vmem, ⟨13, _⟩ => ⟨S2000x384, .bf16⟩
  | .local _ .vmem, ⟨14, _⟩ => ⟨S2000x128, .f32⟩
  | .local _ .vmem, ⟨15, _⟩ => ⟨S2000x128, .f32⟩
  | .local _ .vmem, ⟨16, _⟩ => ⟨S384x128, .bf16⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S10000x256, .bf16⟩
  | .local _ .vmem, ⟨21, _⟩ => ⟨S10000x256, .bf16⟩
  | .local _ .vmem, ⟨22, _⟩ => ⟨S256x128, .bf16⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S2000x384, .bf16⟩
  | .local _ .vmem, ⟨27, _⟩ => ⟨S2000x384, .bf16⟩
  | .local _ .vmem, ⟨28, _⟩ => ⟨S2000x128, .f32⟩
  | .local _ .vmem, ⟨29, _⟩ => ⟨S2000x128, .f32⟩
  | .local _ .vmem, ⟨30, _⟩ => ⟨S384x128, .bf16⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S10000x256, .bf16⟩
  | .local _ .vmem, ⟨35, _⟩ => ⟨S10000x256, .bf16⟩
  | .local _ .vmem, ⟨36, _⟩ => ⟨S256x128, .bf16⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S2000x384, .bf16⟩
  | .local _ .vmem, ⟨41, _⟩ => ⟨S2000x384, .bf16⟩
  | .local _ .vmem, ⟨42, _⟩ => ⟨S2000x128, .f32⟩
  | .local _ .vmem, ⟨43, _⟩ => ⟨S2000x128, .f32⟩
  | .local _ .vmem, ⟨44, _⟩ => ⟨S384x128, .bf16⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S100000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v13 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_cst : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst_0 : Ref sig .tc := ⟨.hbm, 79, rfl⟩
abbrev main_v21 : Ref sig .tc := ⟨.hbm, 80, rfl⟩
abbrev main_cst_1 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_cst_2 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_cst_3 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_cst_4 : Ref sig .tc := ⟨.hbm, 95, rfl⟩
abbrev main_v33 : Ref sig .tc := ⟨.hbm, 96, rfl⟩
abbrev main_cst_5 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_cst_6 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_call3_c : Ref sig .tc := ⟨.hbm, 136, rfl⟩
abbrev main_call3_v0 : Ref sig .tc := ⟨.hbm, 137, rfl⟩
abbrev main_call3_v1 : Ref sig .tc := ⟨.hbm, 138, rfl⟩
abbrev main_call3_c_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_c_1 : Ref sig .tc := ⟨.hbm, 144, rfl⟩
abbrev main_call3_c_2 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_c_3 : Ref sig .tc := ⟨.hbm, 152, rfl⟩
abbrev main_call3_v12 : Ref sig .tc := ⟨.hbm, 153, rfl⟩
abbrev main_call3_v13 : Ref sig .tc := ⟨.hbm, 154, rfl⟩
abbrev main_call3_v14 : Ref sig .tc := ⟨.hbm, 155, rfl⟩
abbrev main_call3_cst : Ref sig .tc := ⟨.hbm, 156, rfl⟩
abbrev main_call3_v15 : Ref sig .tc := ⟨.hbm, 157, rfl⟩
abbrev main_v49 : Ref sig .tc := ⟨.hbm, 158, rfl⟩
abbrev main_call4_c : Ref sig .tc := ⟨.hbm, 159, rfl⟩
abbrev main_call4_v0 : Ref sig .tc := ⟨.hbm, 160, rfl⟩
abbrev main_call4_v1 : Ref sig .tc := ⟨.hbm, 161, rfl⟩
abbrev main_call4_c_0 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_c_1 : Ref sig .tc := ⟨.hbm, 167, rfl⟩
abbrev main_call4_c_2 : Ref sig .tc := ⟨.hbm, 168, rfl⟩
abbrev main_call4_v6 : Ref sig .tc := ⟨.hbm, 169, rfl⟩
abbrev main_call4_v7 : Ref sig .tc := ⟨.hbm, 170, rfl⟩
abbrev main_call4_v8 : Ref sig .tc := ⟨.hbm, 171, rfl⟩
abbrev main_call4_v9 : Ref sig .tc := ⟨.hbm, 172, rfl⟩
abbrev main_call4_v10 : Ref sig .tc := ⟨.hbm, 173, rfl⟩
abbrev main_call4_v11 : Ref sig .tc := ⟨.hbm, 174, rfl⟩
abbrev main_call4_c_3 : Ref sig .tc := ⟨.hbm, 175, rfl⟩
abbrev main_call4_v12 : Ref sig .tc := ⟨.hbm, 176, rfl⟩
abbrev main_call4_v13 : Ref sig .tc := ⟨.hbm, 177, rfl⟩
abbrev main_call4_v14 : Ref sig .tc := ⟨.hbm, 178, rfl⟩
abbrev main_call4_cst : Ref sig .tc := ⟨.hbm, 179, rfl⟩
abbrev main_call4_v15 : Ref sig .tc := ⟨.hbm, 180, rfl⟩
abbrev main_v50 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩
abbrev main_cst_7 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_cst_8 : Ref sig .tc := ⟨.hbm, 189, rfl⟩
abbrev main_v57 : Ref sig .tc := ⟨.hbm, 190, rfl⟩
abbrev main_cst_9 : Ref sig .tc := ⟨.hbm, 191, rfl⟩
abbrev main_v58 : Ref sig .tc := ⟨.hbm, 192, rfl⟩
abbrev main_v59 : Ref sig .tc := ⟨.hbm, 193, rfl⟩
abbrev main_v60 : Ref sig .tc := ⟨.hbm, 194, rfl⟩
abbrev main_cst_10 : Ref sig .tc := ⟨.hbm, 195, rfl⟩
abbrev main_v61 : Ref sig .tc := ⟨.hbm, 196, rfl⟩
abbrev main_v62 : Ref sig .tc := ⟨.hbm, 197, rfl⟩
abbrev main_v63 : Ref sig .tc := ⟨.hbm, 198, rfl⟩
abbrev main_v64 : Ref sig .tc := ⟨.hbm, 199, rfl⟩
abbrev main_v65 : Ref sig .tc := ⟨.hbm, 200, rfl⟩
abbrev main_cst_11 : Ref sig .tc := ⟨.hbm, 201, rfl⟩
abbrev main_v66 : Ref sig .tc := ⟨.hbm, 202, rfl⟩
abbrev main_v67 : Ref sig .tc := ⟨.hbm, 203, rfl⟩
abbrev main_v68 : Ref sig .tc := ⟨.hbm, 204, rfl⟩
abbrev main_cst_12 : Ref sig .tc := ⟨.hbm, 205, rfl⟩
abbrev main_v69 : Ref sig .tc := ⟨.hbm, 206, rfl⟩
abbrev main_cst_13 : Ref sig .tc := ⟨.hbm, 207, rfl⟩
abbrev main_v70 : Ref sig .tc := ⟨.hbm, 208, rfl⟩
abbrev main_v71 : Ref sig .tc := ⟨.hbm, 209, rfl⟩
abbrev main_v72 : Ref sig .tc := ⟨.hbm, 210, rfl⟩
abbrev main_cst_14 : Ref sig .tc := ⟨.hbm, 211, rfl⟩
abbrev main_v73 : Ref sig .tc := ⟨.hbm, 212, rfl⟩
abbrev main_v74 : Ref sig .tc := ⟨.hbm, 213, rfl⟩
abbrev main_v75 : Ref sig .tc := ⟨.hbm, 214, rfl⟩
abbrev main_v76 : Ref sig .tc := ⟨.hbm, 215, rfl⟩
abbrev main_v77 : Ref sig .tc := ⟨.hbm, 216, rfl⟩
abbrev main_v78 : Ref sig .tc := ⟨.hbm, 217, rfl⟩
abbrev main_v79 : Ref sig .tc := ⟨.hbm, 218, rfl⟩
abbrev main_v80 : Ref sig .tc := ⟨.hbm, 219, rfl⟩
abbrev main_call5_c : Ref sig .tc := ⟨.hbm, 220, rfl⟩
abbrev main_call5_v0 : Ref sig .tc := ⟨.hbm, 221, rfl⟩
abbrev main_call5_v1 : Ref sig .tc := ⟨.hbm, 222, rfl⟩
abbrev main_call5_c_0 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_call5_v5 : Ref sig .tc := ⟨.hbm, 227, rfl⟩
abbrev main_call5_c_1 : Ref sig .tc := ⟨.hbm, 228, rfl⟩
abbrev main_call5_c_2 : Ref sig .tc := ⟨.hbm, 229, rfl⟩
abbrev main_call5_v6 : Ref sig .tc := ⟨.hbm, 230, rfl⟩
abbrev main_call5_v7 : Ref sig .tc := ⟨.hbm, 231, rfl⟩
abbrev main_call5_v8 : Ref sig .tc := ⟨.hbm, 232, rfl⟩
abbrev main_call5_v9 : Ref sig .tc := ⟨.hbm, 233, rfl⟩
abbrev main_call5_v10 : Ref sig .tc := ⟨.hbm, 234, rfl⟩
abbrev main_call5_v11 : Ref sig .tc := ⟨.hbm, 235, rfl⟩
abbrev main_call5_c_3 : Ref sig .tc := ⟨.hbm, 236, rfl⟩
abbrev main_call5_v12 : Ref sig .tc := ⟨.hbm, 237, rfl⟩
abbrev main_call5_v13 : Ref sig .tc := ⟨.hbm, 238, rfl⟩
abbrev main_call5_v14 : Ref sig .tc := ⟨.hbm, 239, rfl⟩
abbrev main_call5_cst : Ref sig .tc := ⟨.hbm, 240, rfl⟩
abbrev main_call5_v15 : Ref sig .tc := ⟨.hbm, 241, rfl⟩
abbrev main_v81 : Ref sig .tc := ⟨.hbm, 242, rfl⟩
abbrev main_v82 : Ref sig .tc := ⟨.hbm, 243, rfl⟩
abbrev main_v83 : Ref sig .tc := ⟨.hbm, 244, rfl⟩
abbrev main_v84 : Ref sig .tc := ⟨.hbm, 245, rfl⟩
abbrev main_call6_c : Ref sig .tc := ⟨.hbm, 246, rfl⟩
abbrev main_call6_v0 : Ref sig .tc := ⟨.hbm, 247, rfl⟩
abbrev main_call6_v1 : Ref sig .tc := ⟨.hbm, 248, rfl⟩
abbrev main_call6_c_0 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_call6_v5 : Ref sig .tc := ⟨.hbm, 253, rfl⟩
abbrev main_call6_c_1 : Ref sig .tc := ⟨.hbm, 254, rfl⟩
abbrev main_call6_c_2 : Ref sig .tc := ⟨.hbm, 255, rfl⟩
abbrev main_call6_v6 : Ref sig .tc := ⟨.hbm, 256, rfl⟩
abbrev main_call6_v7 : Ref sig .tc := ⟨.hbm, 257, rfl⟩
abbrev main_call6_v8 : Ref sig .tc := ⟨.hbm, 258, rfl⟩
abbrev main_call6_v9 : Ref sig .tc := ⟨.hbm, 259, rfl⟩
abbrev main_call6_v10 : Ref sig .tc := ⟨.hbm, 260, rfl⟩
abbrev main_call6_v11 : Ref sig .tc := ⟨.hbm, 261, rfl⟩
abbrev main_call6_c_3 : Ref sig .tc := ⟨.hbm, 262, rfl⟩
abbrev main_call6_v12 : Ref sig .tc := ⟨.hbm, 263, rfl⟩
abbrev main_call6_v13 : Ref sig .tc := ⟨.hbm, 264, rfl⟩
abbrev main_call6_v14 : Ref sig .tc := ⟨.hbm, 265, rfl⟩
abbrev main_call6_cst : Ref sig .tc := ⟨.hbm, 266, rfl⟩
abbrev main_call6_v15 : Ref sig .tc := ⟨.hbm, 267, rfl⟩
abbrev main_v85 : Ref sig .tc := ⟨.hbm, 268, rfl⟩
abbrev main_call7_c : Ref sig .tc := ⟨.hbm, 269, rfl⟩
abbrev main_call7_v0 : Ref sig .tc := ⟨.hbm, 270, rfl⟩
abbrev main_call7_v1 : Ref sig .tc := ⟨.hbm, 271, rfl⟩
abbrev main_call7_c_0 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_call7_v5 : Ref sig .tc := ⟨.hbm, 276, rfl⟩
abbrev main_call7_c_1 : Ref sig .tc := ⟨.hbm, 277, rfl⟩
abbrev main_call7_c_2 : Ref sig .tc := ⟨.hbm, 278, rfl⟩
abbrev main_call7_v6 : Ref sig .tc := ⟨.hbm, 279, rfl⟩
abbrev main_call7_v7 : Ref sig .tc := ⟨.hbm, 280, rfl⟩
abbrev main_call7_v8 : Ref sig .tc := ⟨.hbm, 281, rfl⟩
abbrev main_call7_v9 : Ref sig .tc := ⟨.hbm, 282, rfl⟩
abbrev main_call7_v10 : Ref sig .tc := ⟨.hbm, 283, rfl⟩
abbrev main_call7_v11 : Ref sig .tc := ⟨.hbm, 284, rfl⟩
abbrev main_call7_c_3 : Ref sig .tc := ⟨.hbm, 285, rfl⟩
abbrev main_call7_v12 : Ref sig .tc := ⟨.hbm, 286, rfl⟩
abbrev main_call7_v13 : Ref sig .tc := ⟨.hbm, 287, rfl⟩
abbrev main_call7_v14 : Ref sig .tc := ⟨.hbm, 288, rfl⟩
abbrev main_call7_cst : Ref sig .tc := ⟨.hbm, 289, rfl⟩
abbrev main_call7_v15 : Ref sig .tc := ⟨.hbm, 290, rfl⟩
abbrev main_v86 : Ref sig .tc := ⟨.hbm, 291, rfl⟩
abbrev main_v87 : Ref sig .tc := ⟨.hbm, 292, rfl⟩
abbrev main_v88 : Ref sig .tc := ⟨.hbm, 293, rfl⟩
abbrev main_v89 : Ref sig .tc := ⟨.hbm, 294, rfl⟩
abbrev main_cst_15 : Ref sig .tc := ⟨.hbm, 295, rfl⟩
abbrev main_v90 : Ref sig .tc := ⟨.hbm, 296, rfl⟩
abbrev main_v91 : Ref sig .tc := ⟨.hbm, 297, rfl⟩
abbrev main_v92 : Ref sig .tc := ⟨.hbm, 298, rfl⟩
abbrev main_cst_16 : Ref sig .tc := ⟨.hbm, 299, rfl⟩
abbrev main_v93 : Ref sig .tc := ⟨.hbm, 300, rfl⟩
abbrev main_cst_17 : Ref sig .tc := ⟨.hbm, 301, rfl⟩
abbrev main_v94 : Ref sig .tc := ⟨.hbm, 302, rfl⟩
abbrev main_v95 : Ref sig .tc := ⟨.hbm, 303, rfl⟩
abbrev main_v96 : Ref sig .tc := ⟨.hbm, 304, rfl⟩
abbrev main_cst_18 : Ref sig .tc := ⟨.hbm, 305, rfl⟩
abbrev main_v97 : Ref sig .tc := ⟨.hbm, 306, rfl⟩
abbrev main_v98 : Ref sig .tc := ⟨.hbm, 307, rfl⟩
abbrev main_v99 : Ref sig .tc := ⟨.hbm, 308, rfl⟩
abbrev main_v100 : Ref sig .tc := ⟨.hbm, 309, rfl⟩
abbrev main_v101 : Ref sig .tc := ⟨.hbm, 310, rfl⟩
abbrev main_cst_19 : Ref sig .tc := ⟨.hbm, 311, rfl⟩
abbrev main_v102 : Ref sig .tc := ⟨.hbm, 312, rfl⟩
abbrev main_v103 : Ref sig .tc := ⟨.hbm, 313, rfl⟩
abbrev main_v104 : Ref sig .tc := ⟨.hbm, 314, rfl⟩
abbrev main_cst_20 : Ref sig .tc := ⟨.hbm, 315, rfl⟩
abbrev main_v105 : Ref sig .tc := ⟨.hbm, 316, rfl⟩
abbrev main_cst_21 : Ref sig .tc := ⟨.hbm, 317, rfl⟩
abbrev main_v106 : Ref sig .tc := ⟨.hbm, 318, rfl⟩
abbrev main_v107 : Ref sig .tc := ⟨.hbm, 319, rfl⟩
abbrev main_v108 : Ref sig .tc := ⟨.hbm, 320, rfl⟩
abbrev main_cst_22 : Ref sig .tc := ⟨.hbm, 321, rfl⟩
abbrev main_v109 : Ref sig .tc := ⟨.hbm, 322, rfl⟩
abbrev main_v110 : Ref sig .tc := ⟨.hbm, 323, rfl⟩
abbrev main_v111 : Ref sig .tc := ⟨.hbm, 324, rfl⟩
abbrev main_v112 : Ref sig .tc := ⟨.hbm, 325, rfl⟩
abbrev main_v113 : Ref sig .tc := ⟨.hbm, 326, rfl⟩
abbrev main_v114 : Ref sig .tc := ⟨.hbm, 327, rfl⟩
abbrev main_v115 : Ref sig .tc := ⟨.hbm, 328, rfl⟩
abbrev main_v116 : Ref sig .tc := ⟨.hbm, 329, rfl⟩
abbrev main_call8_c : Ref sig .tc := ⟨.hbm, 330, rfl⟩
abbrev main_call8_v0 : Ref sig .tc := ⟨.hbm, 331, rfl⟩
abbrev main_call8_v1 : Ref sig .tc := ⟨.hbm, 332, rfl⟩
abbrev main_call8_c_0 : Ref sig .tc := ⟨.hbm, 333, rfl⟩
abbrev main_call8_v2 : Ref sig .tc := ⟨.hbm, 334, rfl⟩
abbrev main_call8_v3 : Ref sig .tc := ⟨.hbm, 335, rfl⟩
abbrev main_call8_v4 : Ref sig .tc := ⟨.hbm, 336, rfl⟩
abbrev main_call8_v5 : Ref sig .tc := ⟨.hbm, 337, rfl⟩
abbrev main_call8_c_1 : Ref sig .tc := ⟨.hbm, 338, rfl⟩
abbrev main_call8_c_2 : Ref sig .tc := ⟨.hbm, 339, rfl⟩
abbrev main_call8_v6 : Ref sig .tc := ⟨.hbm, 340, rfl⟩
abbrev main_call8_v7 : Ref sig .tc := ⟨.hbm, 341, rfl⟩
abbrev main_call8_v8 : Ref sig .tc := ⟨.hbm, 342, rfl⟩
abbrev main_call8_v9 : Ref sig .tc := ⟨.hbm, 343, rfl⟩
abbrev main_call8_v10 : Ref sig .tc := ⟨.hbm, 344, rfl⟩
abbrev main_call8_v11 : Ref sig .tc := ⟨.hbm, 345, rfl⟩
abbrev main_call8_c_3 : Ref sig .tc := ⟨.hbm, 346, rfl⟩
abbrev main_call8_v12 : Ref sig .tc := ⟨.hbm, 347, rfl⟩
abbrev main_call8_v13 : Ref sig .tc := ⟨.hbm, 348, rfl⟩
abbrev main_call8_v14 : Ref sig .tc := ⟨.hbm, 349, rfl⟩
abbrev main_call8_cst : Ref sig .tc := ⟨.hbm, 350, rfl⟩
abbrev main_call8_v15 : Ref sig .tc := ⟨.hbm, 351, rfl⟩
abbrev main_v117 : Ref sig .tc := ⟨.hbm, 352, rfl⟩
abbrev main_v118 : Ref sig .tc := ⟨.hbm, 353, rfl⟩
abbrev main_v119 : Ref sig .tc := ⟨.hbm, 354, rfl⟩
abbrev main_v120 : Ref sig .tc := ⟨.hbm, 355, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem4_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S384x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![60], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x384 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S384x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![60], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x384 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S384x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  bcast_S100000_S100000x1_0 : S100000.BroadcastsInDim S100000x1 (![0] : Fin 1 → Fin S100000x1.rank)
  concatenates_S100000x15_S100000x1_S100000x32_S100000x48_d1 : Shape.Concatenates [S100000x15, S100000x1, S100000x32] S100000x48 1
  bitsLt_bf16_f32 : FTy.bits .bf16 < FTy.bits .f32
  shapeCasts_S128_S1x128 : S128.ShapeCasts S1x128
  inb_S2000x48_S2000x48_0_0 : ∀ a, (![0, 0] : Fin 2 → Nat) a + S2000x48.size a ≤ S2000x48.size a
  h_S2000x48 : 0 < S2000x48.numel
  shapeCasts_S2000x48_S2000x48 : S2000x48.ShapeCasts S2000x48
  inb_S48x128_S48x128_0_0 : ∀ a, (![0, 0] : Fin 2 → Nat) a + S48x128.size a ≤ S48x128.size a
  h_S48x128 : 0 < S48x128.numel
  shapeCasts_S48x128_S48x128 : S48x128.ShapeCasts S48x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  concatenates_S600000x128_S600000x128_S600000x256_d1 : Shape.Concatenates [S600000x128, S600000x128] S600000x256 1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  bcast_S_S100000 : S_.BroadcastsInDim S100000 (![] : Fin 0 → Fin S100000.rank)
  bcast_S100000x1_S100000x128_0_1 : S100000x1.BroadcastsInDim S100000x128 (![0, 1] : Fin 2 → Fin S100000x128.rank)
  bcast_S_S384x128 : S_.BroadcastsInDim S384x128 (![] : Fin 0 → Fin S384x128.rank)
  bcast_S_S384 : S_.BroadcastsInDim S384 (![] : Fin 0 → Fin S384.rank)
  bcast_S384_S384x1_0 : S384.BroadcastsInDim S384x1 (![0] : Fin 1 → Fin S384x1.rank)
  bcast_S384x1_S384x128_0_1 : S384x1.BroadcastsInDim S384x128 (![0, 1] : Fin 2 → Fin S384x128.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x128_0 : S100000.BroadcastsInDim S100000x128 (![0] : Fin 1 → Fin S100000x128.rank)
  concatenates_S100000x128_S100000x128_S100000x128_S100000x384_d1 : Shape.Concatenates [S100000x128, S100000x128, S100000x128] S100000x384 1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  shapeCasts_S2000x128_S2000x128 : S2000x128.ShapeCasts S2000x128
  dot_S2000x48_S48x128_S2000x128_1_0_0_1_n_n_wf : DotDims.WF S2000x48 S48x128 S2000x128 [1] [0] [0] [1] [] []
  gather_S100000x128_S600000x1_S600000x128_1_0_n_n_0_1_1128_wf : GatherDims.WF S100000x128 S600000x1 S600000x128 [1] [0] [] [0] [] 1 ![1, 128]
  dot_S10000x256_S256x128_S10000x128_1_0_0_1_n_n_wf : DotDims.WF S10000x256 S256x128 S10000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  scatter_S384x128_S100000x1_S100000x128_1_0_0_1_wf : ScatterDims.WF S384x128 S100000x1 S100000x128 [1] [0] [0] 1
  scatter_S384_S100000x1_S100000_n_0_0_1_wf : ScatterDims.WF S384 S100000x1 S100000 [] [0] [0] 1
  gather_S384x128_S100000x1_S100000x128_1_0_n_n_0_1_1128_wf : GatherDims.WF S384x128 S100000x1 S100000x128 [1] [0] [] [0] [] 1 ![1, 128]
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x48.size a ≤ S100000x48.size a
  hwx0_0 : ∀ i : grid0.Coords, EltTy.bits .f32 = 32 ∨ (Rect.block (s := S100000x48) S2000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x128.size a ≤ S48x128.size a
  hwx0_1 : ∀ i : grid0.Coords, EltTy.bits .bf16 = 32 ∨ (Rect.block (s := S48x128) S48x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S600000x256.size a
  hwx1_0 : ∀ i : grid1.Coords, EltTy.bits .bf16 = 32 ∨ (Rect.block (s := S600000x256) S10000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S600000x128.size a
  hwx1_3 : ∀ i : grid1.Coords, EltTy.bits .f32 = 32 ∨ (Rect.block (s := S600000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x384.size a ≤ S100000x384.size a
  hwx2_0 : ∀ i : grid2.Coords, EltTy.bits .bf16 = 32 ∨ (Rect.block (s := S100000x384) S2000x384.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S384x128.size a ≤ S384x128.size a
  hwx2_2 : ∀ i : grid2.Coords, EltTy.bits .bf16 = 32 ∨ (Rect.block (s := S384x128) S384x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S600000x256.size a
  hwx3_0 : ∀ i : grid3.Coords, EltTy.bits .bf16 = 32 ∨ (Rect.block (s := S600000x256) S10000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .bf16 = 32 ∨ (Rect.block (s := S256x128) S256x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S600000x128.size a
  hwx3_3 : ∀ i : grid3.Coords, EltTy.bits .f32 = 32 ∨ (Rect.block (s := S600000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x384.size a ≤ S100000x384.size a
  hwx4_0 : ∀ i : grid4.Coords, EltTy.bits .bf16 = 32 ∨ (Rect.block (s := S100000x384) S2000x384.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S384x128.size a ≤ S384x128.size a
  hwx4_2 : ∀ i : grid4.Coords, EltTy.bits .bf16 = 32 ∨ (Rect.block (s := S384x128) S384x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x256.size a ≤ S600000x256.size a
  hwx5_0 : ∀ i : grid5.Coords, EltTy.bits .bf16 = 32 ∨ (Rect.block (s := S600000x256) S10000x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .bf16 = 32 ∨ (Rect.block (s := S256x128) S256x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S600000x128.size a
  hwx5_3 : ∀ i : grid5.Coords, EltTy.bits .f32 = 32 ∨ (Rect.block (s := S600000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x384.size a ≤ S100000x384.size a
  hwx6_0 : ∀ i : grid6.Coords, EltTy.bits .bf16 = 32 ∨ (Rect.block (s := S100000x384) S2000x384.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S384x128.size a ≤ S384x128.size a
  hwx6_2 : ∀ i : grid6.Coords, EltTy.bits .bf16 = 32 ∨ (Rect.block (s := S384x128) S384x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S100000x128.size a
  hwx6_4 : ∀ i : grid6.Coords, EltTy.bits .f32 = 32 ∨ (Rect.block (s := S100000x128) S2000x128.size (cc6_transform_4 i) (hinb6_4 i)).WholeWords (EltTy.packing .f32)

variable [Facts₀]

def dot_S2000x48_S48x128_S2000x128_1_0_0_1_n_n : DotDims S2000x48 S48x128 S2000x128 where
  lhsContracting := [1]
  rhsContracting := [0]
  lhsNonContracting := [0]
  rhsNonContracting := [1]
  lhsBatch := []
  rhsBatch := []
  wf := dot_S2000x48_S48x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S384x128_S100000x1_S100000x128_1_0_0_1 : ScatterDims S384x128 S100000x1 S100000x128 where
  updateWindowDims := [1]
  insertedWindowDims := [0]
  scatterDimsToOperandDims := [0]
  indexVectorDim := 1
  wf := scatter_S384x128_S100000x1_S100000x128_1_0_0_1_wf
def scatter_S384_S100000x1_S100000_n_0_0_1 : ScatterDims S384 S100000x1 S100000 where
  updateWindowDims := []
  insertedWindowDims := [0]
  scatterDimsToOperandDims := [0]
  indexVectorDim := 1
  wf := scatter_S384_S100000x1_S100000_n_0_0_1_wf
def gather_S384x128_S100000x1_S100000x128_1_0_n_n_0_1_1128 : GatherDims S384x128 S100000x1 S100000x128 where
  offsetDims := [1]
  collapsedSliceDims := [0]
  operandBatchingDims := []
  startIndicesBatchingDims := []
  startIndexMap := [0]
  indexVectorDim := 1
  sliceSizes := ![1, 128]
  wf := gather_S384x128_S100000x1_S100000x128_1_0_n_n_0_1_1128_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_v1) S2000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S48x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S2000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S384x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v83) S2000x384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S384x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v12) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v88) S10000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v10) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v119) S2000x384.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S384x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v12) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v120) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x15 : Shape := ⟨2, ![100000, 15]⟩
abbrev S100000 : Shape := ⟨1, ![100000]⟩
abbrev S100000x32 : Shape := ⟨2, ![100000, 32]⟩
abbrev S384 : Shape := ⟨1, ![384]⟩
abbrev S48x128 : Shape := ⟨2, ![48, 128]⟩
abbrev S128 : Shape := ⟨1, ![128]⟩
abbrev S256x128 : Shape := ⟨2, ![256, 128]⟩
abbrev S384x128 : Shape := ⟨2, ![384, 128]⟩
abbrev S2x600000 : Shape := ⟨2, ![2, 600000]⟩
abbrev S100000x1 : Shape := ⟨2, ![100000, 1]⟩
abbrev S100000x48 : Shape := ⟨2, ![100000, 48]⟩
abbrev S100000x128 : Shape := ⟨2, ![100000, 128]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S384x1 : Shape := ⟨2, ![384, 1]⟩
abbrev S100000x384 : Shape := ⟨2, ![100000, 384]⟩

abbrev nBuf : Space → Nat
  | .hbm => 263
  | .vmem => 0
  | .smem => 0
  | _ => 0

abbrev hbmTy0_0 (i : Nat) : BufTy := match i % 128 with
  | 0 => ⟨S100000x15, .f32⟩
  | 1 => ⟨S100000, .f32⟩
  | 2 => ⟨S100000x32, .f32⟩
  | 3 => ⟨S384, .f32⟩
  | 4 => ⟨S48x128, .f32⟩
  | 5 => ⟨S128, .f32⟩
  | 6 => ⟨S256x128, .f32⟩
  | 7 => ⟨S128, .f32⟩
  | 8 => ⟨S384x128, .f32⟩
  | 9 => ⟨S128, .f32⟩
  | 10 => ⟨S2x600000, .i32⟩
  | 11 => ⟨S100000, .i32⟩
  | 12 => ⟨S100000, .i32⟩
  | 13 => ⟨S100000x1, .f32⟩
  | 14 => ⟨S100000x48, .f32⟩
  | 15 => ⟨S100000x128, .f32⟩
  | 16 => ⟨S1x128, .f32⟩
  | 17 => ⟨S100000x128, .f32⟩
  | 18 => ⟨S100000x128, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x256, .f32⟩
  | 42 => ⟨S600000x128, .f32⟩
  | 43 => ⟨S1x128, .f32⟩
  | 44 => ⟨S600000x128, .f32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S_, .f32⟩
  | 51 => ⟨S600000, .f32⟩
  | 52 => ⟨S_, .f32⟩
  | 53 => ⟨S100000, .f32⟩
  | 54 => ⟨S600000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S_, .f32⟩
  | 63 => ⟨S384x128, .f32⟩
  | 64 => ⟨S100000x1, .i32⟩
  | 65 => ⟨S384x128, .f32⟩
  | 66 => ⟨S_, .f32⟩
  | 67 => ⟨S100000, .f32⟩
  | 68 => ⟨S_, .f32⟩
  | 69 => ⟨S384, .f32⟩
  | 70 => ⟨S100000x1, .i32⟩
  | 71 => ⟨S384, .f32⟩
  | 72 => ⟨S_, .f32⟩
  | 73 => ⟨S384, .f32⟩
  | 74 => ⟨S384, .f32⟩
  | 75 => ⟨S384x1, .f32⟩
  | 76 => ⟨S384x128, .f32⟩
  | 77 => ⟨S384x128, .f32⟩
  | 78 => ⟨S384x1, .f32⟩
  | 79 => ⟨S384x128, .f32⟩
  | 80 => ⟨S384x128, .f32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x128, .f32⟩
  | 90 => ⟨S100000x384, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .i1⟩
  | 98 => ⟨S_, .f32⟩
  | 99 => ⟨S100000x128, .f32⟩
  | 100 => ⟨S100000x128, .f32⟩
  | 101 => ⟨S100000x128, .f32⟩
  | 102 => ⟨S100000x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S600000x256, .f32⟩
  | 122 => ⟨S600000x128, .f32⟩
  | 123 => ⟨S1x128, .f32⟩
  | 124 => ⟨S600000x128, .f32⟩
  | 125 => ⟨S600000x128, .f32⟩
  | 126 => ⟨S_, .f32⟩
  | 127 => ⟨S100000x128, .f32⟩
  | _ => ⟨S100000x15, .f32⟩

abbrev hbmTy0_1 (i : Nat) : BufTy := match i % 128 with
  | 0 => ⟨S600000x1, .i32⟩
  | 1 => ⟨S100000x128, .f32⟩
  | 2 => ⟨S_, .f32⟩
  | 3 => ⟨S600000, .f32⟩
  | 4 => ⟨S_, .f32⟩
  | 5 => ⟨S100000, .f32⟩
  | 6 => ⟨S600000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x128, .f32⟩
  | 13 => ⟨S100000x128, .f32⟩
  | 14 => ⟨S_, .f32⟩
  | 15 => ⟨S384x128, .f32⟩
  | 16 => ⟨S100000x1, .i32⟩
  | 17 => ⟨S384x128, .f32⟩
  | 18 => ⟨S_, .f32⟩
  | 19 => ⟨S100000, .f32⟩
  | 20 => ⟨S_, .f32⟩
  | 21 => ⟨S384, .f32⟩
  | 22 => ⟨S100000x1, .i32⟩
  | 23 => ⟨S384, .f32⟩
  | 24 => ⟨S_, .f32⟩
  | 25 => ⟨S384, .f32⟩
  | 26 => ⟨S384, .f32⟩
  | 27 => ⟨S384x1, .f32⟩
  | 28 => ⟨S384x128, .f32⟩
  | 29 => ⟨S384x128, .f32⟩
  | 30 => ⟨S384x1, .f32⟩
  | 31 => ⟨S384x128, .f32⟩
  | 32 => ⟨S384x128, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x128, .f32⟩
  | 42 => ⟨S100000x384, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .i1⟩
  | 50 => ⟨S_, .f32⟩
  | 51 => ⟨S100000x128, .f32⟩
  | 52 => ⟨S100000x128, .f32⟩
  | 53 => ⟨S100000x128, .f32⟩
  | 54 => ⟨S100000x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S600000x256, .f32⟩
  | 74 => ⟨S600000x128, .f32⟩
  | 75 => ⟨S1x128, .f32⟩
  | 76 => ⟨S600000x128, .f32⟩
  | 77 => ⟨S600000x128, .f32⟩
  | 78 => ⟨S_, .f32⟩
  | 79 => ⟨S100000x128, .f32⟩
  | 80 => ⟨S600000x1, .i32⟩
  | 81 => ⟨S100000x128, .f32⟩
  | 82 => ⟨S_, .f32⟩
  | 83 => ⟨S600000, .f32⟩
  | 84 => ⟨S_, .f32⟩
  | 85 => ⟨S100000, .f32⟩
  | 86 => ⟨S600000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x128, .f32⟩
  | 93 => ⟨S100000x128, .f32⟩
  | 94 => ⟨S_, .f32⟩
  | 95 => ⟨S384x128, .f32⟩
  | 96 => ⟨S100000x1, .i32⟩
  | 97 => ⟨S384x128, .f32⟩
  | 98 => ⟨S_, .f32⟩
  | 99 => ⟨S100000, .f32⟩
  | 100 => ⟨S_, .f32⟩
  | 101 => ⟨S384, .f32⟩
  | 102 => ⟨S100000x1, .i32⟩
  | 103 => ⟨S384, .f32⟩
  | 104 => ⟨S_, .f32⟩
  | 105 => ⟨S384, .f32⟩
  | 106 => ⟨S384, .f32⟩
  | 107 => ⟨S384x1, .f32⟩
  | 108 => ⟨S384x128, .f32⟩
  | 109 => ⟨S384x128, .f32⟩
  | 110 => ⟨S384x1, .f32⟩
  | 111 => ⟨S384x128, .f32⟩
  | 112 => ⟨S384x128, .f32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x128, .f32⟩
  | 122 => ⟨S100000x384, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x15, .f32⟩

abbrev hbmTy0_2 (i : Nat) : BufTy := match i % 128 with
  | 0 => ⟨S100000x128, .f32⟩
  | 1 => ⟨S100000x128, .i1⟩
  | 2 => ⟨S_, .f32⟩
  | 3 => ⟨S100000x128, .f32⟩
  | 4 => ⟨S100000x128, .f32⟩
  | 5 => ⟨S100000x128, .f32⟩
  | 6 => ⟨S100000x128, .f32⟩
  | _ => ⟨S100000x15, .f32⟩

abbrev hbmTy (i : Nat) : BufTy := match i / 128 with
  | 0 => hbmTy0_0 i
  | 1 => hbmTy0_1 i
  | 2 => hbmTy0_2 i
  | _ => ⟨S100000x15, .f32⟩

abbrev bufTy : (tb : Table) → Fin (tcTables nBuf tb) → BufTy
  | .hbm, ⟨i, _⟩ => hbmTy i
  | _, _ => ⟨S100000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_19 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_21 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_23 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_26 : Ref sig .tc := ⟨.hbm, 161, rfl⟩
abbrev main_v120 : Ref sig .tc := ⟨.hbm, 162, rfl⟩
abbrev main_v121 : Ref sig .tc := ⟨.hbm, 163, rfl⟩
abbrev main_c_27 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_28 : Ref sig .tc := ⟨.hbm, 175, rfl⟩
abbrev main_v132 : Ref sig .tc := ⟨.hbm, 176, rfl⟩
abbrev main_v133 : Ref sig .tc := ⟨.hbm, 177, rfl⟩
abbrev main_cst_29 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_30 : Ref sig .tc := ⟨.hbm, 183, rfl⟩
abbrev main_v138 : Ref sig .tc := ⟨.hbm, 184, rfl⟩
abbrev main_v139 : Ref sig .tc := ⟨.hbm, 185, rfl⟩
abbrev main_c_31 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_32 : Ref sig .tc := ⟨.hbm, 192, rfl⟩
abbrev main_v145 : Ref sig .tc := ⟨.hbm, 193, rfl⟩
abbrev main_v146 : Ref sig .tc := ⟨.hbm, 194, rfl⟩
abbrev main_c_33 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_34 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_35 : Ref sig .tc := ⟨.hbm, 210, rfl⟩
abbrev main_v160 : Ref sig .tc := ⟨.hbm, 211, rfl⟩
abbrev main_cst_36 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_37 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_38 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_39 : Ref sig .tc := ⟨.hbm, 226, rfl⟩
abbrev main_v172 : Ref sig .tc := ⟨.hbm, 227, rfl⟩
abbrev main_cst_40 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_41 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_c_42 : Ref sig .tc := ⟨.hbm, 241, rfl⟩
abbrev main_v184 : Ref sig .tc := ⟨.hbm, 242, rfl⟩
abbrev main_v185 : Ref sig .tc := ⟨.hbm, 243, rfl⟩
abbrev main_c_43 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_cst_44 : Ref sig .tc := ⟨.hbm, 255, rfl⟩
abbrev main_v196 : Ref sig .tc := ⟨.hbm, 256, rfl⟩
abbrev main_v197 : Ref sig .tc := ⟨.hbm, 257, rfl⟩
abbrev main_cst_45 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  concatenates_S100000x15_S100000x1_S100000x32_S100000x48_d1 : Shape.Concatenates [S100000x15, S100000x1, S100000x32] S100000x48 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  bcast_S_S100000 : S_.BroadcastsInDim S100000 (![] : Fin 0 → Fin S100000.rank)
  bcast_S100000x1_S100000x128_0_1 : S100000x1.BroadcastsInDim S100000x128 (![0, 1] : Fin 2 → Fin S100000x128.rank)
  bcast_S_S384x128 : S_.BroadcastsInDim S384x128 (![] : Fin 0 → Fin S384x128.rank)
  bcast_S_S384 : S_.BroadcastsInDim S384 (![] : Fin 0 → Fin S384.rank)
  bcast_S384_S384x1_0 : S384.BroadcastsInDim S384x1 (![0] : Fin 1 → Fin S384x1.rank)
  bcast_S384x1_S384x128_0_1 : S384x1.BroadcastsInDim S384x128 (![0, 1] : Fin 2 → Fin S384x128.rank)
  concatenates_S100000x128_S100000x128_S100000x128_S100000x384_d1 : Shape.Concatenates [S100000x128, S100000x128, S100000x128] S100000x384 1
  dot_S100000x48_S48x128_S100000x128_1_0_0_1_n_n_wf : DotDims.WF S100000x48 S48x128 S100000x128 [1] [0] [0] [1] [] []
  gather_S100000x128_S600000x1_S600000x128_1_0_n_n_0_1_1128_wf : GatherDims.WF S100000x128 S600000x1 S600000x128 [1] [0] [] [0] [] 1 ![1, 128]
  dot_S600000x256_S256x128_S600000x128_1_0_0_1_n_n_wf : DotDims.WF S600000x256 S256x128 S600000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  scatter_S384x128_S100000x1_S100000x128_1_0_0_1_wf : ScatterDims.WF S384x128 S100000x1 S100000x128 [1] [0] [0] 1
  scatter_S384_S100000x1_S100000_n_0_0_1_wf : ScatterDims.WF S384 S100000x1 S100000 [] [0] [0] 1
  gather_S384x128_S100000x1_S100000x128_1_0_n_n_0_1_1128_wf : GatherDims.WF S384x128 S100000x1 S100000x128 [1] [0] [] [0] [] 1 ![1, 128]
  dot_S100000x384_S384x128_S100000x128_1_0_0_1_n_n_wf : DotDims.WF S100000x384 S384x128 S100000x128 [1] [0] [0] [1] [] []

variable [Facts₀]

def dot_S100000x48_S48x128_S100000x128_1_0_0_1_n_n : DotDims S100000x48 S48x128 S100000x128 where
  lhsContracting := [1]
  rhsContracting := [0]
  lhsNonContracting := [0]
  rhsNonContracting := [1]
  lhsBatch := []
  rhsBatch := []
  wf := dot_S100000x48_S48x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S384x128_S100000x1_S100000x128_1_0_0_1 : ScatterDims S384x128 S100000x1 S100000x128 where
  updateWindowDims := [1]
  insertedWindowDims := [0]
  scatterDimsToOperandDims := [0]
  indexVectorDim := 1
  wf := scatter_S384x128_S100000x1_S100000x128_1_0_0_1_wf
def scatter_S384_S100000x1_S100000_n_0_0_1 : ScatterDims S384 S100000x1 S100000 where
  updateWindowDims := []
  insertedWindowDims := [0]
  scatterDimsToOperandDims := [0]
  indexVectorDim := 1
  wf := scatter_S384_S100000x1_S100000_n_0_0_1_wf
def gather_S384x128_S100000x1_S100000x128_1_0_n_n_0_1_1128 : GatherDims S384x128 S100000x1 S100000x128 where
  offsetDims := [1]
  collapsedSliceDims := [0]
  operandBatchingDims := []
  startIndicesBatchingDims := []
  startIndexMap := [0]
  indexVectorDim := 1
  sliceSizes := ![1, 128]
  wf := gather_S384x128_S100000x1_S100000x128_1_0_n_n_0_1_1128_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.K.Region0.lean ====
import proofs.«426792_j34668976013873_1_alg».proof.Proof.Gen.Kernel.Launch
import proofs.«426792_j34668976013873_1_alg».proof.Proof.Gen.Kernel.Skeleton
import proofs.«426792_j34668976013873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_i0 : Rect S2000x48 := Rect.unit (s := S2000x48) ![0, 0] S2000x48.size inb_S2000x48_S2000x48_0_0
abbrev r0_i1 : Rect S48x128 := Rect.unit (s := S48x128) ![0, 0] S48x128.size inb_S48x128_S48x128_0_0
abbrev r0_i2 : Rect S1x128 := Rect.unit (s := S1x128) ![0, 0] S1x128.size inb_S1x128_S1x128_0_0
abbrev r0_o : Rect S2000x128 := Rect.unit (s := S2000x128) ![0, 0] S2000x128.size inb_S2000x128_S2000x128_0_0

def out0 (x0 : Vec F S2000x48 .f32) (x1 : Vec F S48x128 .bf16) (x2 : Vec F S1x128 .f32) : Vec F S2000x128 .f32 :=
  View.canon [⟨r0_o, k0_pay1 (View.ld x0 (r0_i0)) (View.ld x1 (r0_i1)) (View.ld x2 (r0_i2))⟩]

theorem cover0 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
theorem sound_kernel0 (c : Dev nD) (E : Set ℕ) (i : grid0.Coords) (arg0 : Memref sig .tc .vmem S2000x48 .f32) (harg0 : arg0.IsWhole) (arg1 : Memref sig .tc .vmem S48x128 .bf16) (harg1 : arg1.IsWhole) (arg2 : Memref sig .tc .vmem S1x128 .f32) (harg2 : arg2.IsWhole) (arg3 : Memref sig .tc .vmem S2000x128 .f32) (harg3 : arg3.IsWhole)
    (x0 : Vec F S2000x48 .f32) (x1 : Vec F S48x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0 x0 x1 x2)) -∗ K ⟨⟩))
      ⊢ wp frame (wpE (defs₀ (F := F)) Variants.none c none) E (cc0__encode_kernel i arg0 harg0 arg1 harg1 arg2 harg2 arg3 harg3) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Rgn

end
-- ==== Proof.K.Region1.lean ====
import proofs.«426792_j34668976013873_1_alg».proof.Proof.Gen.Kernel.Launch
import proofs.«426792_j34668976013873_1_alg».proof.Proof.Gen.Kernel.Skeleton
import proofs.«426792_j34668976013873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_i0 : Rect S10000x256 := Rect.unit (s := S10000x256) ![0, 0] S10000x256.size inb_S10000x256_S10000x256_0_0
abbrev r1_i1 : Rect S256x128 := Rect.unit (s := S256x128) ![0, 0] S256x128.size inb_S256x128_S256x128_0_0
abbrev r1_i2 : Rect S1x128 := Rect.unit (s := S1x128) ![0, 0] S1x128.size inb_S1x128_S1x128_0_0
abbrev r1_o : Rect S10000x128 := Rect.unit (s := S10000x128) ![0, 0] S10000x128.size inb_S10000x128_S10000x128_0_0

def out1 (x0 : Vec F S10000x256 .bf16) (x1 : Vec F S256x128 .bf16) (x2 : Vec F S1x128 .f32) : Vec F S10000x128 .f32 :=
  View.canon [⟨r1_o, k1_pay1 (View.ld x0 (r1_i0)) (View.ld x1 (r1_i1)) (View.ld x2 (r1_i2))⟩]

theorem cover1 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

set_option maxHeartbeats 1000000 in
theorem sound_kernel1 (c : Dev nD) (E : Set ℕ) (i : grid1.Coords) (arg0 : Memref sig .tc .vmem S10000x256 .bf16) (harg0 : arg0.IsWhole) (arg1 : Memref sig .tc .vmem S256x128 .bf16) (harg1 : arg1.IsWhole) (arg2 : Memref sig .tc .vmem S1x128 .f32) (harg2 : arg2.IsWhole) (arg3 : Memref sig .tc .vmem S10000x128 .f32) (harg3 : arg3.IsWhole)
    (x0 : Vec F S10000x256 .bf16) (x1 : Vec F S256x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1 x0 x1 x2)) -∗ K ⟨⟩))
      ⊢ wp frame (wpE (defs₀ (F := F)) Variants.none c none) E (cc1__message_kernel i arg0 harg0 arg1 harg1 arg2 harg2 arg3 harg3) K := by
  simp only [cc1__message_kernel_eq_skeleton]; unfold cc1__message_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Rgn

end
-- ==== Proof.K.Region2.lean ====
import proofs.«426792_j34668976013873_1_alg».proof.Proof.Gen.Kernel.Launch
import proofs.«426792_j34668976013873_1_alg».proof.Proof.Gen.Kernel.Skeleton
import proofs.«426792_j34668976013873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_i0 : Rect S2000x384 := Rect.unit (s := S2000x384) ![0, 0] S2000x384.size inb_S2000x384_S2000x384_0_0
abbrev r2_i1 : Rect S2000x128 := Rect.unit (s := S2000x128) ![0, 0] S2000x128.size inb_S2000x128_S2000x128_0_0
abbrev r2_i2 : Rect S384x128 := Rect.unit (s := S384x128) ![0, 0] S384x128.size inb_S384x128_S384x128_0_0
abbrev r2_i3 : Rect S1x128 := Rect.unit (s := S1x128) ![0, 0] S1x128.size inb_S1x128_S1x128_0_0
abbrev r2_o : Rect S2000x128 := Rect.unit (s := S2000x128) ![0, 0] S2000x128.size inb_S2000x128_S2000x128_0_0

def out2 (x0 : Vec F S2000x384 .bf16) (x1 : Vec F S2000x128 .f32) (x2 : Vec F S384x128 .bf16) (x3 : Vec F S1x128 .f32) : Vec F S2000x128 .f32 :=
  View.canon [⟨r2_o, k2_pay1 (View.ld x0 (r2_i0)) (View.ld x2 (r2_i2)) (View.ld x3 (r2_i3)) (View.ld x1 (r2_i1))⟩]

theorem cover2 (p0 : Vec F S2000x128 .f32) (y : S2000x128.Idx) :
    ∃ pc ∈ ([⟨r2_o, p0⟩] : List (View.Piece (Elt F) S2000x128 .f32)), y ∈ pc.1.set :=
  View.cover_of_tiled [⟨r2_o, p0⟩] S2000x128.size (by rfl) y

set_option maxHeartbeats 1000000 in
theorem sound_kernel2 (c : Dev nD) (E : Set ℕ) (i : grid2.Coords) (arg0 : Memref sig .tc .vmem S2000x384 .bf16) (harg0 : arg0.IsWhole) (arg1 : Memref sig .tc .vmem S2000x128 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x384 .bf16) (x1 : Vec F S2000x128 .f32) (x2 : Vec F S384x128 .bf16) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2 x0 x1 x2 x3)) -∗ K ⟨⟩))
      ⊢ wp frame (wpE (defs₀ (F := F)) Variants.none c none) E (cc2__update_kernel i arg0 harg0 arg1 harg1 arg2 harg2 arg3 harg3 arg4 harg4) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Rgn

end
-- ==== Proof.K.Region3.lean ====
import proofs.«426792_j34668976013873_1_alg».proof.Proof.Gen.Kernel.Launch
import proofs.«426792_j34668976013873_1_alg».proof.Proof.Gen.Kernel.Skeleton
import proofs.«426792_j34668976013873_1_alg».proof.Proof.Gen.Kernel.Points
import proofs.«426792_j34668976013873_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_i0 : Rect S10000x256 := Rect.unit (s := S10000x256) ![0, 0] S10000x256.size inb_S10000x256_S10000x256_0_0
abbrev r3_i1 : Rect S256x128 := Rect.unit (s := S256x128) ![0, 0] S256x128.size inb_S256x128_S256x128_0_0
abbrev r3_i2 : Rect S1x128 := Rect.unit (s := S1x128) ![0, 0] S1x128.size inb_S1x128_S1x128_0_0
abbrev r3_o : Rect S10000x128 := Rect.unit (s := S10000x128) ![0, 0] S10000x128.size inb_S10000x128_S10000x128_0_0

def out3 (x0 : Vec F S10000x256 .bf16) (x1 : Vec F S256x128 .bf16) (x2 : Vec F S1x128 .f32) : Vec F S10000x128 .f32 :=
  View.canon [⟨r3_o, k3_pay1 (View.ld x0 (r3_i0)) (View.ld x1 (r3_i1)) (View.ld x2 (r3_i2))⟩]

theorem sound_kernel3 (c : Dev nD) (E : Set ℕ) (i : grid3.Coords) (arg0 : Memref sig .tc .vmem S10000x256 .bf16) (harg0 : arg0.IsWhole) (arg1 : Memref sig .tc .vmem S256x128 .bf16) (harg1 : arg1.IsWhole) (arg2 : Memref sig .tc .vmem S1x128 .f32) (harg2 : arg2.IsWhole) (arg3 : Memref sig .tc .vmem S10000x128 .f32) (harg3 : arg3.IsWhole)
    (x0 : Vec F S10000x256 .bf16) (x1 : Vec F S256x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3 x0 x1 x2)) -∗ K ⟨⟩))
      ⊢ wp frame (wpE (defs₀ (F := F)) Variants.none c none) E (cc3__message_kernel i arg0 harg0 arg1 harg1 arg2 harg2 arg3 harg3) K :=
  sound_kernel1 c E i arg0 harg0 arg1 harg1 arg2 harg2 arg3 harg3 x0 x1 x2 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Rgn

end
-- ==== Proof.K.Region4.lean ====
import proofs.«426792_j34668976013873_1_alg».proof.Proof.Gen.Kernel.Launch
import proofs.«426792_j34668976013873_1_alg».proof.Proof.Gen.Kernel.Skeleton
import proofs.«426792_j34668976013873_1_alg».proof.Proof.Gen.Kernel.Points
import proofs.«426792_j34668976013873_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_i0 : Rect S2000x384 := Rect.unit (s := S2000x384) ![0, 0] S2000x384.size inb_S2000x384_S2000x384_0_0
abbrev r4_i1 : Rect S2000x128 := Rect.unit (s := S2000x128) ![0, 0] S2000x128.size inb_S2000x128_S2000x128_0_0
abbrev r4_i2 : Rect S384x128 := Rect.unit (s := S384x128) ![0, 0] S384x128.size inb_S384x128_S384x128_0_0
abbrev r4_i3 : Rect S1x128 := Rect.unit (s := S1x128) ![0, 0] S1x128.size inb_S1x128_S1x128_0_0
abbrev r4_o : Rect S2000x128 := Rect.unit (s := S2000x128) ![0, 0] S2000x128.size inb_S2000x128_S2000x128_0_0

def out4 (x0 : Vec F S2000x384 .bf16) (x1 : Vec F S2000x128 .f32) (x2 : Vec F S384x128 .bf16) (x3 : Vec F S1x128 .f32) : Vec F S2000x128 .f32 :=
  View.canon [⟨r4_o, k4_pay1 (View.ld x0 (r4_i0)) (View.ld x2 (r4_i2)) (View.ld x3 (r4_i3)) (View.ld x1 (r4_i1))⟩]

theorem sound_kernel4 (c : Dev nD) (E : Set ℕ) (i : grid4.Coords) (arg0 : Memref sig .tc .vmem S2000x384 .bf16) (harg0 : arg0.IsWhole) (arg1 : Memref sig .tc .vmem S2000x128 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x384 .bf16) (x1 : Vec F S2000x128 .f32) (x2 : Vec F S384x128 .bf16) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4 x0 x1 x2 x3)) -∗ K ⟨⟩))
      ⊢ wp frame (wpE (defs₀ (F := F)) Variants.none c none) E (cc4__update_kernel i arg0 harg0 arg1 harg1 arg2 harg2 arg3 harg3 arg4 harg4) K :=
  sound_kernel2 c E i arg0 harg0 arg1 harg1 arg2 harg2 arg3 harg3 arg4 harg4 x0 x1 x2 x3 K

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Rgn

end
-- ==== Proof.K.Region5.lean ====
import proofs.«426792_j34668976013873_1_alg».proof.Proof.Gen.Kernel.Launch
import proofs.«426792_j34668976013873_1_alg».proof.Proof.Gen.Kernel.Skeleton
import proofs.«426792_j34668976013873_1_alg».proof.Proof.Gen.Kernel.Points
import proofs.«426792_j34668976013873_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_i0 : Rect S10000x256 := Rect.unit (s := S10000x256) ![0, 0] S10000x256.size inb_S10000x256_S10000x256_0_0
abbrev r5_i1 : Rect S256x128 := Rect.unit (s := S256x128) ![0, 0] S256x128.size inb_S256x128_S256x128_0_0
abbrev r5_i2 : Rect S1x128 := Rect.unit (s := S1x128) ![0, 0] S1x128.size inb_S1x128_S1x128_0_0
abbrev r5_o : Rect S10000x128 := Rect.unit (s := S10000x128) ![0, 0] S10000x128.size inb_S10000x128_S10000x128_0_0

def out5 (x0 : Vec F S10000x256 .bf16) (x1 : Vec F S256x128 .bf16) (x2 : Vec F S1x128 .f32) : Vec F S10000x128 .f32 :=
  View.canon [⟨r5_o, k5_pay1 (View.ld x0 (r5_i0)) (View.ld x1 (r5_i1)) (View.ld x2 (r5_i2))⟩]

theorem sound_kernel5 (c : Dev nD) (E : Set ℕ) (i : grid5.Coords) (arg0 : Memref sig .tc .vmem S10000x256 .bf16) (harg0 : arg0.IsWhole) (arg1 : Memref sig .tc .vmem S256x128 .bf16) (harg1 : arg1.IsWhole) (arg2 : Memref sig .tc .vmem S1x128 .f32) (harg2 : arg2.IsWhole) (arg3 : Memref sig .tc .vmem S10000x128 .f32) (harg3 : arg3.IsWhole)
    (x0 : Vec F S10000x256 .bf16) (x1 : Vec F S256x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5 x0 x1 x2)) -∗ K ⟨⟩))
      ⊢ wp frame (wpE (defs₀ (F := F)) Variants.none c none) E (cc5__message_kernel i arg0 harg0 arg1 harg1 arg2 harg2 arg3 harg3) K :=
  sound_kernel1 c E i arg0 harg0 arg1 harg1 arg2 harg2 arg3 harg3 x0 x1 x2 K

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Rgn

end
-- ==== Proof.K.Region6.lean ====
import proofs.«426792_j34668976013873_1_alg».proof.Proof.Gen.Kernel.Launch
import proofs.«426792_j34668976013873_1_alg».proof.Proof.Gen.Kernel.Skeleton
import proofs.«426792_j34668976013873_1_alg».proof.Proof.Gen.Kernel.Points
import proofs.«426792_j34668976013873_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_i0 : Rect S2000x384 := Rect.unit (s := S2000x384) ![0, 0] S2000x384.size inb_S2000x384_S2000x384_0_0
abbrev r6_i1 : Rect S2000x128 := Rect.unit (s := S2000x128) ![0, 0] S2000x128.size inb_S2000x128_S2000x128_0_0
abbrev r6_i2 : Rect S384x128 := Rect.unit (s := S384x128) ![0, 0] S384x128.size inb_S384x128_S384x128_0_0
abbrev r6_i3 : Rect S1x128 := Rect.unit (s := S1x128) ![0, 0] S1x128.size inb_S1x128_S1x128_0_0
abbrev r6_o : Rect S2000x128 := Rect.unit (s := S2000x128) ![0, 0] S2000x128.size inb_S2000x128_S2000x128_0_0

def out6 (x0 : Vec F S2000x384 .bf16) (x1 : Vec F S2000x128 .f32) (x2 : Vec F S384x128 .bf16) (x3 : Vec F S1x128 .f32) : Vec F S2000x128 .f32 :=
  View.canon [⟨r6_o, k6_pay1 (View.ld x0 (r6_i0)) (View.ld x2 (r6_i2)) (View.ld x3 (r6_i3)) (View.ld x1 (r6_i1))⟩]

theorem sound_kernel6 (c : Dev nD) (E : Set ℕ) (i : grid6.Coords) (arg0 : Memref sig .tc .vmem S2000x384 .bf16) (harg0 : arg0.IsWhole) (arg1 : Memref sig .tc .vmem S2000x128 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x384 .bf16) (x1 : Vec F S2000x128 .f32) (x2 : Vec F S384x128 .bf16) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out6 x0 x1 x2 x3)) -∗ K ⟨⟩))
      ⊢ wp frame (wpE (defs₀ (F := F)) Variants.none c none) E (cc6__update_kernel i arg0 harg0 arg1 harg1 arg2 harg2 arg3 harg3 arg4 harg4) K :=
  sound_kernel2 c E i arg0 harg0 arg1 harg1 arg2 harg2 arg3 harg3 arg4 harg4 x0 x1 x2 x3 K

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 (c : Dev nD) : BodyObligation (dat6 (F := F) V c) (defs₀ (F := F)) Variants.none () Set.univ := fun t => by
  rw [bigSep_W6, bigSep_W6]
  exact sound_body6 V c t

end Cert.Kernel.Rgn

end
-- ==== Proof.K.Regs.lean ====
import proofs.«426792_j34668976013873_1_alg».proof.Proof.Gen.Kernel.Regions
import proofs.«426792_j34668976013873_1_alg».proof.Proof.K.Region0
import proofs.«426792_j34668976013873_1_alg».proof.Proof.K.Region1
import proofs.«426792_j34668976013873_1_alg».proof.Proof.K.Region2
import proofs.«426792_j34668976013873_1_alg».proof.Proof.K.Region3
import proofs.«426792_j34668976013873_1_alg».proof.Proof.K.Region4
import proofs.«426792_j34668976013873_1_alg».proof.Proof.K.Region5
import proofs.«426792_j34668976013873_1_alg».proof.Proof.K.Region6
import Idealize.ShloMosaic.Lib.Pipeline.Kit

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def W0 (c : Dev nD) : Valuation τ sig (Elt F) := fun b => m (c, b)

def W1 (c : Dev nD) : Valuation τ sig (Elt F) := StableHlo.after hostOps0 (W0 m c)

def o2 (c : Dev nD) : Buf (Elt F) ((c : Thread nD τ).loc main_v4) := (dat0 (fun c b => W1 m c b) c).arrAt 3 cfg0.N

def W2 (c : Dev nD) : Valuation τ sig (Elt F) := Function.update (W1 m c) main_v4 (o2 m c)

def W3 (c : Dev nD) : Valuation τ sig (Elt F) := StableHlo.after hostOps1 (W2 m c)

def W4 (c : Dev nD) : Valuation τ sig (Elt F) := StableHlo.after hostOps1_1 (W3 m c)

def W5 (c : Dev nD) : Valuation τ sig (Elt F) := StableHlo.after hostOps1_2 (W4 m c)

def W6 (c : Dev nD) : Valuation τ sig (Elt F) := StableHlo.after hostOps1_3 (W5 m c)

def o7 (c : Dev nD) : Buf (Elt F) ((c : Thread nD τ).loc main_v17) := (dat1 (fun c b => W6 m c b) c).arrAt 3 cfg1.N

def W7 (c : Dev nD) : Valuation τ sig (Elt F) := Function.update (W6 m c) main_v17 (o7 m c)

def W8 (c : Dev nD) : Valuation τ sig (Elt F) := StableHlo.after hostOps2 (W7 m c)

def W9 (c : Dev nD) : Valuation τ sig (Elt F) := StableHlo.after hostOps2_1 (W8 m c)

def W10 (c : Dev nD) : Valuation τ sig (Elt F) := StableHlo.after hostOps2_2 (W9 m c)

def o11 (c : Dev nD) : Buf (Elt F) ((c : Thread nD τ).loc main_v48) := (dat2 (fun c b => W10 m c b) c).arrAt 4 cfg2.N

def W11 (c : Dev nD) : Valuation τ sig (Elt F) := Function.update (W10 m c) main_v48 (o11 m c)

def W12 (c : Dev nD) : Valuation τ sig (Elt F) := StableHlo.after hostOps3 (W11 m c)

def W13 (c : Dev nD) : Valuation τ sig (Elt F) := StableHlo.after hostOps3_1 (W12 m c)

def W14 (c : Dev nD) : Valuation τ sig (Elt F) := StableHlo.after hostOps3_2 (W13 m c)

def o15 (c : Dev nD) : Buf (Elt F) ((c : Thread nD τ).loc main_v53) := (dat3 (fun c b => W14 m c b) c).arrAt 3 cfg3.N

def W15 (c : Dev nD) : Valuation τ sig (Elt F) := Function.update (W14 m c) main_v53 (o15 m c)

def W16 (c : Dev nD) : Valuation τ sig (Elt F) := StableHlo.after hostOps4 (W15 m c)

def W17 (c : Dev nD) : Valuation τ sig (Elt F) := StableHlo.after hostOps4_1 (W16 m c)

def W18 (c : Dev nD) : Valuation τ sig (Elt F) := StableHlo.after hostOps4_2 (W17 m c)

def o19 (c : Dev nD) : Buf (Elt F) ((c : Thread nD τ).loc main_v84) := (dat4 (fun c b => W18 m c b) c).arrAt 4 cfg4.N

def W19 (c : Dev nD) : Valuation τ sig (Elt F) := Function.update (W18 m c) main_v84 (o19 m c)

def W20 (c : Dev nD) : Valuation τ sig (Elt F) := StableHlo.after hostOps5 (W19 m c)

def W21 (c : Dev nD) : Valuation τ sig (Elt F) := StableHlo.after hostOps5_1 (W20 m c)

def W22 (c : Dev nD) : Valuation τ sig (Elt F) := StableHlo.after hostOps5_2 (W21 m c)

def o23 (c : Dev nD) : Buf (Elt F) ((c : Thread nD τ).loc main_v89) := (dat5 (fun c b => W22 m c b) c).arrAt 3 cfg5.N

def W23 (c : Dev nD) : Valuation τ sig (Elt F) := Function.update (W22 m c) main_v89 (o23 m c)

def W24 (c : Dev nD) : Valuation τ sig (Elt F) := StableHlo.after hostOps6 (W23 m c)

def W25 (c : Dev nD) : Valuation τ sig (Elt F) := StableHlo.after hostOps6_1 (W24 m c)

def W26 (c : Dev nD) : Valuation τ sig (Elt F) := StableHlo.after hostOps6_2 (W25 m c)

def o27 (c : Dev nD) : Buf (Elt F) ((c : Thread nD τ).loc main_v120) := (dat6 (fun c b => W26 m c b) c).arrAt 4 cfg6.N

def W27 (c : Dev nD) : Valuation τ sig (Elt F) := Function.update (W26 m c) main_v120 (o27 m c)

def outs : Outs (F := F) := fun _ r c =>
  if h0 : r = main_v4 then h0 ▸ o2 m c else
  if h1 : r = main_v17 then h1 ▸ o7 m c else
  if h2 : r = main_v48 then h2 ▸ o11 m c else
  if h3 : r = main_v53 then h3 ▸ o15 m c else
  if h4 : r = main_v84 then h4 ▸ o19 m c else
  if h5 : r = main_v89 then h5 ▸ o23 m c else
  if h6 : r = main_v120 then h6 ▸ o27 m c else
  m ((c : Thread nD τ).loc r)

theorem outs_main_v4 (J : ℕ) (c : Dev nD) : outs m J main_v4 c = o2 m c := by
  unfold outs
  rw [dif_pos rfl]
theorem outs_main_v17 (J : ℕ) (c : Dev nD) : outs m J main_v17 c = o7 m c := by
  unfold outs
  rw [dif_neg (by decide), dif_pos rfl]
theorem outs_main_v48 (J : ℕ) (c : Dev nD) : outs m J main_v48 c = o11 m c := by
  unfold outs
  rw [dif_neg (by decide), dif_neg (by decide), dif_pos rfl]
theorem outs_main_v53 (J : ℕ) (c : Dev nD) : outs m J main_v53 c = o15 m c := by
  unfold outs
  rw [dif_neg (by decide), dif_neg (by decide), dif_neg (by decide), dif_pos rfl]
theorem outs_main_v84 (J : ℕ) (c : Dev nD) : outs m J main_v84 c = o19 m c := by
  unfold outs
  rw [dif_neg (by decide), dif_neg (by decide), dif_neg (by decide), dif_neg (by decide), dif_pos rfl]
theorem outs_main_v89 (J : ℕ) (c : Dev nD) : outs m J main_v89 c = o23 m c := by
  unfold outs
  rw [dif_neg (by decide), dif_neg (by decide), dif_neg (by decide), dif_neg (by decide), dif_neg (by decide), dif_pos rfl]
theorem outs_main_v120 (J : ℕ) (c : Dev nD) : outs m J main_v120 c = o27 m c := by
  unfold outs
  rw [dif_neg (by decide), dif_neg (by decide), dif_neg (by decide), dif_neg (by decide), dif_neg (by decide), dif_neg (by decide), dif_pos rfl]

theorem V0_eq (c : Dev nD) : V0 m c = W0 m c := rfl
theorem V1_eq (c : Dev nD) : V1 m c = W1 m c := by
  show StableHlo.after hostOps0 (V0 m c) = _
  rw [V0_eq]; rfl
theorem V2_eq (c : Dev nD) : V2 m (outs m) c = W2 m c := by
  show Function.update (V1 m c) main_v4 (outs m 2 main_v4 c) = _
  rw [V1_eq, outs_main_v4]; rfl
theorem V3_eq (c : Dev nD) : V3 m (outs m) c = W3 m c := by
  show StableHlo.after hostOps1 (V2 m (outs m) c) = _
  rw [V2_eq]; rfl
theorem V4_eq (c : Dev nD) : V4 m (outs m) c = W4 m c := by
  show StableHlo.after hostOps1_1 (V3 m (outs m) c) = _
  rw [V3_eq]; rfl
theorem V5_eq (c : Dev nD) : V5 m (outs m) c = W5 m c := by
  show StableHlo.after hostOps1_2 (V4 m (outs m) c) = _
  rw [V4_eq]; rfl
theorem V6_eq (c : Dev nD) : V6 m (outs m) c = W6 m c := by
  show StableHlo.after hostOps1_3 (V5 m (outs m) c) = _
  rw [V5_eq]; rfl
theorem V7_eq (c : Dev nD) : V7 m (outs m) c = W7 m c := by
  show Function.update (V6 m (outs m) c) main_v17 (outs m 7 main_v17 c) = _
  rw [V6_eq, outs_main_v17]; rfl
theorem V8_eq (c : Dev nD) : V8 m (outs m) c = W8 m c := by
  show StableHlo.after hostOps2 (V7 m (outs m) c) = _
  rw [V7_eq]; rfl
theorem V9_eq (c : Dev nD) : V9 m (outs m) c = W9 m c := by
  show StableHlo.after hostOps2_1 (V8 m (outs m) c) = _
  rw [V8_eq]; rfl
theorem V10_eq (c : Dev nD) : V10 m (outs m) c = W10 m c := by
  show StableHlo.after hostOps2_2 (V9 m (outs m) c) = _
  rw [V9_eq]; rfl
theorem V11_eq (c : Dev nD) : V11 m (outs m) c = W11 m c := by
  show Function.update (V10 m (outs m) c) main_v48 (outs m 11 main_v48 c) = _
  rw [V10_eq, outs_main_v48]; rfl
theorem V12_eq (c : Dev nD) : V12 m (outs m) c = W12 m c := by
  show StableHlo.after hostOps3 (V11 m (outs m) c) = _
  rw [V11_eq]; rfl
theorem V13_eq (c : Dev nD) : V13 m (outs m) c = W13 m c := by
  show StableHlo.after hostOps3_1 (V12 m (outs m) c) = _
  rw [V12_eq]; rfl
theorem V14_eq (c : Dev nD) : V14 m (outs m) c = W14 m c := by
  show StableHlo.after hostOps3_2 (V13 m (outs m) c) = _
  rw [V13_eq]; rfl
theorem V15_eq (c : Dev nD) : V15 m (outs m) c = W15 m c := by
  show Function.update (V14 m (outs m) c) main_v53 (outs m 15 main_v53 c) = _
  rw [V14_eq, outs_main_v53]; rfl
theorem V16_eq (c : Dev nD) : V16 m (outs m) c = W16 m c := by
  show StableHlo.after hostOps4 (V15 m (outs m) c) = _
  rw [V15_eq]; rfl
theorem V17_eq (c : Dev nD) : V17 m (outs m) c = W17 m c := by
  show StableHlo.after hostOps4_1 (V16 m (outs m) c) = _
  rw [V16_eq]; rfl
theorem V18_eq (c : Dev nD) : V18 m (outs m) c = W18 m c := by
  show StableHlo.after hostOps4_2 (V17 m (outs m) c) = _
  rw [V17_eq]; rfl
theorem V19_eq (c : Dev nD) : V19 m (outs m) c = W19 m c := by
  show Function.update (V18 m (outs m) c) main_v84 (outs m 19 main_v84 c) = _
  rw [V18_eq, outs_main_v84]; rfl
theorem V20_eq (c : Dev nD) : V20 m (outs m) c = W20 m c := by
  show StableHlo.after hostOps5 (V19 m (outs m) c) = _
  rw [V19_eq]; rfl
theorem V21_eq (c : Dev nD) : V21 m (outs m) c = W21 m c := by
  show StableHlo.after hostOps5_1 (V20 m (outs m) c) = _
  rw [V20_eq]; rfl
theorem V22_eq (c : Dev nD) : V22 m (outs m) c = W22 m c := by
  show StableHlo.after hostOps5_2 (V21 m (outs m) c) = _
  rw [V21_eq]; rfl
theorem V23_eq (c : Dev nD) : V23 m (outs m) c = W23 m c := by
  show Function.update (V22 m (outs m) c) main_v89 (outs m 23 main_v89 c) = _
  rw [V22_eq, outs_main_v89]; rfl
theorem V24_eq (c : Dev nD) : V24 m (outs m) c = W24 m c := by
  show StableHlo.after hostOps6 (V23 m (outs m) c) = _
  rw [V23_eq]; rfl
theorem V25_eq (c : Dev nD) : V25 m (outs m) c = W25 m c := by
  show StableHlo.after hostOps6_1 (V24 m (outs m) c) = _
  rw [V24_eq]; rfl
theorem V26_eq (c : Dev nD) : V26 m (outs m) c = W26 m c := by
  show StableHlo.after hostOps6_2 (V25 m (outs m) c) = _
  rw [V25_eq]; rfl
theorem V27_eq (c : Dev nD) : V27 m (outs m) c = W27 m c := by
  show Function.update (V26 m (outs m) c) main_v120 (outs m 27 main_v120 c) = _
  rw [V26_eq, outs_main_v120]; rfl

def pdats : (p : Fin 7) → (c : Dev nD) → Dat τ (Elt F) Unit ℕ (UR sig nD τ) ℕ (cfgs p) c
  | ⟨0, _⟩ => fun c => dat0 (fun c b => W1 m c b) c
  | ⟨1, _⟩ => fun c => dat1 (fun c b => W6 m c b) c
  | ⟨2, _⟩ => fun c => dat2 (fun c b => W10 m c b) c
  | ⟨3, _⟩ => fun c => dat3 (fun c b => W14 m c b) c
  | ⟨4, _⟩ => fun c => dat4 (fun c b => W18 m c b) c
  | ⟨5, _⟩ => fun c => dat5 (fun c b => W22 m c b) c
  | ⟨6, _⟩ => fun c => dat6 (fun c b => W26 m c b) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev E : Fin 8 → Dev nD → sProp 𝕄 := fun _ c => R c

set_option backward.isDefEq.respectTransparency.types false in
/-- One record serves every region: the buffers leave as they entered, except the output array. -/
def mkReg (p : Fin 7) (lf : Pipeline.LaunchFacts (nD := nD) (τ := τ) cfgs p) (Wi Wo : Dev nD → Valuation τ sig (Elt F))
    (o : Fin (cfgs p).W) (hin : ∀ w, w ≠ o → ((cfgs p).win w).isOut = false)
    (hb : ∀ c, BodyObligation (pdats m p c) (defs₀ (F := F)) Variants.none () Set.univ)
    (hq : ∀ c w, (pdats m p c).q w = fullShare) (howed : ∀ c t, (pdats m p c).owed t = 0)
    (hrec : ∀ c, (pdats m p c).recorded 0 = Set.univ)
    (hΦ : ∀ c i, (pdats m p c).Φ i = Pipeline.ΦA (cfgs p).spec c)
    (hA : ∀ c w, (pdats m p c).A w = Wi c (Pipeline.arrRef (cfgs p).spec w))
    (hWo : ∀ c, Wo c = Function.update (Wi c) (Proc.devRef .tc (Pipeline.arrRef (cfgs p).spec o)) ((pdats m p c).arrAt o (cfgs p).N)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl ((hrec c).symm ▸ Set.mem_univ x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hF : ∀ w, (pdats m p c).arrAt w (cfgs p).N = Wo c (Pipeline.arrRef (cfgs p).spec w) := fun w => by
      rw [hWo c]
      by_cases h : w = o
      · subst h
        exact (Function.update_self (β := fun b : DevRef τ sig => Buf (Elt F) ((c : Thread nD τ).1, b)) _ _ (Wi c)).symm
      · exact (((pdats m p c).arrAt_in w (hin w h) _).trans (hA c w)).trans
          (Function.update_of_ne (StableHlo.devRef_ne_of_ne fun e => h (lf.win.arr_inj e)) _ _).symm
    have hrest : ∀ b, b ∉ Finset.univ.image (Pipeline.arrRef (cfgs p).spec) → Wo c b = Wi c b := fun b hb => by
      rw [hWo c]
      exact Function.update_of_ne (StableHlo.devRef_ne_of_ne fun e => hb (Finset.mem_image.mpr ⟨o, Finset.mem_univ _, e.symm⟩)) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : RegionSeg (pcfgs (F := F)) adm (pdats m) () defs₀ 𝒱₀ L lv 0 :=
  mkReg m 0 launch0 (W1 m) (W2 m) 3 (by decide) (fun c => body_obligation0 (fun c b => W1 m c b) c)
    (fun _ _ => rfl) (fun _ _ => rfl) (fun _ => rfl) (fun _ _ => rfl) (fun _ _ => rfl) (fun _ => rfl)
def reg1 : RegionSeg (pcfgs (F := F)) adm (pdats m) () defs₀ 𝒱₀ L lv 1 :=
  mkReg m 1 launch1 (W6 m) (W7 m) 3 (by decide) (fun c => body_obligation1 (fun c b => W6 m c b) c)
    (fun _ _ => rfl) (fun _ _ => rfl) (fun _ => rfl) (fun _ _ => rfl) (fun _ _ => rfl) (fun _ => rfl)
def reg2 : RegionSeg (pcfgs (F := F)) adm (pdats m) () defs₀ 𝒱₀ L lv 2 :=
  mkReg m 2 launch2 (W10 m) (W11 m) 4 (by decide) (fun c => body_obligation2 (fun c b => W10 m c b) c)
    (fun _ _ => rfl) (fun _ _ => rfl) (fun _ => rfl) (fun _ _ => rfl) (fun _ _ => rfl) (fun _ => rfl)
def reg3 : RegionSeg (pcfgs (F := F)) adm (pdats m) () defs₀ 𝒱₀ L lv 3 :=
  mkReg m 3 launch3 (W14 m) (W15 m) 3 (by decide) (fun c => body_obligation3 (fun c b => W14 m c b) c)
    (fun _ _ => rfl) (fun _ _ => rfl) (fun _ => rfl) (fun _ _ => rfl) (fun _ _ => rfl) (fun _ => rfl)
def reg4 : RegionSeg (pcfgs (F := F)) adm (pdats m) () defs₀ 𝒱₀ L lv 4 :=
  mkReg m 4 launch4 (W18 m) (W19 m) 4 (by decide) (fun c => body_obligation4 (fun c b => W18 m c b) c)
    (fun _ _ => rfl) (fun _ _ => rfl) (fun _ => rfl) (fun _ _ => rfl) (fun _ _ => rfl) (fun _ => rfl)
def reg5 : RegionSeg (pcfgs (F := F)) adm (pdats m) () defs₀ 𝒱₀ L lv 5 :=
  mkReg m 5 launch5 (W22 m) (W23 m) 3 (by decide) (fun c => body_obligation5 (fun c b => W22 m c b) c)
    (fun _ _ => rfl) (fun _ _ => rfl) (fun _ => rfl) (fun _ _ => rfl) (fun _ _ => rfl) (fun _ => rfl)
def reg6 : RegionSeg (pcfgs (F := F)) adm (pdats m) () defs₀ 𝒱₀ L lv 6 :=
  mkReg m 6 launch6 (W26 m) (W27 m) 4 (by decide) (fun c => body_obligation6 (fun c b => W26 m c b) c)
    (fun _ _ => rfl) (fun _ _ => rfl) (fun _ => rfl) (fun _ _ => rfl) (fun _ _ => rfl) (fun _ => rfl)

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0c (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ E (F := F) 0 c := by
  iintro ⟨-, HO, -, Hp, -⟩
  isplitl [Hp]; · iexists _; iexact Hp
  iexists ∅; iexact HO

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (E (F := F) 0) : sProp 𝕄) := bigSep_mono fun c _ => hE0c ρ c
  iintro ⟨H, -⟩
  imodintro
  iapply hm
  iexact H

theorem hE7 (c : Dev nD) : E (F := F) 7 c ⊢ (iprop(∃ W, owes (c : Thread nD τ) (0 : CellTallies nD τ sig Unit) W) : sProp 𝕄) := by
  iintro ⟨-, HO⟩; iexact HO

theorem hpre0 (c : Dev nD) : iprop(StableHlo.held (c : Thread nD τ) (Pipeline.ucRefs τ sig) (V1 m c) ∗ E (F := F) 0 c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ E (F := F) 1 c) := by
  rw [V2_eq]; exact .rfl
theorem hpre1 (c : Dev nD) : iprop(StableHlo.held (c : Thread nD τ) (Pipeline.ucRefs τ sig) (V6 m (outs m) c) ∗ E (F := F) 1 c) ⊢ (reg1 m).pre c := by
  rw [V6_eq]; exact .rfl
theorem hpost1 (c : Dev nD) : (reg1 m).post c ⊢ iprop(StableHlo.held (c : Thread nD τ) (Pipeline.ucRefs τ sig) (V7 m (outs m) c) ∗ E (F := F) 2 c) := by
  rw [V7_eq]; exact .rfl
theorem hpre2 (c : Dev nD) : iprop(StableHlo.held (c : Thread nD τ) (Pipeline.ucRefs τ sig) (V10 m (outs m) c) ∗ E (F := F) 2 c) ⊢ (reg2 m).pre c := by
  rw [V10_eq]; exact .rfl
theorem hpost2 (c : Dev nD) : (reg2 m).post c ⊢ iprop(StableHlo.held (c : Thread nD τ) (Pipeline.ucRefs τ sig) (V11 m (outs m) c) ∗ E (F := F) 3 c) := by
  rw [V11_eq]; exact .rfl
theorem hpre3 (c : Dev nD) : iprop(StableHlo.held (c : Thread nD τ) (Pipeline.ucRefs τ sig) (V14 m (outs m) c) ∗ E (F := F) 3 c) ⊢ (reg3 m).pre c := by
  rw [V14_eq]; exact .rfl
theorem hpost3 (c : Dev nD) : (reg3 m).post c ⊢ iprop(StableHlo.held (c : Thread nD τ) (Pipeline.ucRefs τ sig) (V15 m (outs m) c) ∗ E (F := F) 4 c) := by
  rw [V15_eq]; exact .rfl
theorem hpre4 (c : Dev nD) : iprop(StableHlo.held (c : Thread nD τ) (Pipeline.ucRefs τ sig) (V18 m (outs m) c) ∗ E (F := F) 4 c) ⊢ (reg4 m).pre c := by
  rw [V18_eq]; exact .rfl
theorem hpost4 (c : Dev nD) : (reg4 m).post c ⊢ iprop(StableHlo.held (c : Thread nD τ) (Pipeline.ucRefs τ sig) (V19 m (outs m) c) ∗ E (F := F) 5 c) := by
  rw [V19_eq]; exact .rfl
theorem hpre5 (c : Dev nD) : iprop(StableHlo.held (c : Thread nD τ) (Pipeline.ucRefs τ sig) (V22 m (outs m) c) ∗ E (F := F) 5 c) ⊢ (reg5 m).pre c := by
  rw [V22_eq]; exact .rfl
theorem hpost5 (c : Dev nD) : (reg5 m).post c ⊢ iprop(StableHlo.held (c : Thread nD τ) (Pipeline.ucRefs τ sig) (V23 m (outs m) c) ∗ E (F := F) 6 c) := by
  rw [V23_eq]; exact .rfl
theorem hpre6 (c : Dev nD) : iprop(StableHlo.held (c : Thread nD τ) (Pipeline.ucRefs τ sig) (V26 m (outs m) c) ∗ E (F := F) 6 c) ⊢ (reg6 m).pre c := by
  rw [V26_eq]; exact .rfl
theorem hpost6 (c : Dev nD) : (reg6 m).post c ⊢ iprop(StableHlo.held (c : Thread nD τ) (Pipeline.ucRefs τ sig) (V27 m (outs m) c) ∗ E (F := F) 7 c) := by
  rw [V27_eq]; exact .rfl

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond (F := F) m emb₁ () 𝒱₀ L lv (fun _ _ => rfl) ρ (outs m) (pdats m) 0 (fun _ => (BI.emp : sProp 𝕄)) u₀ (hu₀ (F := F)) (E (F := F)) (hE0 (F := F) ρ) (hE7 (F := F))
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m)

end Cert.Kernel.Rgn

end
-- ==== Proof.KI.Region0.lean ====
import proofs.«426792_j34668976013873_1_alg».proof.Proof.Gen.KernelIdeal.Launch
import proofs.«426792_j34668976013873_1_alg».proof.Proof.Gen.KernelIdeal.Skeleton
import proofs.«426792_j34668976013873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_i0 : Rect S2000x48 := Rect.unit (s := S2000x48) ![0, 0] S2000x48.size inb_S2000x48_S2000x48_0_0
abbrev r0_i1 : Rect S48x128 := Rect.unit (s := S48x128) ![0, 0] S48x128.size inb_S48x128_S48x128_0_0
abbrev r0_i2 : Rect S1x128 := Rect.unit (s := S1x128) ![0, 0] S1x128.size inb_S1x128_S1x128_0_0
abbrev r0_o : Rect S2000x128 := Rect.unit (s := S2000x128) ![0, 0] S2000x128.size inb_S2000x128_S2000x128_0_0

def out0 (x0 : Vec F S2000x48 .f32) (x1 : Vec F S48x128 .bf16) (x2 : Vec F S1x128 .f32) : Vec F S2000x128 .f32 :=
  View.canon [⟨r0_o, k0_pay1 (View.ld x0 (r0_i0)) (View.ld x1 (r0_i1)) (View.ld x2 (r0_i2))⟩]

theorem cover0 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
theorem sound_kernel0 (c : Dev nD) (E : Set ℕ) (i : grid0.Coords) (arg0 : Memref sig .tc .vmem S2000x48 .f32) (harg0 : arg0.IsWhole) (arg1 : Memref sig .tc .vmem S48x128 .bf16) (harg1 : arg1.IsWhole) (arg2 : Memref sig .tc .vmem S1x128 .f32) (harg2 : arg2.IsWhole) (arg3 : Memref sig .tc .vmem S2000x128 .f32) (harg3 : arg3.IsWhole)
    (x0 : Vec F S2000x48 .f32) (x1 : Vec F S48x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0 x0 x1 x2)) -∗ K ⟨⟩))
      ⊢ wp frame (wpE (defs₀ (F := F)) Variants.none c none) E (cc0__encode_kernel i arg0 harg0 arg1 harg1 arg2 harg2 arg3 harg3) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Rgn

end
-- ==== Proof.KI.Region1.lean ====
import proofs.«426792_j34668976013873_1_alg».proof.Proof.Gen.KernelIdeal.Launch
import proofs.«426792_j34668976013873_1_alg».proof.Proof.Gen.KernelIdeal.Skeleton
import proofs.«426792_j34668976013873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_i0 : Rect S10000x256 := Rect.unit (s := S10000x256) ![0, 0] S10000x256.size inb_S10000x256_S10000x256_0_0
abbrev r1_i1 : Rect S256x128 := Rect.unit (s := S256x128) ![0, 0] S256x128.size inb_S256x128_S256x128_0_0
abbrev r1_i2 : Rect S1x128 := Rect.unit (s := S1x128) ![0, 0] S1x128.size inb_S1x128_S1x128_0_0
abbrev r1_o : Rect S10000x128 := Rect.unit (s := S10000x128) ![0, 0] S10000x128.size inb_S10000x128_S10000x128_0_0

def out1 (x0 : Vec F S10000x256 .bf16) (x1 : Vec F S256x128 .bf16) (x2 : Vec F S1x128 .f32) : Vec F S10000x128 .f32 :=
  View.canon [⟨r1_o, k1_pay1 (View.ld x0 (r1_i0)) (View.ld x1 (r1_i1)) (View.ld x2 (r1_i2))⟩]

theorem cover1 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

set_option maxHeartbeats 1000000 in
theorem sound_kernel1 (c : Dev nD) (E : Set ℕ) (i : grid1.Coords) (arg0 : Memref sig .tc .vmem S10000x256 .bf16) (harg0 : arg0.IsWhole) (arg1 : Memref sig .tc .vmem S256x128 .bf16) (harg1 : arg1.IsWhole) (arg2 : Memref sig .tc .vmem S1x128 .f32) (harg2 : arg2.IsWhole) (arg3 : Memref sig .tc .vmem S10000x128 .f32) (harg3 : arg3.IsWhole)
    (x0 : Vec F S10000x256 .bf16) (x1 : Vec F S256x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1 x0 x1 x2)) -∗ K ⟨⟩))
      ⊢ wp frame (wpE (defs₀ (F := F)) Variants.none c none) E (cc1__message_kernel i arg0 harg0 arg1 harg1 arg2 harg2 arg3 harg3) K := by
  simp only [cc1__message_kernel_eq_skeleton]; unfold cc1__message_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Rgn

end
-- ==== Proof.KI.Region2.lean ====
import proofs.«426792_j34668976013873_1_alg».proof.Proof.Gen.KernelIdeal.Launch
import proofs.«426792_j34668976013873_1_alg».proof.Proof.Gen.KernelIdeal.Skeleton
import proofs.«426792_j34668976013873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_i0 : Rect S2000x384 := Rect.unit (s := S2000x384) ![0, 0] S2000x384.size inb_S2000x384_S2000x384_0_0
abbrev r2_i1 : Rect S2000x128 := Rect.unit (s := S2000x128) ![0, 0] S2000x128.size inb_S2000x128_S2000x128_0_0
abbrev r2_i2 : Rect S384x128 := Rect.unit (s := S384x128) ![0, 0] S384x128.size inb_S384x128_S384x128_0_0
abbrev r2_i3 : Rect S1x128 := Rect.unit (s := S1x128) ![0, 0] S1x128.size inb_S1x128_S1x128_0_0
abbrev r2_o : Rect S2000x128 := Rect.unit (s := S2000x128) ![0, 0] S2000x128.size inb_S2000x128_S2000x128_0_0

def out2 (x0 : Vec F S2000x384 .bf16) (x1 : Vec F S2000x128 .f32) (x2 : Vec F S384x128 .bf16) (x3 : Vec F S1x128 .f32) : Vec F S2000x128 .f32 :=
  View.canon [⟨r2_o, k2_pay1 (View.ld x0 (r2_i0)) (View.ld x2 (r2_i2)) (View.ld x3 (r2_i3)) (View.ld x1 (r2_i1))⟩]

theorem cover2 (p0 : Vec F S2000x128 .f32) (y : S2000x128.Idx) :
    ∃ pc ∈ ([⟨r2_o, p0⟩] : List (View.Piece (Elt F) S2000x128 .f32)), y ∈ pc.1.set :=
  View.cover_of_tiled [⟨r2_o, p0⟩] S2000x128.size (by rfl) y

set_option maxHeartbeats 1000000 in
theorem sound_kernel2 (c : Dev nD) (E : Set ℕ) (i : grid2.Coords) (arg0 : Memref sig .tc .vmem S2000x384 .bf16) (harg0 : arg0.IsWhole) (arg1 : Memref sig .tc .vmem S2000x128 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x384 .bf16) (x1 : Vec F S2000x128 .f32) (x2 : Vec F S384x128 .bf16) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2 x0 x1 x2 x3)) -∗ K ⟨⟩))
      ⊢ wp frame (wpE (defs₀ (F := F)) Variants.none c none) E (cc2__update_kernel i arg0 harg0 arg1 harg1 arg2 harg2 arg3 harg3 arg4 harg4) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Rgn

end
-- ==== Proof.KI.Region3.lean ====
import proofs.«426792_j34668976013873_1_alg».proof.Proof.Gen.KernelIdeal.Launch
import proofs.«426792_j34668976013873_1_alg».proof.Proof.Gen.KernelIdeal.Skeleton
import proofs.«426792_j34668976013873_1_alg».proof.Proof.Gen.KernelIdeal.Points
import proofs.«426792_j34668976013873_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_i0 : Rect S10000x256 := Rect.unit (s := S10000x256) ![0, 0] S10000x256.size inb_S10000x256_S10000x256_0_0
abbrev r3_i1 : Rect S256x128 := Rect.unit (s := S256x128) ![0, 0] S256x128.size inb_S256x128_S256x128_0_0
abbrev r3_i2 : Rect S1x128 := Rect.unit (s := S1x128) ![0, 0] S1x128.size inb_S1x128_S1x128_0_0
abbrev r3_o : Rect S10000x128 := Rect.unit (s := S10000x128) ![0, 0] S10000x128.size inb_S10000x128_S10000x128_0_0

def out3 (x0 : Vec F S10000x256 .bf16) (x1 : Vec F S256x128 .bf16) (x2 : Vec F S1x128 .f32) : Vec F S10000x128 .f32 :=
  View.canon [⟨r3_o, k3_pay1 (View.ld x0 (r3_i0)) (View.ld x1 (r3_i1)) (View.ld x2 (r3_i2))⟩]

theorem sound_kernel3 (c : Dev nD) (E : Set ℕ) (i : grid3.Coords) (arg0 : Memref sig .tc .vmem S10000x256 .bf16) (harg0 : arg0.IsWhole) (arg1 : Memref sig .tc .vmem S256x128 .bf16) (harg1 : arg1.IsWhole) (arg2 : Memref sig .tc .vmem S1x128 .f32) (harg2 : arg2.IsWhole) (arg3 : Memref sig .tc .vmem S10000x128 .f32) (harg3 : arg3.IsWhole)
    (x0 : Vec F S10000x256 .bf16) (x1 : Vec F S256x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3 x0 x1 x2)) -∗ K ⟨⟩))
      ⊢ wp frame (wpE (defs₀ (F := F)) Variants.none c none) E (cc3__message_kernel i arg0 harg0 arg1 harg1 arg2 harg2 arg3 harg3) K :=
  sound_kernel1 c E i arg0 harg0 arg1 harg1 arg2 harg2 arg3 harg3 x0 x1 x2 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Rgn

end
-- ==== Proof.KI.Region4.lean ====
import proofs.«426792_j34668976013873_1_alg».proof.Proof.Gen.KernelIdeal.Launch
import proofs.«426792_j34668976013873_1_alg».proof.Proof.Gen.KernelIdeal.Skeleton
import proofs.«426792_j34668976013873_1_alg».proof.Proof.Gen.KernelIdeal.Points
import proofs.«426792_j34668976013873_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_i0 : Rect S2000x384 := Rect.unit (s := S2000x384) ![0, 0] S2000x384.size inb_S2000x384_S2000x384_0_0
abbrev r4_i1 : Rect S2000x128 := Rect.unit (s := S2000x128) ![0, 0] S2000x128.size inb_S2000x128_S2000x128_0_0
abbrev r4_i2 : Rect S384x128 := Rect.unit (s := S384x128) ![0, 0] S384x128.size inb_S384x128_S384x128_0_0
abbrev r4_i3 : Rect S1x128 := Rect.unit (s := S1x128) ![0, 0] S1x128.size inb_S1x128_S1x128_0_0
abbrev r4_o : Rect S2000x128 := Rect.unit (s := S2000x128) ![0, 0] S2000x128.size inb_S2000x128_S2000x128_0_0

def out4 (x0 : Vec F S2000x384 .bf16) (x1 : Vec F S2000x128 .f32) (x2 : Vec F S384x128 .bf16) (x3 : Vec F S1x128 .f32) : Vec F S2000x128 .f32 :=
  View.canon [⟨r4_o, k4_pay1 (View.ld x0 (r4_i0)) (View.ld x2 (r4_i2)) (View.ld x3 (r4_i3)) (View.ld x1 (r4_i1))⟩]

theorem sound_kernel4 (c : Dev nD) (E : Set ℕ) (i : grid4.Coords) (arg0 : Memref sig .tc .vmem S2000x384 .bf16) (harg0 : arg0.IsWhole) (arg1 : Memref sig .tc .vmem S2000x128 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x384 .bf16) (x1 : Vec F S2000x128 .f32) (x2 : Vec F S384x128 .bf16) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4 x0 x1 x2 x3)) -∗ K ⟨⟩))
      ⊢ wp frame (wpE (defs₀ (F := F)) Variants.none c none) E (cc4__update_kernel i arg0 harg0 arg1 harg1 arg2 harg2 arg3 harg3 arg4 harg4) K :=
  sound_kernel2 c E i arg0 harg0 arg1 harg1 arg2 harg2 arg3 harg3 arg4 harg4 x0 x1 x2 x3 K

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Rgn

end
-- ==== Proof.KI.Region5.lean ====
import proofs.«426792_j34668976013873_1_alg».proof.Proof.Gen.KernelIdeal.Launch
import proofs.«426792_j34668976013873_1_alg».proof.Proof.Gen.KernelIdeal.Skeleton
import proofs.«426792_j34668976013873_1_alg».proof.Proof.Gen.KernelIdeal.Points
import proofs.«426792_j34668976013873_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_i0 : Rect S10000x256 := Rect.unit (s := S10000x256) ![0, 0] S10000x256.size inb_S10000x256_S10000x256_0_0
abbrev r5_i1 : Rect S256x128 := Rect.unit (s := S256x128) ![0, 0] S256x128.size inb_S256x128_S256x128_0_0
abbrev r5_i2 : Rect S1x128 := Rect.unit (s := S1x128) ![0, 0] S1x128.size inb_S1x128_S1x128_0_0
abbrev r5_o : Rect S10000x128 := Rect.unit (s := S10000x128) ![0, 0] S10000x128.size inb_S10000x128_S10000x128_0_0

def out5 (x0 : Vec F S10000x256 .bf16) (x1 : Vec F S256x128 .bf16) (x2 : Vec F S1x128 .f32) : Vec F S10000x128 .f32 :=
  View.canon [⟨r5_o, k5_pay1 (View.ld x0 (r5_i0)) (View.ld x1 (r5_i1)) (View.ld x2 (r5_i2))⟩]

theorem sound_kernel5 (c : Dev nD) (E : Set ℕ) (i : grid5.Coords) (arg0 : Memref sig .tc .vmem S10000x256 .bf16) (harg0 : arg0.IsWhole) (arg1 : Memref sig .tc .vmem S256x128 .bf16) (harg1 : arg1.IsWhole) (arg2 : Memref sig .tc .vmem S1x128 .f32) (harg2 : arg2.IsWhole) (arg3 : Memref sig .tc .vmem S10000x128 .f32) (harg3 : arg3.IsWhole)
    (x0 : Vec F S10000x256 .bf16) (x1 : Vec F S256x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5 x0 x1 x2)) -∗ K ⟨⟩))
      ⊢ wp frame (wpE (defs₀ (F := F)) Variants.none c none) E (cc5__message_kernel i arg0 harg0 arg1 harg1 arg2 harg2 arg3 harg3) K :=
  sound_kernel1 c E i arg0 harg0 arg1 harg1 arg2 harg2 arg3 harg3 x0 x1 x2 K

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Rgn

end
-- ==== Proof.KI.Region6.lean ====
import proofs.«426792_j34668976013873_1_alg».proof.Proof.Gen.KernelIdeal.Launch
import proofs.«426792_j34668976013873_1_alg».proof.Proof.Gen.KernelIdeal.Skeleton
import proofs.«426792_j34668976013873_1_alg».proof.Proof.Gen.KernelIdeal.Points
import proofs.«426792_j34668976013873_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_i0 : Rect S2000x384 := Rect.unit (s := S2000x384) ![0, 0] S2000x384.size inb_S2000x384_S2000x384_0_0
abbrev r6_i1 : Rect S2000x128 := Rect.unit (s := S2000x128) ![0, 0] S2000x128.size inb_S2000x128_S2000x128_0_0
abbrev r6_i2 : Rect S384x128 := Rect.unit (s := S384x128) ![0, 0] S384x128.size inb_S384x128_S384x128_0_0
abbrev r6_i3 : Rect S1x128 := Rect.unit (s := S1x128) ![0, 0] S1x128.size inb_S1x128_S1x128_0_0
abbrev r6_o : Rect S2000x128 := Rect.unit (s := S2000x128) ![0, 0] S2000x128.size inb_S2000x128_S2000x128_0_0

def out6 (x0 : Vec F S2000x384 .bf16) (x1 : Vec F S2000x128 .f32) (x2 : Vec F S384x128 .bf16) (x3 : Vec F S1x128 .f32) : Vec F S2000x128 .f32 :=
  View.canon [⟨r6_o, k6_pay1 (View.ld x0 (r6_i0)) (View.ld x2 (r6_i2)) (View.ld x3 (r6_i3)) (View.ld x1 (r6_i1))⟩]

theorem sound_kernel6 (c : Dev nD) (E : Set ℕ) (i : grid6.Coords) (arg0 : Memref sig .tc .vmem S2000x384 .bf16) (harg0 : arg0.IsWhole) (arg1 : Memref sig .tc .vmem S2000x128 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x384 .bf16) (x1 : Vec F S2000x128 .f32) (x2 : Vec F S384x128 .bf16) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out6 x0 x1 x2 x3)) -∗ K ⟨⟩))
      ⊢ wp frame (wpE (defs₀ (F := F)) Variants.none c none) E (cc6__update_kernel i arg0 harg0 arg1 harg1 arg2 harg2 arg3 harg3 arg4 harg4) K :=
  sound_kernel2 c E i arg0 harg0 arg1 harg1 arg2 harg2 arg3 harg3 arg4 harg4 x0 x1 x2 x3 K

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 (c : Dev nD) : BodyObligation (dat6 (F := F) V c) (defs₀ (F := F)) Variants.none () Set.univ := fun t => by
  rw [bigSep_W6, bigSep_W6]
  exact sound_body6 V c t

end Cert.KernelIdeal.Rgn

end
-- ==== Proof.KI.Regs.lean ====
import proofs.«426792_j34668976013873_1_alg».proof.Proof.Gen.KernelIdeal.Regions
import proofs.«426792_j34668976013873_1_alg».proof.Proof.KI.Region0
import proofs.«426792_j34668976013873_1_alg».proof.Proof.KI.Region1
import proofs.«426792_j34668976013873_1_alg».proof.Proof.KI.Region2
import proofs.«426792_j34668976013873_1_alg».proof.Proof.KI.Region3
import proofs.«426792_j34668976013873_1_alg».proof.Proof.KI.Region4
import proofs.«426792_j34668976013873_1_alg».proof.Proof.KI.Region5
import proofs.«426792_j34668976013873_1_alg».proof.Proof.KI.Region6
import Idealize.ShloMosaic.Lib.Pipeline.Kit

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def W0 (c : Dev nD) : Valuation τ sig (Elt F) := fun b => m (c, b)

def W1 (c : Dev nD) : Valuation τ sig (Elt F) := StableHlo.after hostOps0 (W0 m c)

def o2 (c : Dev nD) : Buf (Elt F) ((c : Thread nD τ).loc main_v4) := (dat0 (fun c b => W1 m c b) c).arrAt 3 cfg0.N

def W2 (c : Dev nD) : Valuation τ sig (Elt F) := Function.update (W1 m c) main_v4 (o2 m c)

def W3 (c : Dev nD) : Valuation τ sig (Elt F) := StableHlo.after hostOps1 (W2 m c)

def W4 (c : Dev nD) : Valuation τ sig (Elt F) := StableHlo.after hostOps1_1 (W3 m c)

def W5 (c : Dev nD) : Valuation τ sig (Elt F) := StableHlo.after hostOps1_2 (W4 m c)

def W6 (c : Dev nD) : Valuation τ sig (Elt F) := StableHlo.after hostOps1_3 (W5 m c)

def o7 (c : Dev nD) : Buf (Elt F) ((c : Thread nD τ).loc main_v17) := (dat1 (fun c b => W6 m c b) c).arrAt 3 cfg1.N

def W7 (c : Dev nD) : Valuation τ sig (Elt F) := Function.update (W6 m c) main_v17 (o7 m c)

def W8 (c : Dev nD) : Valuation τ sig (Elt F) := StableHlo.after hostOps2 (W7 m c)

def W9 (c : Dev nD) : Valuation τ sig (Elt F) := StableHlo.after hostOps2_1 (W8 m c)

def W10 (c : Dev nD) : Valuation τ sig (Elt F) := StableHlo.after hostOps2_2 (W9 m c)

def o11 (c : Dev nD) : Buf (Elt F) ((c : Thread nD τ).loc main_v48) := (dat2 (fun c b => W10 m c b) c).arrAt 4 cfg2.N

def W11 (c : Dev nD) : Valuation τ sig (Elt F) := Function.update (W10 m c) main_v48 (o11 m c)

def W12 (c : Dev nD) : Valuation τ sig (Elt F) := StableHlo.after hostOps3 (W11 m c)

def W13 (c : Dev nD) : Valuation τ sig (Elt F) := StableHlo.after hostOps3_1 (W12 m c)

def W14 (c : Dev nD) : Valuation τ sig (Elt F) := StableHlo.after hostOps3_2 (W13 m c)

def o15 (c : Dev nD) : Buf (Elt F) ((c : Thread nD τ).loc main_v53) := (dat3 (fun c b => W14 m c b) c).arrAt 3 cfg3.N

def W15 (c : Dev nD) : Valuation τ sig (Elt F) := Function.update (W14 m c) main_v53 (o15 m c)

def W16 (c : Dev nD) : Valuation τ sig (Elt F) := StableHlo.after hostOps4 (W15 m c)

def W17 (c : Dev nD) : Valuation τ sig (Elt F) := StableHlo.after hostOps4_1 (W16 m c)

def W18 (c : Dev nD) : Valuation τ sig (Elt F) := StableHlo.after hostOps4_2 (W17 m c)

def o19 (c : Dev nD) : Buf (Elt F) ((c : Thread nD τ).loc main_v84) := (dat4 (fun c b => W18 m c b) c).arrAt 4 cfg4.N

def W19 (c : Dev nD) : Valuation τ sig (Elt F) := Function.update (W18 m c) main_v84 (o19 m c)

def W20 (c : Dev nD) : Valuation τ sig (Elt F) := StableHlo.after hostOps5 (W19 m c)

def W21 (c : Dev nD) : Valuation τ sig (Elt F) := StableHlo.after hostOps5_1 (W20 m c)

def W22 (c : Dev nD) : Valuation τ sig (Elt F) := StableHlo.after hostOps5_2 (W21 m c)

def o23 (c : Dev nD) : Buf (Elt F) ((c : Thread nD τ).loc main_v89) := (dat5 (fun c b => W22 m c b) c).arrAt 3 cfg5.N

def W23 (c : Dev nD) : Valuation τ sig (Elt F) := Function.update (W22 m c) main_v89 (o23 m c)

def W24 (c : Dev nD) : Valuation τ sig (Elt F) := StableHlo.after hostOps6 (W23 m c)

def W25 (c : Dev nD) : Valuation τ sig (Elt F) := StableHlo.after hostOps6_1 (W24 m c)

def W26 (c : Dev nD) : Valuation τ sig (Elt F) := StableHlo.after hostOps6_2 (W25 m c)

def o27 (c : Dev nD) : Buf (Elt F) ((c : Thread nD τ).loc main_v120) := (dat6 (fun c b => W26 m c b) c).arrAt 4 cfg6.N

def W27 (c : Dev nD) : Valuation τ sig (Elt F) := Function.update (W26 m c) main_v120 (o27 m c)

def outs : Outs (F := F) := fun _ r c =>
  if h0 : r = main_v4 then h0 ▸ o2 m c else
  if h1 : r = main_v17 then h1 ▸ o7 m c else
  if h2 : r = main_v48 then h2 ▸ o11 m c else
  if h3 : r = main_v53 then h3 ▸ o15 m c else
  if h4 : r = main_v84 then h4 ▸ o19 m c else
  if h5 : r = main_v89 then h5 ▸ o23 m c else
  if h6 : r = main_v120 then h6 ▸ o27 m c else
  m ((c : Thread nD τ).loc r)

theorem outs_main_v4 (J : ℕ) (c : Dev nD) : outs m J main_v4 c = o2 m c := by
  unfold outs
  rw [dif_pos rfl]
theorem outs_main_v17 (J : ℕ) (c : Dev nD) : outs m J main_v17 c = o7 m c := by
  unfold outs
  rw [dif_neg (by decide), dif_pos rfl]
theorem outs_main_v48 (J : ℕ) (c : Dev nD) : outs m J main_v48 c = o11 m c := by
  unfold outs
  rw [dif_neg (by decide), dif_neg (by decide), dif_pos rfl]
theorem outs_main_v53 (J : ℕ) (c : Dev nD) : outs m J main_v53 c = o15 m c := by
  unfold outs
  rw [dif_neg (by decide), dif_neg (by decide), dif_neg (by decide), dif_pos rfl]
theorem outs_main_v84 (J : ℕ) (c : Dev nD) : outs m J main_v84 c = o19 m c := by
  unfold outs
  rw [dif_neg (by decide), dif_neg (by decide), dif_neg (by decide), dif_neg (by decide), dif_pos rfl]
theorem outs_main_v89 (J : ℕ) (c : Dev nD) : outs m J main_v89 c = o23 m c := by
  unfold outs
  rw [dif_neg (by decide), dif_neg (by decide), dif_neg (by decide), dif_neg (by decide), dif_neg (by decide), dif_pos rfl]
theorem outs_main_v120 (J : ℕ) (c : Dev nD) : outs m J main_v120 c = o27 m c := by
  unfold outs
  rw [dif_neg (by decide), dif_neg (by decide), dif_neg (by decide), dif_neg (by decide), dif_neg (by decide), dif_neg (by decide), dif_pos rfl]

theorem V0_eq (c : Dev nD) : V0 m c = W0 m c := rfl
theorem V1_eq (c : Dev nD) : V1 m c = W1 m c := by
  show StableHlo.after hostOps0 (V0 m c) = _
  rw [V0_eq]; rfl
theorem V2_eq (c : Dev nD) : V2 m (outs m) c = W2 m c := by
  show Function.update (V1 m c) main_v4 (outs m 2 main_v4 c) = _
  rw [V1_eq, outs_main_v4]; rfl
theorem V3_eq (c : Dev nD) : V3 m (outs m) c = W3 m c := by
  show StableHlo.after hostOps1 (V2 m (outs m) c) = _
  rw [V2_eq]; rfl
theorem V4_eq (c : Dev nD) : V4 m (outs m) c = W4 m c := by
  show StableHlo.after hostOps1_1 (V3 m (outs m) c) = _
  rw [V3_eq]; rfl
theorem V5_eq (c : Dev nD) : V5 m (outs m) c = W5 m c := by
  show StableHlo.after hostOps1_2 (V4 m (outs m) c) = _
  rw [V4_eq]; rfl
theorem V6_eq (c : Dev nD) : V6 m (outs m) c = W6 m c := by
  show StableHlo.after hostOps1_3 (V5 m (outs m) c) = _
  rw [V5_eq]; rfl
theorem V7_eq (c : Dev nD) : V7 m (outs m) c = W7 m c := by
  show Function.update (V6 m (outs m) c) main_v17 (outs m 7 main_v17 c) = _
  rw [V6_eq, outs_main_v17]; rfl
theorem V8_eq (c : Dev nD) : V8 m (outs m) c = W8 m c := by
  show StableHlo.after hostOps2 (V7 m (outs m) c) = _
  rw [V7_eq]; rfl
theorem V9_eq (c : Dev nD) : V9 m (outs m) c = W9 m c := by
  show StableHlo.after hostOps2_1 (V8 m (outs m) c) = _
  rw [V8_eq]; rfl
theorem V10_eq (c : Dev nD) : V10 m (outs m) c = W10 m c := by
  show StableHlo.after hostOps2_2 (V9 m (outs m) c) = _
  rw [V9_eq]; rfl
theorem V11_eq (c : Dev nD) : V11 m (outs m) c = W11 m c := by
  show Function.update (V10 m (outs m) c) main_v48 (outs m 11 main_v48 c) = _
  rw [V10_eq, outs_main_v48]; rfl
theorem V12_eq (c : Dev nD) : V12 m (outs m) c = W12 m c := by
  show StableHlo.after hostOps3 (V11 m (outs m) c) = _
  rw [V11_eq]; rfl
theorem V13_eq (c : Dev nD) : V13 m (outs m) c = W13 m c := by
  show StableHlo.after hostOps3_1 (V12 m (outs m) c) = _
  rw [V12_eq]; rfl
theorem V14_eq (c : Dev nD) : V14 m (outs m) c = W14 m c := by
  show StableHlo.after hostOps3_2 (V13 m (outs m) c) = _
  rw [V13_eq]; rfl
theorem V15_eq (c : Dev nD) : V15 m (outs m) c = W15 m c := by
  show Function.update (V14 m (outs m) c) main_v53 (outs m 15 main_v53 c) = _
  rw [V14_eq, outs_main_v53]; rfl
theorem V16_eq (c : Dev nD) : V16 m (outs m) c = W16 m c := by
  show StableHlo.after hostOps4 (V15 m (outs m) c) = _
  rw [V15_eq]; rfl
theorem V17_eq (c : Dev nD) : V17 m (outs m) c = W17 m c := by
  show StableHlo.after hostOps4_1 (V16 m (outs m) c) = _
  rw [V16_eq]; rfl
theorem V18_eq (c : Dev nD) : V18 m (outs m) c = W18 m c := by
  show StableHlo.after hostOps4_2 (V17 m (outs m) c) = _
  rw [V17_eq]; rfl
theorem V19_eq (c : Dev nD) : V19 m (outs m) c = W19 m c := by
  show Function.update (V18 m (outs m) c) main_v84 (outs m 19 main_v84 c) = _
  rw [V18_eq, outs_main_v84]; rfl
theorem V20_eq (c : Dev nD) : V20 m (outs m) c = W20 m c := by
  show StableHlo.after hostOps5 (V19 m (outs m) c) = _
  rw [V19_eq]; rfl
theorem V21_eq (c : Dev nD) : V21 m (outs m) c = W21 m c := by
  show StableHlo.after hostOps5_1 (V20 m (outs m) c) = _
  rw [V20_eq]; rfl
theorem V22_eq (c : Dev nD) : V22 m (outs m) c = W22 m c := by
  show StableHlo.after hostOps5_2 (V21 m (outs m) c) = _
  rw [V21_eq]; rfl
theorem V23_eq (c : Dev nD) : V23 m (outs m) c = W23 m c := by
  show Function.update (V22 m (outs m) c) main_v89 (outs m 23 main_v89 c) = _
  rw [V22_eq, outs_main_v89]; rfl
theorem V24_eq (c : Dev nD) : V24 m (outs m) c = W24 m c := by
  show StableHlo.after hostOps6 (V23 m (outs m) c) = _
  rw [V23_eq]; rfl
theorem V25_eq (c : Dev nD) : V25 m (outs m) c = W25 m c := by
  show StableHlo.after hostOps6_1 (V24 m (outs m) c) = _
  rw [V24_eq]; rfl
theorem V26_eq (c : Dev nD) : V26 m (outs m) c = W26 m c := by
  show StableHlo.after hostOps6_2 (V25 m (outs m) c) = _
  rw [V25_eq]; rfl
theorem V27_eq (c : Dev nD) : V27 m (outs m) c = W27 m c := by
  show Function.update (V26 m (outs m) c) main_v120 (outs m 27 main_v120 c) = _
  rw [V26_eq, outs_main_v120]; rfl

def pdats : (p : Fin 7) → (c : Dev nD) → Dat τ (Elt F) Unit ℕ (UR sig nD τ) ℕ (cfgs p) c
  | ⟨0, _⟩ => fun c => dat0 (fun c b => W1 m c b) c
  | ⟨1, _⟩ => fun c => dat1 (fun c b => W6 m c b) c
  | ⟨2, _⟩ => fun c => dat2 (fun c b => W10 m c b) c
  | ⟨3, _⟩ => fun c => dat3 (fun c b => W14 m c b) c
  | ⟨4, _⟩ => fun c => dat4 (fun c b => W18 m c b) c
  | ⟨5, _⟩ => fun c => dat5 (fun c b => W22 m c b) c
  | ⟨6, _⟩ => fun c => dat6 (fun c b => W26 m c b) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev E : Fin 8 → Dev nD → sProp 𝕄 := fun _ c => R c

set_option backward.isDefEq.respectTransparency.types false in
/-- One record serves every region: the buffers leave as they entered, except the output array. -/
def mkReg (p : Fin 7) (lf : Pipeline.LaunchFacts (nD := nD) (τ := τ) cfgs p) (Wi Wo : Dev nD → Valuation τ sig (Elt F))
    (o : Fin (cfgs p).W) (hin : ∀ w, w ≠ o → ((cfgs p).win w).isOut = false)
    (hb : ∀ c, BodyObligation (pdats m p c) (defs₀ (F := F)) Variants.none () Set.univ)
    (hq : ∀ c w, (pdats m p c).q w = fullShare) (howed : ∀ c t, (pdats m p c).owed t = 0)
    (hrec : ∀ c, (pdats m p c).recorded 0 = Set.univ)
    (hΦ : ∀ c i, (pdats m p c).Φ i = Pipeline.ΦA (cfgs p).spec c)
    (hA : ∀ c w, (pdats m p c).A w = Wi c (Pipeline.arrRef (cfgs p).spec w))
    (hWo : ∀ c, Wo c = Function.update (Wi c) (Proc.devRef .tc (Pipeline.arrRef (cfgs p).spec o)) ((pdats m p c).arrAt o (cfgs p).N)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl ((hrec c).symm ▸ Set.mem_univ x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hF : ∀ w, (pdats m p c).arrAt w (cfgs p).N = Wo c (Pipeline.arrRef (cfgs p).spec w) := fun w => by
      rw [hWo c]
      by_cases h : w = o
      · subst h
        exact (Function.update_self (β := fun b : DevRef τ sig => Buf (Elt F) ((c : Thread nD τ).1, b)) _ _ (Wi c)).symm
      · exact (((pdats m p c).arrAt_in w (hin w h) _).trans (hA c w)).trans
          (Function.update_of_ne (StableHlo.devRef_ne_of_ne fun e => h (lf.win.arr_inj e)) _ _).symm
    have hrest : ∀ b, b ∉ Finset.univ.image (Pipeline.arrRef (cfgs p).spec) → Wo c b = Wi c b := fun b hb => by
      rw [hWo c]
      exact Function.update_of_ne (StableHlo.devRef_ne_of_ne fun e => hb (Finset.mem_image.mpr ⟨o, Finset.mem_univ _, e.symm⟩)) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : RegionSeg (pcfgs (F := F)) adm (pdats m) () defs₀ 𝒱₀ L lv 0 :=
  mkReg m 0 launch0 (W1 m) (W2 m) 3 (by decide) (fun c => body_obligation0 (fun c b => W1 m c b) c)
    (fun _ _ => rfl) (fun _ _ => rfl) (fun _ => rfl) (fun _ _ => rfl) (fun _ _ => rfl) (fun _ => rfl)
def reg1 : RegionSeg (pcfgs (F := F)) adm (pdats m) () defs₀ 𝒱₀ L lv 1 :=
  mkReg m 1 launch1 (W6 m) (W7 m) 3 (by decide) (fun c => body_obligation1 (fun c b => W6 m c b) c)
    (fun _ _ => rfl) (fun _ _ => rfl) (fun _ => rfl) (fun _ _ => rfl) (fun _ _ => rfl) (fun _ => rfl)
def reg2 : RegionSeg (pcfgs (F := F)) adm (pdats m) () defs₀ 𝒱₀ L lv 2 :=
  mkReg m 2 launch2 (W10 m) (W11 m) 4 (by decide) (fun c => body_obligation2 (fun c b => W10 m c b) c)
    (fun _ _ => rfl) (fun _ _ => rfl) (fun _ => rfl) (fun _ _ => rfl) (fun _ _ => rfl) (fun _ => rfl)
def reg3 : RegionSeg (pcfgs (F := F)) adm (pdats m) () defs₀ 𝒱₀ L lv 3 :=
  mkReg m 3 launch3 (W14 m) (W15 m) 3 (by decide) (fun c => body_obligation3 (fun c b => W14 m c b) c)
    (fun _ _ => rfl) (fun _ _ => rfl) (fun _ => rfl) (fun _ _ => rfl) (fun _ _ => rfl) (fun _ => rfl)
def reg4 : RegionSeg (pcfgs (F := F)) adm (pdats m) () defs₀ 𝒱₀ L lv 4 :=
  mkReg m 4 launch4 (W18 m) (W19 m) 4 (by decide) (fun c => body_obligation4 (fun c b => W18 m c b) c)
    (fun _ _ => rfl) (fun _ _ => rfl) (fun _ => rfl) (fun _ _ => rfl) (fun _ _ => rfl) (fun _ => rfl)
def reg5 : RegionSeg (pcfgs (F := F)) adm (pdats m) () defs₀ 𝒱₀ L lv 5 :=
  mkReg m 5 launch5 (W22 m) (W23 m) 3 (by decide) (fun c => body_obligation5 (fun c b => W22 m c b) c)
    (fun _ _ => rfl) (fun _ _ => rfl) (fun _ => rfl) (fun _ _ => rfl) (fun _ _ => rfl) (fun _ => rfl)
def reg6 : RegionSeg (pcfgs (F := F)) adm (pdats m) () defs₀ 𝒱₀ L lv 6 :=
  mkReg m 6 launch6 (W26 m) (W27 m) 4 (by decide) (fun c => body_obligation6 (fun c b => W26 m c b) c)
    (fun _ _ => rfl) (fun _ _ => rfl) (fun _ => rfl) (fun _ _ => rfl) (fun _ _ => rfl) (fun _ => rfl)

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0c (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ E (F := F) 0 c := by
  iintro ⟨-, HO, -, Hp, -⟩
  isplitl [Hp]; · iexists _; iexact Hp
  iexists ∅; iexact HO

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (E (F := F) 0) : sProp 𝕄) := bigSep_mono fun c _ => hE0c ρ c
  iintro ⟨H, -⟩
  imodintro
  iapply hm
  iexact H

theorem hE7 (c : Dev nD) : E (F := F) 7 c ⊢ (iprop(∃ W, owes (c : Thread nD τ) (0 : CellTallies nD τ sig Unit) W) : sProp 𝕄) := by
  iintro ⟨-, HO⟩; iexact HO

theorem hpre0 (c : Dev nD) : iprop(StableHlo.held (c : Thread nD τ) (Pipeline.ucRefs τ sig) (V1 m c) ∗ E (F := F) 0 c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ E (F := F) 1 c) := by
  rw [V2_eq]; exact .rfl
theorem hpre1 (c : Dev nD) : iprop(StableHlo.held (c : Thread nD τ) (Pipeline.ucRefs τ sig) (V6 m (outs m) c) ∗ E (F := F) 1 c) ⊢ (reg1 m).pre c := by
  rw [V6_eq]; exact .rfl
theorem hpost1 (c : Dev nD) : (reg1 m).post c ⊢ iprop(StableHlo.held (c : Thread nD τ) (Pipeline.ucRefs τ sig) (V7 m (outs m) c) ∗ E (F := F) 2 c) := by
  rw [V7_eq]; exact .rfl
theorem hpre2 (c : Dev nD) : iprop(StableHlo.held (c : Thread nD τ) (Pipeline.ucRefs τ sig) (V10 m (outs m) c) ∗ E (F := F) 2 c) ⊢ (reg2 m).pre c := by
  rw [V10_eq]; exact .rfl
theorem hpost2 (c : Dev nD) : (reg2 m).post c ⊢ iprop(StableHlo.held (c : Thread nD τ) (Pipeline.ucRefs τ sig) (V11 m (outs m) c) ∗ E (F := F) 3 c) := by
  rw [V11_eq]; exact .rfl
theorem hpre3 (c : Dev nD) : iprop(StableHlo.held (c : Thread nD τ) (Pipeline.ucRefs τ sig) (V14 m (outs m) c) ∗ E (F := F) 3 c) ⊢ (reg3 m).pre c := by
  rw [V14_eq]; exact .rfl
theorem hpost3 (c : Dev nD) : (reg3 m).post c ⊢ iprop(StableHlo.held (c : Thread nD τ) (Pipeline.ucRefs τ sig) (V15 m (outs m) c) ∗ E (F := F) 4 c) := by
  rw [V15_eq]; exact .rfl
theorem hpre4 (c : Dev nD) : iprop(StableHlo.held (c : Thread nD τ) (Pipeline.ucRefs τ sig) (V18 m (outs m) c) ∗ E (F := F) 4 c) ⊢ (reg4 m).pre c := by
  rw [V18_eq]; exact .rfl
theorem hpost4 (c : Dev nD) : (reg4 m).post c ⊢ iprop(StableHlo.held (c : Thread nD τ) (Pipeline.ucRefs τ sig) (V19 m (outs m) c) ∗ E (F := F) 5 c) := by
  rw [V19_eq]; exact .rfl
theorem hpre5 (c : Dev nD) : iprop(StableHlo.held (c : Thread nD τ) (Pipeline.ucRefs τ sig) (V22 m (outs m) c) ∗ E (F := F) 5 c) ⊢ (reg5 m).pre c := by
  rw [V22_eq]; exact .rfl
theorem hpost5 (c : Dev nD) : (reg5 m).post c ⊢ iprop(StableHlo.held (c : Thread nD τ) (Pipeline.ucRefs τ sig) (V23 m (outs m) c) ∗ E (F := F) 6 c) := by
  rw [V23_eq]; exact .rfl
theorem hpre6 (c : Dev nD) : iprop(StableHlo.held (c : Thread nD τ) (Pipeline.ucRefs τ sig) (V26 m (outs m) c) ∗ E (F := F) 6 c) ⊢ (reg6 m).pre c := by
  rw [V26_eq]; exact .rfl
theorem hpost6 (c : Dev nD) : (reg6 m).post c ⊢ iprop(StableHlo.held (c : Thread nD τ) (Pipeline.ucRefs τ sig) (V27 m (outs m) c) ∗ E (F := F) 7 c) := by
  rw [V27_eq]; exact .rfl

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond (F := F) m emb₁ () 𝒱₀ L lv (fun _ _ => rfl) ρ (outs m) (pdats m) 0 (fun _ => (BI.emp : sProp 𝕄)) u₀ (hu₀ (F := F)) (E (F := F)) (hE0 (F := F) ρ) (hE7 (F := F))
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m)

end Cert.KernelIdeal.Rgn

end
-- ==== Proof.KI.RunCond.lean ====
import proofs.«426792_j34668976013873_1_alg».proof.Proof.Gen.KernelIdeal.Regions
import Idealize.ShloMosaic.Lib.Pipeline.Kit

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

variable (m : (ℓ : Loc nD τ sig) → Buf (Elt F) ℓ)

theorem V27_result (outs : Outs (F := F)) (c : Dev nD) : V27 m outs c main_v120 = outs 27 main_v120 c :=
  Function.update_self (β := fun b : DevRef τ sig => Buf (Elt F) ((c : Thread nD τ).1, b)) (Proc.devRef .tc main_v120) (outs 27 main_v120 c) (V26 m outs c)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V10 m outs c) ∗ E 2 c) ⊢ R2.pre c)
    (hpost2 : ∀ c : Dev nD, R2.post c ⊢ iprop(StableHlo.held (c : Thread nD τ) (Pipeline.ucRefs τ sig) (V11 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V14 m outs c) ∗ E 3 c) ⊢ R3.pre c)
    (hpost3 : ∀ c : Dev nD, R3.post c ⊢ iprop(StableHlo.held (c : Thread nD τ) (Pipeline.ucRefs τ sig) (V15 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V18 m outs c) ∗ E 4 c) ⊢ R4.pre c)
    (hpost4 : ∀ c : Dev nD, R4.post c ⊢ iprop(StableHlo.held (c : Thread nD τ) (Pipeline.ucRefs τ sig) (V19 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V22 m outs c) ∗ E 5 c) ⊢ R5.pre c)
    (hpost5 : ∀ c : Dev nD, R5.post c ⊢ iprop(StableHlo.held (c : Thread nD τ) (Pipeline.ucRefs τ sig) (V23 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V26 m outs c) ∗ E 6 c) ⊢ R6.pre c)
    (hpost6 : ∀ c : Dev nD, R6.post c ⊢ iprop(StableHlo.held (c : Thread nD τ) (Pipeline.ucRefs τ sig) (V27 m outs c) ∗ E 7 c)) :
    θ_run defs (onTc (τ := τ) (main (F := F))) ⟨m, fun _ => 0, ρ⟩ (fun r => ∀ c : Dev nD,
      r.2.mem ((c.tc : Thread nD τ).loc main_v120) = outs 27 main_v120 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          StableHlo.seq hostOps6_1,
          StableHlo.seq hostOps6_2,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V27 m outs c))
    (hch := fun c => ⟨.rfl, hpre0 c, hpost0 c, .rfl, .rfl, .rfl, hpre1 c, hpost1 c, .rfl, .rfl, hpre2 c, hpost2 c, .rfl, .rfl, hpre3 c, hpost3 c, .rfl, .rfl, hpre4 c, hpost4 c, .rfl, .rfl, hpre5 c, hpost5 c, .rfl, .rfl, hpre6 c, (hpost6 c).trans (sep_mono .rfl (hE7 c))⟩)
    (hinit := ?_) (QY := fun c s => s.mem ((c.tc : Thread nD τ).loc main_v120) = outs 27 main_v120 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V27 m outs c) s') $$ [Hh HSI]
    · isplitl [Hh] <;> iassumption
    icases Hr with ⟨%h, HSI⟩
    imodintro
    isplitr
    · ipureintro
      exact ⟨(h (Proc.devRef .tc main_v120) (Finset.mem_filter.mpr ⟨StableHlo.devRef_mem_tcRefs main_v120, by decide⟩)).trans (V27_result m outs c),
        (h (Proc.devRef .tc main_arg0) (Finset.mem_filter.mpr ⟨StableHlo.devRef_mem_tcRefs main_arg0, by decide⟩)).trans (V27_main_arg0 m outs c),
        (h (Proc.devRef .tc main_arg1) (Finset.mem_filter.mpr ⟨StableHlo.devRef_mem_tcRefs main_arg1, by decide⟩)).trans (V27_main_arg1 m outs c),
        (h (Proc.devRef .tc main_arg2) (Finset.mem_filter.mpr ⟨StableHlo.devRef_mem_tcRefs main_arg2, by decide⟩)).trans (V27_main_arg2 m outs c),
        (h (Proc.devRef .tc main_arg3) (Finset.mem_filter.mpr ⟨StableHlo.devRef_mem_tcRefs main_arg3, by decide⟩)).trans (V27_main_arg3 m outs c),
        (h (Proc.devRef .tc main_arg4) (Finset.mem_filter.mpr ⟨StableHlo.devRef_mem_tcRefs main_arg4, by decide⟩)).trans (V27_main_arg4 m outs c),
        (h (Proc.devRef .tc main_arg5) (Finset.mem_filter.mpr ⟨StableHlo.devRef_mem_tcRefs main_arg5, by decide⟩)).trans (V27_main_arg5 m outs c),
        (h (Proc.devRef .tc main_arg6) (Finset.mem_filter.mpr ⟨StableHlo.devRef_mem_tcRefs main_arg6, by decide⟩)).trans (V27_main_arg6 m outs c),
        (h (Proc.devRef .tc main_arg7) (Finset.mem_filter.mpr ⟨StableHlo.devRef_mem_tcRefs main_arg7, by decide⟩)).trans (V27_main_arg7 m outs c),
        (h (Proc.devRef .tc main_arg8) (Finset.mem_filter.mpr ⟨StableHlo.devRef_mem_tcRefs main_arg8, by decide⟩)).trans (V27_main_arg8 m outs c),
        (h (Proc.devRef .tc main_arg9) (Finset.mem_filter.mpr ⟨StableHlo.devRef_mem_tcRefs main_arg9, by decide⟩)).trans (V27_main_arg9 m outs c),
        (h (Proc.devRef .tc main_arg10) (Finset.mem_filter.mpr ⟨StableHlo.devRef_mem_tcRefs main_arg10, by decide⟩)).trans (V27_main_arg10 m outs c),
        (h (Proc.devRef .tc main_arg11) (Finset.mem_filter.mpr ⟨StableHlo.devRef_mem_tcRefs main_arg11, by decide⟩)).trans (V27_main_arg11 m outs c),
        (h (Proc.devRef .tc main_arg12) (Finset.mem_filter.mpr ⟨StableHlo.devRef_mem_tcRefs main_arg12, by decide⟩)).trans (V27_main_arg12 m outs c)⟩
    · iexact HSI

end Cert.KernelIdeal.Rgn

end
-- ==== Proof.KI.RunVal.lean ====
import proofs.«426792_j34668976013873_1_alg».proof.Proof.KI.Regs
import proofs.«426792_j34668976013873_1_alg».proof.Proof.KI.RunCond

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

variable (m : (ℓ : Loc nD τ sig) → Buf (Elt F) ℓ)

local notation "𝕄" => MT nD τ sig Unit (Elt F) ℕ (UR sig nD τ) ℕ

set_option backward.isDefEq.respectTransparency.types false in
theorem run_val (ρ : Dev nD → PrngReg) :
    θ_run defs (onTc (τ := τ) (main (F := F))) ⟨m, fun _ => 0, ρ⟩ (fun r => ∀ c : Dev nD,
      r.2.mem ((c.tc : Thread nD τ).loc main_v120) = o27 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (outs_main_v120 m 27 c), (h c).2⟩)
    (run_cond (F := F) m emb₁ () 𝒱₀ L lv (fun _ _ => rfl) ρ (outs m) (pdats m) 0 (fun _ => (BI.emp : sProp 𝕄)) u₀ (hu₀ (F := F)) (E (F := F)) (hE0 (F := F) ρ) (hE7 (F := F))
      (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m))

end Cert.KernelIdeal.Rgn

end
-- ==== Proof.TakeDefs.lean ====
import proofs.«426792_j34668976013873_1_alg».proof.KernelIdeal
import proofs.«426792_j34668976013873_1_alg».proof.ReferenceIdeal

noncomputable section

namespace Cert.IdxRange

open Idealize.ShloMosaic

variable {F : FTy → Type} [FloatOps F]
variable [hK : Cert.KernelIdeal.Facts] [hR : Cert.ReferenceIdeal.Facts]

def take600 (x : (⟨Cert.KernelIdeal.S100000x128, .f32⟩ : BufTy).Contents (Elt F))
    (idx : (⟨Cert.KernelIdeal.S600000, .i32⟩ : BufTy).Contents (Elt F)) :
    (⟨Cert.KernelIdeal.S600000x128, .f32⟩ : BufTy).Contents (Elt F) :=
  have c : (⟨Cert.KernelIdeal.S_, .i32⟩ : BufTy).Contents (Elt F) := constantI Cert.KernelIdeal.S_ 32 0#32
  have v0 : (⟨Cert.KernelIdeal.S600000, .i32⟩ : BufTy).Contents (Elt F) := broadcastInDim Cert.KernelIdeal.S600000 ![] Cert.KernelIdeal.Facts₀.bcast_S_S600000 c
  have v1 : (⟨Cert.KernelIdeal.S600000, .i1⟩ : BufTy).Contents (Elt F) := cmpi .slt idx v0
  have c_0 : (⟨Cert.KernelIdeal.S_, .i32⟩ : BufTy).Contents (Elt F) := constantI Cert.KernelIdeal.S_ 32 100000#32
  have v2 : (⟨Cert.KernelIdeal.S600000, .i32⟩ : BufTy).Contents (Elt F) := broadcastInDim Cert.KernelIdeal.S600000 ![] Cert.KernelIdeal.Facts₀.bcast_S_S600000 c_0
  have v3 : (⟨Cert.KernelIdeal.S600000, .i32⟩ : BufTy).Contents (Elt F) := addi idx v2
  have v4 : (⟨Cert.KernelIdeal.S600000, .i32⟩ : BufTy).Contents (Elt F) := select v1 v3 idx
  have v5 : (⟨Cert.KernelIdeal.S600000x1, .i32⟩ : BufTy).Contents (Elt F) := broadcastInDim Cert.KernelIdeal.S600000x1 ![0] Cert.KernelIdeal.Facts₀.bcast_S600000_S600000x1_0 v4
  have c_1 : (⟨Cert.KernelIdeal.S1, .i32⟩ : BufTy).Contents (Elt F) := constantI Cert.KernelIdeal.S1 32 99999#32
  have c_2 : (⟨Cert.KernelIdeal.S_, .i32⟩ : BufTy).Contents (Elt F) := constantI Cert.KernelIdeal.S_ 32 0#32
  have v6 : (⟨Cert.KernelIdeal.S600000x1, .i32⟩ : BufTy).Contents (Elt F) := broadcastInDim Cert.KernelIdeal.S600000x1 ![] Cert.KernelIdeal.Facts₀.bcast_S_S600000x1 c_2
  have v7 : (⟨Cert.KernelIdeal.S600000x1, .i1⟩ : BufTy).Contents (Elt F) := cmpi .sge v5 v6
  have v8 : (⟨Cert.KernelIdeal.S1x1, .i32⟩ : BufTy).Contents (Elt F) := broadcastInDim Cert.KernelIdeal.S1x1 ![1] Cert.KernelIdeal.Facts₀.bcast_S1_S1x1_1 c_1
  have v9 : (⟨Cert.KernelIdeal.S600000x1, .i32⟩ : BufTy).Contents (Elt F) := broadcastInDim Cert.KernelIdeal.S600000x1 ![0, 1] Cert.KernelIdeal.Facts₀.bcast_S1x1_S600000x1_0_1 v8
  have v10 : (⟨Cert.KernelIdeal.S600000x1, .i1⟩ : BufTy).Contents (Elt F) := cmpi .sle v5 v9
  have v11 : (⟨Cert.KernelIdeal.S600000x1, .i1⟩ : BufTy).Contents (Elt F) := andi v7 v10
  have c_3 : (⟨Cert.KernelIdeal.S_, .i1⟩ : BufTy).Contents (Elt F) := constantI Cert.KernelIdeal.S_ 1 1#1
  have v12 : (⟨Cert.KernelIdeal.S600000, .i1⟩ : BufTy).Contents (Elt F) := (fun x v => Host.reduce IntOp.andi x v Cert.KernelIdeal.Facts₀.reducesTo_S600000x1_S600000_d1 Cert.KernelIdeal.Facts₀.h_S_) v11 c_3
  have v13 : (⟨Cert.KernelIdeal.S600000x128, .f32⟩ : BufTy).Contents (Elt F) := (fun x i => Host.gather Cert.KernelIdeal.gather_S100000x128_S600000x1_S600000x128_1_0_n_n_0_1_1128 x i) x v5
  have v14 : (⟨Cert.KernelIdeal.S600000x128, .i1⟩ : BufTy).Contents (Elt F) := broadcastInDim Cert.KernelIdeal.S600000x128 ![0] Cert.KernelIdeal.Facts₀.bcast_S600000_S600000x128_0 v12
  have cst : (⟨Cert.KernelIdeal.S_, .f32⟩ : BufTy).Contents (Elt F) := constant (F := F) Cert.KernelIdeal.S_ .f32 0x7FC00000#32
  have v15 : (⟨Cert.KernelIdeal.S600000x128, .f32⟩ : BufTy).Contents (Elt F) := broadcastInDim Cert.KernelIdeal.S600000x128 ![] Cert.KernelIdeal.Facts₀.bcast_S_S600000x128 cst
  select v14 v13 v15

def take100 (x : (⟨Cert.KernelIdeal.S384x128, .f32⟩ : BufTy).Contents (Elt F))
    (idx : (⟨Cert.KernelIdeal.S100000, .i32⟩ : BufTy).Contents (Elt F)) :
    (⟨Cert.KernelIdeal.S100000x128, .f32⟩ : BufTy).Contents (Elt F) :=
  have c : (⟨Cert.KernelIdeal.S_, .i32⟩ : BufTy).Contents (Elt F) := constantI Cert.KernelIdeal.S_ 32 0#32
  have v0 : (⟨Cert.KernelIdeal.S100000, .i32⟩ : BufTy).Contents (Elt F) := broadcastInDim Cert.KernelIdeal.S100000 ![] Cert.KernelIdeal.Facts₀.bcast_S_S100000 c
  have v1 : (⟨Cert.KernelIdeal.S100000, .i1⟩ : BufTy).Contents (Elt F) := cmpi .slt idx v0
  have c_0 : (⟨Cert.KernelIdeal.S_, .i32⟩ : BufTy).Contents (Elt F) := constantI Cert.KernelIdeal.S_ 32 384#32
  have v2 : (⟨Cert.KernelIdeal.S100000, .i32⟩ : BufTy).Contents (Elt F) := broadcastInDim Cert.KernelIdeal.S100000 ![] Cert.KernelIdeal.Facts₀.bcast_S_S100000 c_0
  have v3 : (⟨Cert.KernelIdeal.S100000, .i32⟩ : BufTy).Contents (Elt F) := addi idx v2
  have v4 : (⟨Cert.KernelIdeal.S100000, .i32⟩ : BufTy).Contents (Elt F) := select v1 v3 idx
  have v5 : (⟨Cert.KernelIdeal.S100000x1, .i32⟩ : BufTy).Contents (Elt F) := broadcastInDim Cert.KernelIdeal.S100000x1 ![0] Cert.KernelIdeal.Facts₀.bcast_S100000_S100000x1_0 v4
  have c_1 : (⟨Cert.KernelIdeal.S1, .i32⟩ : BufTy).Contents (Elt F) := constantI Cert.KernelIdeal.S1 32 383#32
  have c_2 : (⟨Cert.KernelIdeal.S_, .i32⟩ : BufTy).Contents (Elt F) := constantI Cert.KernelIdeal.S_ 32 0#32
  have v6 : (⟨Cert.KernelIdeal.S100000x1, .i32⟩ : BufTy).Contents (Elt F) := broadcastInDim Cert.KernelIdeal.S100000x1 ![] Cert.KernelIdeal.Facts₀.bcast_S_S100000x1 c_2
  have v7 : (⟨Cert.KernelIdeal.S100000x1, .i1⟩ : BufTy).Contents (Elt F) := cmpi .sge v5 v6
  have v8 : (⟨Cert.KernelIdeal.S1x1, .i32⟩ : BufTy).Contents (Elt F) := broadcastInDim Cert.KernelIdeal.S1x1 ![1] Cert.KernelIdeal.Facts₀.bcast_S1_S1x1_1 c_1
  have v9 : (⟨Cert.KernelIdeal.S100000x1, .i32⟩ : BufTy).Contents (Elt F) := broadcastInDim Cert.KernelIdeal.S100000x1 ![0, 1] Cert.KernelIdeal.Facts₀.bcast_S1x1_S100000x1_0_1 v8
  have v10 : (⟨Cert.KernelIdeal.S100000x1, .i1⟩ : BufTy).Contents (Elt F) := cmpi .sle v5 v9
  have v11 : (⟨Cert.KernelIdeal.S100000x1, .i1⟩ : BufTy).Contents (Elt F) := andi v7 v10
  have c_3 : (⟨Cert.KernelIdeal.S_, .i1⟩ : BufTy).Contents (Elt F) := constantI Cert.KernelIdeal.S_ 1 1#1
  have v12 : (⟨Cert.KernelIdeal.S100000, .i1⟩ : BufTy).Contents (Elt F) := (fun x v => Host.reduce IntOp.andi x v Cert.KernelIdeal.Facts₀.reducesTo_S100000x1_S100000_d1 Cert.KernelIdeal.Facts₀.h_S_) v11 c_3
  have v13 : (⟨Cert.KernelIdeal.S100000x128, .f32⟩ : BufTy).Contents (Elt F) := (fun x i => Host.gather Cert.KernelIdeal.gather_S384x128_S100000x1_S100000x128_1_0_n_n_0_1_1128 x i) x v5
  have v14 : (⟨Cert.KernelIdeal.S100000x128, .i1⟩ : BufTy).Contents (Elt F) := broadcastInDim Cert.KernelIdeal.S100000x128 ![0] Cert.KernelIdeal.Facts₀.bcast_S100000_S100000x128_0 v12
  have cst : (⟨Cert.KernelIdeal.S_, .f32⟩ : BufTy).Contents (Elt F) := constant (F := F) Cert.KernelIdeal.S_ .f32 0x7FC00000#32
  have v15 : (⟨Cert.KernelIdeal.S100000x128, .f32⟩ : BufTy).Contents (Elt F) := broadcastInDim Cert.KernelIdeal.S100000x128 ![] Cert.KernelIdeal.Facts₀.bcast_S_S100000x128 cst
  select v14 v13 v15

def gat600 (x : (⟨Cert.ReferenceIdeal.S100000x128, .f32⟩ : BufTy).Contents (Elt F))
    (idx : (⟨Cert.ReferenceIdeal.S600000, .i32⟩ : BufTy).Contents (Elt F)) :
    (⟨Cert.ReferenceIdeal.S600000x128, .f32⟩ : BufTy).Contents (Elt F) :=
  have c : (⟨Cert.ReferenceIdeal.S_, .i32⟩ : BufTy).Contents (Elt F) := constantI Cert.ReferenceIdeal.S_ 32 0#32
  have w0 : (⟨Cert.ReferenceIdeal.S600000, .i32⟩ : BufTy).Contents (Elt F) := broadcastInDim Cert.ReferenceIdeal.S600000 ![] Cert.ReferenceIdeal.Facts₀.bcast_S_S600000 c
  have w1 : (⟨Cert.ReferenceIdeal.S600000, .i1⟩ : BufTy).Contents (Elt F) := cmpi .slt idx w0
  have c_0 : (⟨Cert.ReferenceIdeal.S_, .i32⟩ : BufTy).Contents (Elt F) := constantI Cert.ReferenceIdeal.S_ 32 100000#32
  have w2 : (⟨Cert.ReferenceIdeal.S600000, .i32⟩ : BufTy).Contents (Elt F) := broadcastInDim Cert.ReferenceIdeal.S600000 ![] Cert.ReferenceIdeal.Facts₀.bcast_S_S600000 c_0
  have w3 : (⟨Cert.ReferenceIdeal.S600000, .i32⟩ : BufTy).Contents (Elt F) := addi idx w2
  have w4 : (⟨Cert.ReferenceIdeal.S600000, .i32⟩ : BufTy).Contents (Elt F) := select w1 w3 idx
  have w5 : (⟨Cert.ReferenceIdeal.S600000x1, .i32⟩ : BufTy).Contents (Elt F) := broadcastInDim Cert.ReferenceIdeal.S600000x1 ![0] Cert.ReferenceIdeal.Facts₀.bcast_S600000_S600000x1_0 w4
  (fun x i => Host.gather Cert.ReferenceIdeal.gather_S100000x128_S600000x1_S600000x128_1_0_n_n_0_1_1128 x i) x w5

def gat100 (x : (⟨Cert.ReferenceIdeal.S384x128, .f32⟩ : BufTy).Contents (Elt F))
    (idx : (⟨Cert.ReferenceIdeal.S100000, .i32⟩ : BufTy).Contents (Elt F)) :
    (⟨Cert.ReferenceIdeal.S100000x128, .f32⟩ : BufTy).Contents (Elt F) :=
  have c : (⟨Cert.ReferenceIdeal.S_, .i32⟩ : BufTy).Contents (Elt F) := constantI Cert.ReferenceIdeal.S_ 32 0#32
  have w0 : (⟨Cert.ReferenceIdeal.S100000, .i32⟩ : BufTy).Contents (Elt F) := broadcastInDim Cert.ReferenceIdeal.S100000 ![] Cert.ReferenceIdeal.Facts₀.bcast_S_S100000 c
  have w1 : (⟨Cert.ReferenceIdeal.S100000, .i1⟩ : BufTy).Contents (Elt F) := cmpi .slt idx w0
  have c_0 : (⟨Cert.ReferenceIdeal.S_, .i32⟩ : BufTy).Contents (Elt F) := constantI Cert.ReferenceIdeal.S_ 32 384#32
  have w2 : (⟨Cert.ReferenceIdeal.S100000, .i32⟩ : BufTy).Contents (Elt F) := broadcastInDim Cert.ReferenceIdeal.S100000 ![] Cert.ReferenceIdeal.Facts₀.bcast_S_S100000 c_0
  have w3 : (⟨Cert.ReferenceIdeal.S100000, .i32⟩ : BufTy).Contents (Elt F) := addi idx w2
  have w4 : (⟨Cert.ReferenceIdeal.S100000, .i32⟩ : BufTy).Contents (Elt F) := select w1 w3 idx
  have w5 : (⟨Cert.ReferenceIdeal.S100000x1, .i32⟩ : BufTy).Contents (Elt F) := broadcastInDim Cert.ReferenceIdeal.S100000x1 ![0] Cert.ReferenceIdeal.Facts₀.bcast_S100000_S100000x1_0 w4
  (fun x i => Host.gather Cert.ReferenceIdeal.gather_S384x128_S100000x1_S100000x128_1_0_n_n_0_1_1128 x i) x w5

def srcK (a10 : (⟨Cert.KernelIdeal.S2x600000, .i32⟩ : BufTy).Contents (Elt F)) : (⟨Cert.KernelIdeal.S600000, .i32⟩ : BufTy).Contents (Elt F) :=
  shapeCast Cert.KernelIdeal.S600000 (extractStridedSlice Cert.KernelIdeal.S1x600000 ![0, 0] a10 Cert.KernelIdeal.Facts₀.slices_S2x600000_S1x600000_0_0) Cert.KernelIdeal.Facts₀.shapeCasts_S1x600000_S600000

def dstK (a10 : (⟨Cert.KernelIdeal.S2x600000, .i32⟩ : BufTy).Contents (Elt F)) : (⟨Cert.KernelIdeal.S600000, .i32⟩ : BufTy).Contents (Elt F) :=
  shapeCast Cert.KernelIdeal.S600000 (extractStridedSlice Cert.KernelIdeal.S1x600000 ![1, 0] a10 Cert.KernelIdeal.Facts₀.slices_S2x600000_S1x600000_1_0) Cert.KernelIdeal.Facts₀.shapeCasts_S1x600000_S600000

end Cert.IdxRange

end
-- ==== Proof.KI.HostFns.lean ====
import proofs.«426792_j34668976013873_1_alg».proof.KernelIdeal

noncomputable section

namespace Cert.KernelIdeal.KVal

open Idealize.ShloMosaic Cert.KernelIdeal Cert.KernelIdeal.Facts₀

variable {F : FTy → Type} [FloatOps F]
variable [hK : Cert.KernelIdeal.Facts]

def xcatK (a0 : (⟨S100000x15, .f32⟩ : BufTy).Contents (Elt F)) (a1 : (⟨S100000, .f32⟩ : BufTy).Contents (Elt F)) (a2 : (⟨S100000x32, .f32⟩ : BufTy).Contents (Elt F)) :
    (⟨S100000x48, .f32⟩ : BufTy).Contents (Elt F) :=
  have v0 : (⟨S100000x1, .f32⟩ : BufTy).Contents (Elt F) := broadcastInDim S100000x1 ![0] bcast_S100000_S100000x1_0 a1
  concatenate S100000x48 1 [⟨S100000x15, a0⟩, ⟨S100000x1, v0⟩, ⟨S100000x32, a2⟩] concatenates_S100000x15_S100000x1_S100000x32_S100000x48_d1

def catMsgK (xd xs : (⟨S600000x128, .f32⟩ : BufTy).Contents (Elt F)) : (⟨S600000x256, .bf16⟩ : BufTy).Contents (Elt F) :=
  have v15 : (⟨S600000x256, .f32⟩ : BufTy).Contents (Elt F) := concatenate S600000x256 1 [⟨S600000x128, xd⟩, ⟨S600000x128, xs⟩] concatenates_S600000x128_S600000x128_S600000x256_d1
  truncf .bf16 v15 bitsLt_bf16_f32

def aggrK (msg : (⟨S600000x128, .f32⟩ : BufTy).Contents (Elt F)) (dst : (⟨S600000, .i32⟩ : BufTy).Contents (Elt F)) : (⟨S100000x128, .f32⟩ : BufTy).Contents (Elt F) :=
  have cst : (⟨S_, .f32⟩ : BufTy).Contents (Elt F) := constant (F := F) S_ .f32 0x00000000#32
  have v18 : (⟨S100000x128, .f32⟩ : BufTy).Contents (Elt F) := broadcastInDim S100000x128 ![] bcast_S_S100000x128 cst
  have v19 : (⟨S600000x1, .i32⟩ : BufTy).Contents (Elt F) := broadcastInDim S600000x1 ![0] bcast_S600000_S600000x1_0 dst
  have v20 : (⟨S100000x128, .f32⟩ : BufTy).Contents (Elt F) := (fun x i u => Host.scatterAdd scatter_S100000x128_S600000x1_S600000x128_1_0_0_1 x i u) v18 v19 msg
  have cst_0 : (⟨S_, .f32⟩ : BufTy).Contents (Elt F) := constant (F := F) S_ .f32 0x3F800000#32
  have v21 : (⟨S600000, .f32⟩ : BufTy).Contents (Elt F) := broadcastInDim S600000 ![] bcast_S_S600000 cst_0
  have cst_1 : (⟨S_, .f32⟩ : BufTy).Contents (Elt F) := constant (F := F) S_ .f32 0x00000000#32
  have v22 : (⟨S100000, .f32⟩ : BufTy).Contents (Elt F) := broadcastInDim S100000 ![] bcast_S_S100000 cst_1
  have v23 : (⟨S600000x1, .i32⟩ : BufTy).Contents (Elt F) := broadcastInDim S600000x1 ![0] bcast_S600000_S600000x1_0 dst
  have v24 : (⟨S100000, .f32⟩ : BufTy).Contents (Elt F) := (fun x i u => Host.scatterAdd scatter_S100000_S600000x1_S600000_n_0_0_1 x i u) v22 v23 v21
  have cst_2 : (⟨S_, .f32⟩ : BufTy).Contents (Elt F) := constant (F := F) S_ .f32 0x3F800000#32
  have v25 : (⟨S100000, .f32⟩ : BufTy).Contents (Elt F) := broadcastInDim S100000 ![] bcast_S_S100000 cst_2
  have v26 : (⟨S100000, .f32⟩ : BufTy).Contents (Elt F) := maximumf v24 v25
  have v27 : (⟨S100000x1, .f32⟩ : BufTy).Contents (Elt F) := broadcastInDim S100000x1 ![0] bcast_S100000_S100000x1_0 v26
  have v28 : (⟨S100000x128, .f32⟩ : BufTy).Contents (Elt F) := broadcastInDim S100000x128 ![0, 1] bcast_S100000x1_S100000x128_0_1 v27
  Host.divf v20 v28

def pooledK (x : (⟨S100000x128, .f32⟩ : BufTy).Contents (Elt F)) (cc : (⟨S100000, .i32⟩ : BufTy).Contents (Elt F)) (tr : (⟨S384, .f32⟩ : BufTy).Contents (Elt F)) : (⟨S384x128, .f32⟩ : BufTy).Contents (Elt F) :=
  have cst_3 : (⟨S_, .f32⟩ : BufTy).Contents (Elt F) := constant (F := F) S_ .f32 0x00000000#32
  have v30 : (⟨S384x128, .f32⟩ : BufTy).Contents (Elt F) := broadcastInDim S384x128 ![] bcast_S_S384x128 cst_3
  have v31 : (⟨S100000x1, .i32⟩ : BufTy).Contents (Elt F) := broadcastInDim S100000x1 ![0] bcast_S100000_S100000x1_0 cc
  have v32 : (⟨S384x128, .f32⟩ : BufTy).Contents (Elt F) := (fun x i u => Host.scatterAdd scatter_S384x128_S100000x1_S100000x128_1_0_0_1 x i u) v30 v31 x
  have cst_4 : (⟨S_, .f32⟩ : BufTy).Contents (Elt F) := constant (F := F) S_ .f32 0x3F800000#32
  have v33 : (⟨S100000, .f32⟩ : BufTy).Contents (Elt F) := broadcastInDim S100000 ![] bcast_S_S100000 cst_4
  have cst_5 : (⟨S_, .f32⟩ : BufTy).Contents (Elt F) := constant (F := F) S_ .f32 0x00000000#32
  have v34 : (⟨S384, .f32⟩ : BufTy).Contents (Elt F) := broadcastInDim S384 ![] bcast_S_S384 cst_5
  have v35 : (⟨S100000x1, .i32⟩ : BufTy).Contents (Elt F) := broadcastInDim S100000x1 ![0] bcast_S100000_S100000x1_0 cc
  have v36 : (⟨S384, .f32⟩ : BufTy).Contents (Elt F) := (fun x i u => Host.scatterAdd scatter_S384_S100000x1_S100000_n_0_0_1 x i u) v34 v35 v33
  have cst_6 : (⟨S_, .f32⟩ : BufTy).Contents (Elt F) := constant (F := F) S_ .f32 0x3F800000#32
  have v37 : (⟨S384, .f32⟩ : BufTy).Contents (Elt F) := broadcastInDim S384 ![] bcast_S_S384 cst_6
  have v38 : (⟨S384, .f32⟩ : BufTy).Contents (Elt F) := maximumf v36 v37
  have v39 : (⟨S384x1, .f32⟩ : BufTy).Contents (Elt F) := broadcastInDim S384x1 ![0] bcast_S384_S384x1_0 v38
  have v40 : (⟨S384x128, .f32⟩ : BufTy).Contents (Elt F) := broadcastInDim S384x128 ![0, 1] bcast_S384x1_S384x128_0_1 v39
  have v41 : (⟨S384x128, .f32⟩ : BufTy).Contents (Elt F) := Host.divf v32 v40
  have v42 : (⟨S384x1, .f32⟩ : BufTy).Contents (Elt F) := broadcastInDim S384x1 ![0] bcast_S384_S384x1_0 tr
  have v43 : (⟨S384x128, .f32⟩ : BufTy).Contents (Elt F) := broadcastInDim S384x128 ![0, 1] bcast_S384x1_S384x128_0_1 v42
  mulf v41 v43

def catUpdK (x aggr np : (⟨S100000x128, .f32⟩ : BufTy).Contents (Elt F)) : (⟨S100000x384, .bf16⟩ : BufTy).Contents (Elt F) :=
  have v46 : (⟨S100000x384, .f32⟩ : BufTy).Contents (Elt F) := concatenate S100000x384 1 [⟨S100000x128, x⟩, ⟨S100000x128, aggr⟩, ⟨S100000x128, np⟩] concatenates_S100000x128_S100000x128_S100000x128_S100000x384_d1
  truncf .bf16 v46 bitsLt_bf16_f32

end Cert.KernelIdeal.KVal

end
-- ==== Proof.KI.Blocks.lean ====
import Idealize.ShloMosaic.Lib.StackMember
import Idealize.ShloMosaic.Lib.ValueLayout

noncomputable section

namespace Cert.KernelIdeal.KVal

open Idealize.ShloMosaic Idealize.ShloMosaic.ValueIdx
open scoped BigOperators

theorem zeros2 : (![0, 0] : Fin 2 → Nat) = fun _ => 0 := funext fun a => by fin_cases a <;> rfl

-- A product into zeros is the plain product, whose entry is the sum over the contracted coordinate.
theorem mm_apply {M K N : Nat} {φ₁ φ₂ : FTy} (l : FVec Ideal ⟨2, ![M, K]⟩ φ₁) (r : FVec Ideal ⟨2, ![K, N]⟩ φ₂)
    (p : Fin M) (q : Fin N) :
    matmul (DotDims.plain M K N) none l r (constant ⟨2, ![M, N]⟩ .f32 0x00000000#32) (ix2 p q)
      = ∑ k : Fin K, l (ix2 p k) * r (ix2 k q) :=
  (congrFun (matmul_zero_eq_dotGeneral _ none l r) (ix2 p q)).trans (StackMember.dotGeneral_plain_apply none l r p q)

-- With a bias row added down the rows.
theorem mm_bias_apply {M K N : Nat} {φ₁ φ₂ : FTy} (l : FVec Ideal ⟨2, ![M, K]⟩ φ₁) (r : FVec Ideal ⟨2, ![K, N]⟩ φ₂)
    (b : FVec Ideal ⟨2, ![1, N]⟩ .f32) (h : (⟨2, ![1, N]⟩ : Shape).Broadcasts ⟨2, ![M, N]⟩) (p : Fin M) (q : Fin N) :
    addf (matmul (DotDims.plain M K N) none l r (constant ⟨2, ![M, N]⟩ .f32 0x00000000#32)) (broadcastTo ⟨2, ![M, N]⟩ b h) (ix2 p q)
      = (∑ k : Fin K, l (ix2 p k) * r (ix2 k q)) + b (ix2 (0 : Fin 1) q) := by
  rw [addf_apply, mm_apply, broadcastTo_1b_ab_apply]

end Cert.KernelIdeal.KVal

end
-- ==== Proof.KI.Val0.lean ====
import proofs.«426792_j34668976013873_1_alg».proof.Proof.KI.Region0
import proofs.«426792_j34668976013873_1_alg».proof.Proof.KI.Blocks

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rgn
open scoped BigOperators

def encAt (xc : Vec Ideal S100000x48 .f32) (w : Vec Ideal S48x128 .bf16) (b : Vec Ideal S1x128 .f32)
    (r : Fin 100000) (j : Fin 128) : EReal :=
  (∑ k : Fin 48, xc (ix2 r k) * w (ix2 k j)) + b (ix2 (0 : Fin 1) j)

def encG (xc : Vec Ideal S100000x48 .f32) (w : Vec Ideal S48x128 .bf16) (b : Vec Ideal S1x128 .f32) :
    Vec Ideal S100000x128 .f32 :=
  fun i => encAt xc w b (i 0) (i 1)

theorem encG_ix2 (xc : Vec Ideal S100000x48 .f32) (w : Vec Ideal S48x128 .bf16) (b : Vec Ideal S1x128 .f32)
    (r : Fin 100000) (j : Fin 128) :
    encG xc w b (ix2 r j) = (∑ k : Fin 48, xc (ix2 r k) * w (ix2 k j)) + b (ix2 (0 : Fin 1) j) := rfl

-- At the ideal values the change of format of the x block is the identity.
theorem pay0_apply (x0 : Vec Ideal S2000x48 .f32) (x1 : Vec Ideal S48x128 .bf16) (x2 : Vec Ideal S1x128 .f32)
    (p : Fin 2000) (q : Fin 128) :
    k0_pay1 (F := Ideal) x0 x1 x2 (ix2 p q) = (∑ k : Fin 48, x0 (ix2 p k) * x1 (ix2 k q)) + x2 (ix2 (0 : Fin 1) q) := by
  unfold k0_pay1
  simp only [shapeCast_self]
  exact mm_bias_apply (M := 2000) (K := 48) (N := 128) (φ₁ := .bf16) (φ₂ := .bf16) (truncf .bf16 x0 bitsLt_bf16_f32) x1 x2 _ p q

-- A block whose row p is row R of x, its weight and bias the whole weight and bias, has at (p, q) the result's entry (R, q).
theorem blk0_apply (xc : Vec Ideal S100000x48 .f32) (w : Vec Ideal S48x128 .bf16) (b : Vec Ideal S1x128 .f32)
    (x0 : Vec Ideal S2000x48 .f32) (x1 : Vec Ideal S48x128 .bf16) (x2 : Vec Ideal S1x128 .f32)
    (R : Fin 100000) (p : Fin 2000) (q : Fin 128)
    (h0 : ∀ k : Fin 48, x0 (ix2 p k) = xc (ix2 R k)) (h1 : ∀ k : Fin 48, x1 (ix2 k q) = w (ix2 k q))
    (h2 : x2 (ix2 (0 : Fin 1) q) = b (ix2 (0 : Fin 1) q)) :
    k0_pay1 (F := Ideal) x0 x1 x2 (ix2 p q) = encG xc w b (ix2 R q) := by
  rw [pay0_apply, encG_ix2, h2]
  exact congrArg (· + b (ix2 (0 : Fin 1) q)) (Finset.sum_congr rfl fun k _ => by rw [h0 k, h1 k])

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

-- Block t of the output is rows 2000 t .. 2000 t + 1999 of x · w + b.
theorem flushed0_eq (c : Dev nD) (t : Fin cfg0.N) :
    (dat0 (F := Ideal) V c).flushed 3 t
      = ((cfg0.win 3).blk t).view.read (Elt Ideal) (encG (V c main_v1) (V c main_v2) (V c main_v3)) := by
  show (cfg0.win 3).cut (grid0.coords t) ((dat0 (F := Ideal) V c).after 3 t) = _
  rw [after0_3]
  unfold out0
  rw [View.canon_unit_zero zeros2]
  simp only [View.ld_unit_zero (S := S2000x48) zeros2, View.ld_unit_zero (S := S48x128) zeros2,
    View.ld_unit_zero (S := S1x128) zeros2]
  obtain ⟨e00, e01, e10, e11, e20, e21, e30, e31⟩ := idx_facts0 t
  have ht : t.val < 50 := Nat.lt_of_lt_of_eq t.isLt N_0
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = encG (V c main_v1) (V c main_v2) (V c main_v3) (((cfg0.win 3).blk t).view.emb (ix2 p q))
  have hp : p.val < 2000 := p.isLt
  have hR : ((cfg0.win 3).blk t).view.emb (ix2 p q) = ix2 (⟨2000 * t.val + p.val, by omega⟩ : Fin 100000) q := by
    refine Shape.idx_ext₂ ?_ ?_
    · show win0_3.index t (0 : Fin 2) * 2000 + 1 * p.val = 2000 * t.val + p.val; omega
    · show win0_3.index t (1 : Fin 2) * 128 + 1 * q.val = q.val; omega
  rw [hR]
  refine blk0_apply _ _ _ _ _ _ _ p q (fun k => ?_) (fun k => ?_) ?_
  · show V c main_v1 (((cfg0.win 0).blk t).view.emb (ix2 p k)) = V c main_v1 _
    refine congrArg _ (Shape.idx_ext₂ ?_ ?_)
    · show win0_0.index t (0 : Fin 2) * 2000 + 1 * p.val = 2000 * t.val + p.val; omega
    · show win0_0.index t (1 : Fin 2) * 48 + 1 * k.val = k.val; omega
  · show V c main_v2 (((cfg0.win 1).blk t).view.emb (ix2 k q)) = V c main_v2 _
    refine congrArg _ (Shape.idx_ext₂ ?_ ?_)
    · show win0_1.index t (0 : Fin 2) * 48 + 1 * k.val = k.val; omega
    · show win0_1.index t (1 : Fin 2) * 128 + 1 * q.val = q.val; omega
  · show V c main_v3 (((cfg0.win 2).blk t).view.emb (ix2 (0 : Fin 1) q)) = V c main_v3 _
    refine congrArg _ (Shape.idx_ext₂ ?_ ?_)
    · show win0_2.index t (0 : Fin 2) * 1 + 1 * (0 : Fin 1).val = (0 : Fin 1).val; omega
    · show win0_2.index t (1 : Fin 2) * 128 + 1 * q.val = q.val; omega

theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v4).slice (win0_3.rect t)).set ↔ _
  rw [View.set_slice_whole, Rect.mem_set_unit]
  exact Iff.rfl

-- Row r of the output lies in the block of point r / 2000.
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, e30, e31⟩ := idx_facts0 t
  have ht : t.val = (i 0).val / 2000 := rfl
  refine ⟨t, flush0_3 t, (mem_blk0 t i).2 fun a => ?_⟩
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

theorem arr0_eq (c : Dev nD) :
    (dat0 (F := Ideal) V c).arrAt 3 cfg0.N = encG (V c main_v1) (V c main_v2) (V c main_v3) :=
  (dat0 (F := Ideal) V c).arrAt_eq_of_cover 3 (encG (V c main_v1) (V c main_v2) (V c main_v3))
    (fun t _ => flushed0_eq V c t) cover0

end Cert.KernelIdeal.KVal

end
-- ==== Proof.KI.FnMsg.lean ====
import proofs.«426792_j34668976013873_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Idealize.ShloMosaic Idealize.ShloMosaic.ValueIdx
open Cert.KernelIdeal
open scoped BigOperators

def msgAt (mi : Vec Ideal S600000x256 .bf16) (w : Vec Ideal S256x128 .bf16) (b : Vec Ideal S1x128 .f32)
    (r : Fin 600000) (j : Fin 128) : EReal :=
  (∑ k : Fin 256, mi (ix2 r k) * w (ix2 k j)) + b (ix2 (0 : Fin 1) j)

def msgG (mi : Vec Ideal S600000x256 .bf16) (w : Vec Ideal S256x128 .bf16) (b : Vec Ideal S1x128 .f32) :
    Vec Ideal S600000x128 .f32 :=
  fun i => msgAt mi w b (i 0) (i 1)

theorem msgG_ix2 (mi : Vec Ideal S600000x256 .bf16) (w : Vec Ideal S256x128 .bf16) (b : Vec Ideal S1x128 .f32)
    (r : Fin 600000) (j : Fin 128) :
    msgG mi w b (ix2 r j) = (∑ k : Fin 256, mi (ix2 r k) * w (ix2 k j)) + b (ix2 (0 : Fin 1) j) := rfl

end Cert.KernelIdeal.KVal

end
-- ==== Proof.KI.FnUpd.lean ====
import proofs.«426792_j34668976013873_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.KVal

open Idealize.ShloMosaic Idealize.ShloMosaic.ValueIdx
open Cert.KernelIdeal Cert.KernelIdeal.Gen
open scoped BigOperators

def leaky (u : EReal) : EReal :=
  Scalar.select (FloatOps.cmpf (F := Ideal) (φ := .f32) .ogt u (Scalar.ofBits (F := Ideal) .f32 0x00000000#32)) u
    ((Scalar.ofBits (F := Ideal) .f32 0x3C23D70A#32 : EReal) * u)

def affAt (cat : Vec Ideal S100000x384 .bf16) (w : Vec Ideal S384x128 .bf16) (b : Vec Ideal S1x128 .f32)
    (r : Fin 100000) (c : Fin 128) : EReal :=
  (∑ k : Fin 384, (cat (ix2 r k) : EReal) * (w (ix2 k c) : EReal)) + (b (ix2 (0 : Fin 1) c) : EReal)

def updG (cat : Vec Ideal S100000x384 .bf16) (x : Vec Ideal S100000x128 .f32) (w : Vec Ideal S384x128 .bf16)
    (b : Vec Ideal S1x128 .f32) : Vec Ideal S100000x128 .f32 :=
  fun i => (x i : EReal) + leaky (affAt cat w b (i 0) (i 1))

theorem updG_ix2 (cat : Vec Ideal S100000x384 .bf16) (x : Vec Ideal S100000x128 .f32) (w : Vec Ideal S384x128 .bf16)
    (b : Vec Ideal S1x128 .f32) (r : Fin 100000) (c : Fin 128) :
    updG cat x w b (ix2 r c) = (x (ix2 r c) : EReal) + leaky (affAt cat w b r c) := rfl

end Cert.KernelIdeal.KVal

end
-- ==== Proof.KI.LayerK.lean ====
import proofs.«426792_j34668976013873_1_alg».proof.Proof.Gen.KernelIdeal
import proofs.«426792_j34668976013873_1_alg».proof.Proof.TakeDefs
import proofs.«426792_j34668976013873_1_alg».proof.Proof.KI.HostFns
import proofs.«426792_j34668976013873_1_alg».proof.Proof.KI.Val0
import proofs.«426792_j34668976013873_1_alg».proof.Proof.KI.FnMsg
import proofs.«426792_j34668976013873_1_alg».proof.Proof.KI.FnUpd

noncomputable section

namespace Cert.KernelIdeal.KVal

open Idealize.ShloMosaic Cert.KernelIdeal Cert.KernelIdeal.Facts₀ Cert.IdxRange

def encK (a0 : (⟨S100000x15, .f32⟩ : BufTy).Contents (Elt Ideal)) (a1 : (⟨S100000, .f32⟩ : BufTy).Contents (Elt Ideal))
    (a2 : (⟨S100000x32, .f32⟩ : BufTy).Contents (Elt Ideal)) (a4 : (⟨S48x128, .f32⟩ : BufTy).Contents (Elt Ideal))
    (a5 : (⟨S128, .f32⟩ : BufTy).Contents (Elt Ideal)) : (⟨S100000x128, .f32⟩ : BufTy).Contents (Elt Ideal) :=
  encG (xcatK (F := Ideal) a0 a1 a2) (truncf (F := Ideal) (φ := .f32) .bf16 a4 bitsLt_bf16_f32) (shapeCast S1x128 a5 shapeCasts_S128_S1x128)

def layerK (x : (⟨S100000x128, .f32⟩ : BufTy).Contents (Elt Ideal)) (src dst : (⟨S600000, .i32⟩ : BufTy).Contents (Elt Ideal))
    (a3 : (⟨S384, .f32⟩ : BufTy).Contents (Elt Ideal)) (a6 : (⟨S256x128, .f32⟩ : BufTy).Contents (Elt Ideal))
    (a7 : (⟨S128, .f32⟩ : BufTy).Contents (Elt Ideal)) (a8 : (⟨S384x128, .f32⟩ : BufTy).Contents (Elt Ideal))
    (a9 : (⟨S128, .f32⟩ : BufTy).Contents (Elt Ideal)) (a11 : (⟨S100000, .i32⟩ : BufTy).Contents (Elt Ideal)) :
    (⟨S100000x128, .f32⟩ : BufTy).Contents (Elt Ideal) :=
  updG
    (catUpdK (F := Ideal) x
      (aggrK (F := Ideal)
        (msgG (catMsgK (F := Ideal) (take600 (F := Ideal) x dst) (take600 (F := Ideal) x src))
          (truncf (F := Ideal) (φ := .f32) .bf16 a6 bitsLt_bf16_f32) (shapeCast S1x128 a7 shapeCasts_S128_S1x128))
        dst)
      (take100 (F := Ideal) (pooledK (F := Ideal) x a11 a3) a11))
    x (truncf (F := Ideal) (φ := .f32) .bf16 a8 bitsLt_bf16_f32) (shapeCast S1x128 a9 shapeCasts_S128_S1x128)

end Cert.KernelIdeal.KVal

end
-- ==== Proof.KI.Val1.lean ====
import proofs.«426792_j34668976013873_1_alg».proof.Proof.KI.Region1
import proofs.«426792_j34668976013873_1_alg».proof.Proof.KI.FnMsg
import proofs.«426792_j34668976013873_1_alg».proof.Proof.KI.Blocks

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rgn
open scoped BigOperators

theorem k1_pay1_apply (x0 : Vec Ideal S10000x256 .bf16) (x1 : Vec Ideal S256x128 .bf16) (x2 : Vec Ideal S1x128 .f32)
    (p : Fin 10000) (q : Fin 128) :
    k1_pay1 (F := Ideal) x0 x1 x2 (ix2 p q) = (∑ k : Fin 256, x0 (ix2 p k) * x1 (ix2 k q)) + x2 (ix2 (0 : Fin 1) q) := by
  unfold k1_pay1
  simp only [shapeCast_self]
  exact mm_bias_apply (M := 10000) (K := 256) (N := 128) (φ₁ := .bf16) (φ₂ := .bf16) x0 x1 x2 _ p q

-- A block whose row p is row R of m, its weight and bias the whole weight and bias, has at (p, q) the result's entry (R, q).
theorem msgG_of_rows (mi : Vec Ideal S600000x256 .bf16) (w : Vec Ideal S256x128 .bf16) (b : Vec Ideal S1x128 .f32)
    (x0 : Vec Ideal S10000x256 .bf16) (x1 : Vec Ideal S256x128 .bf16) (x2 : Vec Ideal S1x128 .f32)
    (R : Fin 600000) (p : Fin 10000) (q : Fin 128)
    (h0 : ∀ k : Fin 256, x0 (ix2 p k) = mi (ix2 R k)) (h1 : ∀ k : Fin 256, x1 (ix2 k q) = w (ix2 k q))
    (h2 : x2 (ix2 (0 : Fin 1) q) = b (ix2 (0 : Fin 1) q)) :
    (∑ k : Fin 256, x0 (ix2 p k) * x1 (ix2 k q)) + x2 (ix2 (0 : Fin 1) q) = msgG mi w b (ix2 R q) := by
  rw [msgG_ix2, h2]
  exact congrArg (· + b (ix2 (0 : Fin 1) q)) (Finset.sum_congr rfl fun k _ => by rw [h0 k, h1 k])

theorem grid1_facts : ∀ t : Fin cfg1.N,
    (cfg1.win 0).index t (0 : Fin 2) = t.val ∧ (cfg1.win 0).index t (1 : Fin 2) = 0
    ∧ (cfg1.win 1).index t (0 : Fin 2) = 0 ∧ (cfg1.win 1).index t (1 : Fin 2) = 0
    ∧ (cfg1.win 2).index t (0 : Fin 2) = 0 ∧ (cfg1.win 2).index t (1 : Fin 2) = 0
    ∧ (cfg1.win 3).index t (0 : Fin 2) = t.val ∧ (cfg1.win 3).index t (1 : Fin 2) = 0 :=
  (by decide +kernel : ∀ t : Fin grid1.N, _)

-- Block t of the output is rows 10000 t .. 10000 t + 9999 of m · w + b, whatever arrays m, w, b the windows read.
theorem msg_flushed (A0 : Vec Ideal S600000x256 .bf16) (A1 : Vec Ideal S256x128 .bf16) (A2 : Vec Ideal S1x128 .f32)
    (t : Fin cfg1.N) (x0 : Vec Ideal S10000x256 .bf16) (x1 : Vec Ideal S256x128 .bf16) (x2 : Vec Ideal S1x128 .f32)
    (h0 : x0 = ((cfg1.win 0).blk t).view.read (Elt Ideal) A0) (h1 : x1 = ((cfg1.win 1).blk t).view.read (Elt Ideal) A1)
    (h2 : x2 = ((cfg1.win 2).blk t).view.read (Elt Ideal) A2) :
    (cfg1.win 3).cut (grid1.coords t) (out1 (F := Ideal) x0 x1 x2)
      = ((cfg1.win 3).blk t).view.read (Elt Ideal) (msgG A0 A1 A2) := by
  subst h0 h1 h2
  unfold out1
  rw [View.canon_unit_zero zeros2]
  simp only [View.ld_unit_zero (S := S10000x256) zeros2, View.ld_unit_zero (S := S256x128) zeros2,
    View.ld_unit_zero (S := S1x128) zeros2]
  obtain ⟨e00, e01, e10, e11, e20, e21, e30, e31⟩ := grid1_facts t
  have ht : t.val < 60 := Nat.lt_of_lt_of_eq t.isLt N_1
  funext j
  obtain ⟨p, q, rfl⟩ : ∃ (p : Fin 10000) (q : Fin 128), j = ix2 p q := ⟨j 0, j 1, eq_ix2 j⟩
  have hp : p.val < 10000 := p.isLt
  show k1_pay1 (F := Ideal) (((cfg1.win 0).blk t).view.read (Elt Ideal) A0) (((cfg1.win 1).blk t).view.read (Elt Ideal) A1)
      (((cfg1.win 2).blk t).view.read (Elt Ideal) A2) (ix2 p q)
    = msgG A0 A1 A2 (((cfg1.win 3).blk t).view.emb (ix2 p q))
  have hR : ((cfg1.win 3).blk t).view.emb (ix2 p q) = ix2 (⟨10000 * t.val + p.val, by omega⟩ : Fin 600000) q := by
    refine Shape.idx_ext₂ ?_ ?_
    · show (cfg1.win 3).index t (0 : Fin 2) * 10000 + 1 * p.val = 10000 * t.val + p.val; omega
    · show (cfg1.win 3).index t (1 : Fin 2) * 128 + 1 * q.val = q.val; omega
  rw [hR, k1_pay1_apply]
  refine msgG_of_rows _ _ _ _ _ _ _ p q (fun k => ?_) (fun k => ?_) ?_
  · show A0 (((cfg1.win 0).blk t).view.emb (ix2 p k)) = A0 _
    refine congrArg A0 (Shape.idx_ext₂ ?_ ?_)
    · show (cfg1.win 0).index t (0 : Fin 2) * 10000 + 1 * p.val = 10000 * t.val + p.val; omega
    · show (cfg1.win 0).index t (1 : Fin 2) * 256 + 1 * k.val = k.val; omega
  · show A1 (((cfg1.win 1).blk t).view.emb (ix2 k q)) = A1 _
    refine congrArg A1 (Shape.idx_ext₂ ?_ ?_)
    · show (cfg1.win 1).index t (0 : Fin 2) * 256 + 1 * k.val = k.val; omega
    · show (cfg1.win 1).index t (1 : Fin 2) * 128 + 1 * q.val = q.val; omega
  · show A2 (((cfg1.win 2).blk t).view.emb (ix2 (0 : Fin 1) q)) = A2 _
    refine congrArg A2 (Shape.idx_ext₂ ?_ ?_)
    · show (cfg1.win 2).index t (0 : Fin 2) * 1 + 1 * (0 : Fin 1).val = (0 : Fin 1).val; omega
    · show (cfg1.win 2).index t (1 : Fin 2) * 128 + 1 * q.val = q.val; omega

theorem grid1_mem_blk (t : Fin cfg1.N) (i : S600000x128.Idx) :
    i ∈ ((cfg1.win 3).blk t).view.set ↔ ∀ a : Fin 2, (cfg1.win 3).index t a * S10000x128.size a ≤ (i a).val
      ∧ (i a).val < (cfg1.win 3).index t a * S10000x128.size a + S10000x128.size a := by
  show i ∈ ((View.whole (Pipeline.arrRef spec1 3)).slice ((cfg1.win 3).rect t)).set ↔ _
  rw [View.set_slice_whole, Rect.mem_set_unit]
  exact Iff.rfl

-- Row r of the output lies in the block of point r / 10000.
theorem grid1_cover (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  let t : Fin cfg1.N := ⟨(i 0).val / 10000, by have hN : cfg1.N = 60 := N_1; omega⟩
  obtain ⟨-, -, -, -, -, -, e30, e31⟩ := grid1_facts t
  have ht : t.val = (i 0).val / 10000 := rfl
  refine ⟨t, flush1_3 t, (grid1_mem_blk t i).2 fun a => ?_⟩
  match a with
  | ⟨0, _⟩ =>
    show (cfg1.win 3).index t (0 : Fin 2) * 10000 ≤ (i 0).val ∧ (i 0).val < (cfg1.win 3).index t (0 : Fin 2) * 10000 + 10000
    omega
  | ⟨1, _⟩ =>
    show (cfg1.win 3).index t (1 : Fin 2) * 128 ≤ (i 1).val ∧ (i 1).val < (cfg1.win 3).index t (1 : Fin 2) * 128 + 128
    omega

variable (V : (c : Dev nD) → (b : Ref sig .tc) → Buf (Elt Ideal) ((c : Thread nD τ).loc b))

theorem arr1_eq (c : Dev nD) :
    (dat1 (F := Ideal) V c).arrAt 3 cfg1.N = msgG (V c main_v16) (V c main_v9) (V c main_v10) :=
  (dat1 (F := Ideal) V c).arrAt_eq_of_cover 3 (msgG (V c main_v16) (V c main_v9) (V c main_v10))
    (fun t _ => by
      show (cfg1.win 3).cut (grid1.coords t) ((dat1 (F := Ideal) V c).after 3 t) = _
      rw [after1_3]
      exact msg_flushed (V c main_v16) (V c main_v9) (V c main_v10) t _ _ _ rfl rfl rfl) grid1_cover

end Cert.KernelIdeal.KVal

end
-- ==== Proof.KI.Val2.lean ====
import proofs.«426792_j34668976013873_1_alg».proof.Proof.KI.Region2
import proofs.«426792_j34668976013873_1_alg».proof.Proof.KI.FnUpd
import proofs.«426792_j34668976013873_1_alg».proof.Proof.KI.Blocks

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rgn
open scoped BigOperators

theorem pay2_apply (v0 : Vec Ideal S2000x384 .bf16) (v2 : Vec Ideal S384x128 .bf16) (v5 : Vec Ideal S1x128 .f32)
    (v14 : Vec Ideal S2000x128 .f32) (p : Fin 2000) (q : Fin 128) :
    k2_pay1 (F := Ideal) v0 v2 v5 v14 (ix2 p q)
      = (v14 (ix2 p q) : EReal) + leaky ((∑ k : Fin 384, (v0 (ix2 p k) : EReal) * (v2 (ix2 k q) : EReal)) + (v5 (ix2 (0 : Fin 1) q) : EReal)) := by
  unfold k2_pay1
  simp only [shapeCast_self, addf_apply, select_apply, cmpf_apply, mulf_apply, broadcast_apply]
  have hm : Idealize.ShloMosaic.matmul (F := Ideal) dot_S2000x384_S384x128_S2000x128_1_0_0_1_n_n none (v0 : FVec Ideal S2000x384 .bf16)
      (v2 : FVec Ideal S384x128 .bf16) (constant S2000x128 .f32 0x00000000#32) (ix2 p q)
      = ∑ k : Fin 384, v0 (ix2 p k) * v2 (ix2 k q) := mm_apply (M := 2000) (K := 384) (N := 128) (φ₁ := .bf16) (φ₂ := .bf16) v0 v2 p q
  rw [hm, broadcastTo_1b_ab_apply]
  rfl

-- A block whose row p is row R of the features and of x, its weight and bias whole, has at (p, q) the result's entry (R, q).
theorem updG_of_rows (cat : Vec Ideal S100000x384 .bf16) (x : Vec Ideal S100000x128 .f32) (w : Vec Ideal S384x128 .bf16)
    (b : Vec Ideal S1x128 .f32) (v0 : Vec Ideal S2000x384 .bf16) (v2 : Vec Ideal S384x128 .bf16) (v5 : Vec Ideal S1x128 .f32)
    (v14 : Vec Ideal S2000x128 .f32) (R : Fin 100000) (p : Fin 2000) (q : Fin 128)
    (h0 : ∀ k : Fin 384, v0 (ix2 p k) = cat (ix2 R k)) (h2 : ∀ k : Fin 384, v2 (ix2 k q) = w (ix2 k q))
    (h5 : v5 (ix2 (0 : Fin 1) q) = b (ix2 (0 : Fin 1) q)) (h14 : v14 (ix2 p q) = x (ix2 R q)) :
    (v14 (ix2 p q) : EReal) + leaky ((∑ k : Fin 384, (v0 (ix2 p k) : EReal) * (v2 (ix2 k q) : EReal)) + (v5 (ix2 (0 : Fin 1) q) : EReal))
      = updG cat x w b (ix2 R q) := by
  rw [updG_ix2, h14, h5]
  unfold affAt
  exact congrArg (fun s : EReal => (x (ix2 R q) : EReal) + leaky (s + (b (ix2 (0 : Fin 1) q) : EReal)))
    (Finset.sum_congr rfl fun k _ => by rw [h0 k, h2 k])

theorem idxFacts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

-- Block t of the output is rows 2000 t .. 2000 t + 1999 of the update layer of whatever four arrays the windows read.
theorem upd_flushed (A0 : Vec Ideal S100000x384 .bf16) (A1 : Vec Ideal S100000x128 .f32) (A2 : Vec Ideal S384x128 .bf16)
    (A3 : Vec Ideal S1x128 .f32) (t : Fin cfg2.N) (x0 : Vec Ideal S2000x384 .bf16) (x1 : Vec Ideal S2000x128 .f32)
    (x2 : Vec Ideal S384x128 .bf16) (x3 : Vec Ideal S1x128 .f32)
    (h0 : x0 = ((cfg2.win 0).blk t).view.read (Elt Ideal) A0) (h1 : x1 = ((cfg2.win 1).blk t).view.read (Elt Ideal) A1)
    (h2 : x2 = ((cfg2.win 2).blk t).view.read (Elt Ideal) A2) (h3 : x3 = ((cfg2.win 3).blk t).view.read (Elt Ideal) A3) :
    (cfg2.win 4).cut (grid2.coords t) (out2 (F := Ideal) x0 x1 x2 x3)
      = ((cfg2.win 4).blk t).view.read (Elt Ideal) (updG A0 A1 A2 A3) := by
  subst h0 h1 h2 h3
  unfold out2
  rw [View.canon_unit_zero zeros2]
  simp only [View.ld_unit_zero (S := S2000x384) zeros2, View.ld_unit_zero (S := S2000x128) zeros2,
    View.ld_unit_zero (S := S384x128) zeros2, View.ld_unit_zero (S := S1x128) zeros2]
  obtain ⟨e00, e01, e10, e11, e20, e21, e30, e31, e40, e41⟩ := idxFacts2 t
  have ht : t.val < 50 := Nat.lt_of_lt_of_eq t.isLt N_2
  funext j
  obtain ⟨p, q, rfl⟩ : ∃ (p : Fin 2000) (q : Fin 128), j = ix2 p q := ⟨j 0, j 1, eq_ix2 j⟩
  have hp : p.val < 2000 := p.isLt
  show k2_pay1 (F := Ideal) (((cfg2.win 0).blk t).view.read (Elt Ideal) A0) (((cfg2.win 2).blk t).view.read (Elt Ideal) A2)
      (((cfg2.win 3).blk t).view.read (Elt Ideal) A3) (((cfg2.win 1).blk t).view.read (Elt Ideal) A1) (ix2 p q)
    = updG A0 A1 A2 A3 (((cfg2.win 4).blk t).view.emb (ix2 p q))
  have hR : ((cfg2.win 4).blk t).view.emb (ix2 p q) = ix2 (⟨2000 * t.val + p.val, by omega⟩ : Fin 100000) q := by
    refine Shape.idx_ext₂ ?_ ?_
    · show win2_4.index t (0 : Fin 2) * 2000 + 1 * p.val = 2000 * t.val + p.val; omega
    · show win2_4.index t (1 : Fin 2) * 128 + 1 * q.val = q.val; omega
  rw [hR, pay2_apply]
  refine updG_of_rows _ _ _ _ _ _ _ _ _ p q (fun k => ?_) (fun k => ?_) ?_ ?_
  · show A0 (((cfg2.win 0).blk t).view.emb (ix2 p k)) = A0 _
    refine congrArg A0 (Shape.idx_ext₂ ?_ ?_)
    · show win2_0.index t (0 : Fin 2) * 2000 + 1 * p.val = 2000 * t.val + p.val; omega
    · show win2_0.index t (1 : Fin 2) * 384 + 1 * k.val = k.val; omega
  · show A2 (((cfg2.win 2).blk t).view.emb (ix2 k q)) = A2 _
    refine congrArg A2 (Shape.idx_ext₂ ?_ ?_)
    · show win2_2.index t (0 : Fin 2) * 384 + 1 * k.val = k.val; omega
    · show win2_2.index t (1 : Fin 2) * 128 + 1 * q.val = q.val; omega
  · show A3 (((cfg2.win 3).blk t).view.emb (ix2 (0 : Fin 1) q)) = A3 _
    refine congrArg A3 (Shape.idx_ext₂ ?_ ?_)
    · show win2_3.index t (0 : Fin 2) * 1 + 1 * (0 : Fin 1).val = (0 : Fin 1).val; omega
    · show win2_3.index t (1 : Fin 2) * 128 + 1 * q.val = q.val; omega
  · show A1 (((cfg2.win 1).blk t).view.emb (ix2 p q)) = A1 _
    refine congrArg A1 (Shape.idx_ext₂ ?_ ?_)
    · show win2_1.index t (0 : Fin 2) * 2000 + 1 * p.val = 2000 * t.val + p.val; omega
    · show win2_1.index t (1 : Fin 2) * 128 + 1 * q.val = q.val; omega

theorem memBlk2 (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v48).slice (win2_4.rect t)).set ↔ _
  rw [View.set_slice_whole, Rect.mem_set_unit]
  exact Iff.rfl

-- Row r of the output lies in the block of point r / 2000.
theorem covered2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, -, -, e0, e1⟩ := idxFacts2 t
  refine ⟨t, flush2_4 t, (memBlk2 t i).2 fun a => ?_⟩
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 128 ≤ (i 1).val ∧ (i 1).val < win2_4.index t (1 : Fin 2) * 128 + 128
    rw [e1]; omega

variable (V : (c : Dev nD) → (b : Ref sig .tc) → Buf (Elt Ideal) ((c : Thread nD τ).loc b))

theorem arr2_eq (c : Dev nD) :
    (dat2 (F := Ideal) V c).arrAt 4 cfg2.N = updG (V c main_v47) (V c main_v4) (V c main_v11) (V c main_v12) :=
  (dat2 (F := Ideal) V c).arrAt_eq_of_cover 4 (updG (V c main_v47) (V c main_v4) (V c main_v11) (V c main_v12))
    (fun t _ => by
      show (cfg2.win 4).cut (grid2.coords t) ((dat2 (F := Ideal) V c).after 4 t) = _
      rw [after2_4]
      exact upd_flushed (V c main_v47) (V c main_v4) (V c main_v11) (V c main_v12) t _ _ _ _ rfl rfl rfl rfl) covered2

end Cert.KernelIdeal.KVal

end
-- ==== Proof.KI.Val3.lean ====
import proofs.«426792_j34668976013873_1_alg».proof.Proof.KI.Region3
import proofs.«426792_j34668976013873_1_alg».proof.Proof.KI.Val1

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rgn
open scoped BigOperators

variable (V : (c : Dev nD) → (b : Ref sig .tc) → Buf (Elt Ideal) ((c : Thread nD τ).loc b))

-- The second message call has the first one's block maps and body, read at other arrays.
theorem arr3_eq (c : Dev nD) :
    (dat3 (F := Ideal) V c).arrAt 3 cfg3.N = msgG (V c main_v52) (V c main_v9) (V c main_v10) :=
  (dat3 (F := Ideal) V c).arrAt_eq_of_cover 3 (msgG (V c main_v52) (V c main_v9) (V c main_v10))
    (fun t _ => by
      show (cfg3.win 3).cut (grid3.coords t) ((dat3 (F := Ideal) V c).after 3 t) = _
      rw [after3_3]
      exact msg_flushed (V c main_v52) (V c main_v9) (V c main_v10) t (iblk3 V c 0 t) (iblk3 V c 1 t) (iblk3 V c 2 t)
        rfl rfl rfl) grid1_cover

end Cert.KernelIdeal.KVal

end
-- ==== Proof.KI.Val4.lean ====
import proofs.«426792_j34668976013873_1_alg».proof.Proof.KI.Region4
import proofs.«426792_j34668976013873_1_alg».proof.Proof.KI.Val2

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rgn
open scoped BigOperators

variable (V : (c : Dev nD) → (b : Ref sig .tc) → Buf (Elt Ideal) ((c : Thread nD τ).loc b))

-- The second update call has the first one's block maps and body, read at other arrays.
theorem arr4_eq (c : Dev nD) :
    (dat4 (F := Ideal) V c).arrAt 4 cfg4.N = updG (V c main_v83) (V c main_v48) (V c main_v11) (V c main_v12) :=
  (dat4 (F := Ideal) V c).arrAt_eq_of_cover 4 (updG (V c main_v83) (V c main_v48) (V c main_v11) (V c main_v12))
    (fun t _ => by
      show (cfg4.win 4).cut (grid4.coords t) ((dat4 (F := Ideal) V c).after 4 t) = _
      rw [after4_4]
      exact upd_flushed (V c main_v83) (V c main_v48) (V c main_v11) (V c main_v12) t (iblk4 V c 0 t) (iblk4 V c 1 t)
        (iblk4 V c 2 t) (iblk4 V c 3 t) rfl rfl rfl rfl) covered2

end Cert.KernelIdeal.KVal

end
-- ==== Proof.KI.Val5.lean ====
import proofs.«426792_j34668976013873_1_alg».proof.Proof.KI.Region5
import proofs.«426792_j34668976013873_1_alg».proof.Proof.KI.Val1

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rgn
open scoped BigOperators

variable (V : (c : Dev nD) → (b : Ref sig .tc) → Buf (Elt Ideal) ((c : Thread nD τ).loc b))

-- The third message call has the first one's block maps and body, read at other arrays.
theorem arr5_eq (c : Dev nD) :
    (dat5 (F := Ideal) V c).arrAt 3 cfg5.N = msgG (V c main_v88) (V c main_v9) (V c main_v10) :=
  (dat5 (F := Ideal) V c).arrAt_eq_of_cover 3 (msgG (V c main_v88) (V c main_v9) (V c main_v10))
    (fun t _ => by
      show (cfg5.win 3).cut (grid5.coords t) ((dat5 (F := Ideal) V c).after 3 t) = _
      rw [after5_3]
      exact msg_flushed (V c main_v88) (V c main_v9) (V c main_v10) t (iblk5 V c 0 t) (iblk5 V c 1 t) (iblk5 V c 2 t)
        rfl rfl rfl) grid1_cover

end Cert.KernelIdeal.KVal

end
-- ==== Proof.KI.Val6.lean ====
import proofs.«426792_j34668976013873_1_alg».proof.Proof.KI.Region6
import proofs.«426792_j34668976013873_1_alg».proof.Proof.KI.Val2

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rgn
open scoped BigOperators

variable (V : (c : Dev nD) → (b : Ref sig .tc) → Buf (Elt Ideal) ((c : Thread nD τ).loc b))

-- The third update call has the first one's block maps and body, read at other arrays.
theorem arr6_eq (c : Dev nD) :
    (dat6 (F := Ideal) V c).arrAt 4 cfg6.N = updG (V c main_v119) (V c main_v84) (V c main_v11) (V c main_v12) :=
  (dat6 (F := Ideal) V c).arrAt_eq_of_cover 4 (updG (V c main_v119) (V c main_v84) (V c main_v11) (V c main_v12))
    (fun t _ => by
      show (cfg6.win 4).cut (grid6.coords t) ((dat6 (F := Ideal) V c).after 4 t) = _
      rw [after6_4]
      exact upd_flushed (V c main_v119) (V c main_v84) (V c main_v11) (V c main_v12) t (iblk6 V c 0 t) (iblk6 V c 1 t)
        (iblk6 V c 2 t) (iblk6 V c 3 t) rfl rfl rfl rfl) covered2

end Cert.KernelIdeal.KVal

end
-- ==== Proof.KI.HostVals.lean ====
import proofs.«426792_j34668976013873_1_alg».proof.Proof.KI.Regs
import proofs.«426792_j34668976013873_1_alg».proof.Proof.KI.HostFns
import proofs.«426792_j34668976013873_1_alg».proof.Proof.TakeDefs
import Idealize.ShloMosaic.Lib.StableHlo.Run

set_option maxRecDepth 16384

noncomputable section

namespace Cert.KernelIdeal.KVal

open Idealize.ShloMosaic Idealize.ShloMosaic.TcCoe Cert.KernelIdeal Cert.KernelIdeal.Gen Cert.KernelIdeal.Rgn Cert.IdxRange

variable {F : FTy → Type} [FloatOps F]

theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

macro "host_results" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

section Stretches

variable (V : Valuation τ sig (Elt F))

theorem hostOps0_main_v1 : StableHlo.after hostOps0 V (Proc.devRef .tc main_v1) = xcatK (V (Proc.devRef .tc main_arg0)) (V (Proc.devRef .tc main_arg1)) (V (Proc.devRef .tc main_arg2)) := by
  host_results <;> rfl
theorem hostOps0_main_v2 : StableHlo.after hostOps0 V (Proc.devRef .tc main_v2) = truncf .bf16 (V (Proc.devRef .tc main_arg4)) bitsLt_bf16_f32 := by
  host_results <;> rfl
theorem hostOps0_main_v3 : StableHlo.after hostOps0 V (Proc.devRef .tc main_v3) = shapeCast S1x128 (V (Proc.devRef .tc main_arg5)) shapeCasts_S128_S1x128 := by
  host_results <;> rfl

theorem hostOps1_main_v6 : StableHlo.after hostOps1 V (Proc.devRef .tc main_v6) = srcK (V (Proc.devRef .tc main_arg10)) := by
  host_results <;> rfl
theorem hostOps1_main_v8 : StableHlo.after hostOps1 V (Proc.devRef .tc main_v8) = dstK (V (Proc.devRef .tc main_arg10)) := by
  host_results <;> rfl
theorem hostOps1_main_v9 : StableHlo.after hostOps1 V (Proc.devRef .tc main_v9) = truncf .bf16 (V (Proc.devRef .tc main_arg6)) bitsLt_bf16_f32 := by
  host_results <;> rfl
theorem hostOps1_main_v10 : StableHlo.after hostOps1 V (Proc.devRef .tc main_v10) = shapeCast S1x128 (V (Proc.devRef .tc main_arg7)) shapeCasts_S128_S1x128 := by
  host_results <;> rfl
theorem hostOps1_main_v11 : StableHlo.after hostOps1 V (Proc.devRef .tc main_v11) = truncf .bf16 (V (Proc.devRef .tc main_arg8)) bitsLt_bf16_f32 := by
  host_results <;> rfl
theorem hostOps1_main_v12 : StableHlo.after hostOps1 V (Proc.devRef .tc main_v12) = shapeCast S1x128 (V (Proc.devRef .tc main_arg9)) shapeCasts_S128_S1x128 := by
  host_results <;> rfl

end Stretches

variable (m : (ℓ : Loc nD τ sig) → Buf (Elt F) ℓ) (c : Dev nD)

theorem W1_of (r : Ref sig .tc) (h : r ∉ hostOps0_W) : W1 m c r = W0 m c r :=
  StableHlo.after_of_writes_sub hostOps0 _ hostOps0_writes h
theorem W2_of (r : Ref sig .tc) (h : r ≠ main_v4) : W2 m c r = W1 m c r :=
  Function.update_of_ne (StableHlo.devRef_ne_of_ne h) _ _
theorem W2_main_v4 : W2 m c main_v4 = o2 m c := Function.update_self _ _ _
theorem W3_of (r : Ref sig .tc) (h : r ∉ hostOps1_W) : W3 m c r = W2 m c r :=
  StableHlo.after_of_writes_sub hostOps1 _ hostOps1_writes h

theorem W2_arg (r : Ref sig .tc) (h1 : r ≠ main_v4) (h0 : r ∉ hostOps0_W) : W2 m c r = m ((c : Thread nD τ).loc r) := by
  rw [W2_of m c r h1, W1_of m c r h0]; rfl

theorem W1_main_v1 : W1 m c main_v1 = xcatK (m ((c : Thread nD τ).loc main_arg0)) (m ((c : Thread nD τ).loc main_arg1)) (m ((c : Thread nD τ).loc main_arg2)) := by
  show StableHlo.after hostOps0 (W0 m c) (Proc.devRef .tc main_v1) = _
  rw [hostOps0_main_v1]; rfl
theorem W1_main_v2 : W1 m c main_v2 = truncf .bf16 (m ((c : Thread nD τ).loc main_arg4)) bitsLt_bf16_f32 := by
  show StableHlo.after hostOps0 (W0 m c) (Proc.devRef .tc main_v2) = _
  rw [hostOps0_main_v2]; rfl
theorem W1_main_v3 : W1 m c main_v3 = shapeCast S1x128 (m ((c : Thread nD τ).loc main_arg5)) shapeCasts_S128_S1x128 := by
  show StableHlo.after hostOps0 (W0 m c) (Proc.devRef .tc main_v3) = _
  rw [hostOps0_main_v3]; rfl

theorem W3_main_v4 : W3 m c main_v4 = o2 m c := by
  rw [W3_of m c main_v4 (by decide)]; exact W2_main_v4 m c
theorem W3_main_v6 : W3 m c main_v6 = srcK (m ((c : Thread nD τ).loc main_arg10)) := by
  show StableHlo.after hostOps1 (W2 m c) (Proc.devRef .tc main_v6) = _
  rw [hostOps1_main_v6, W2_arg m c main_arg10 (by decide) (by decide)]
theorem W3_main_v8 : W3 m c main_v8 = dstK (m ((c : Thread nD τ).loc main_arg10)) := by
  show StableHlo.after hostOps1 (W2 m c) (Proc.devRef .tc main_v8) = _
  rw [hostOps1_main_v8, W2_arg m c main_arg10 (by decide) (by decide)]
theorem W3_main_v9 : W3 m c main_v9 = truncf .bf16 (m ((c : Thread nD τ).loc main_arg6)) bitsLt_bf16_f32 := by
  show StableHlo.after hostOps1 (W2 m c) (Proc.devRef .tc main_v9) = _
  rw [hostOps1_main_v9, W2_arg m c main_arg6 (by decide) (by decide)]
theorem W3_main_v10 : W3 m c main_v10 = shapeCast S1x128 (m ((c : Thread nD τ).loc main_arg7)) shapeCasts_S128_S1x128 := by
  show StableHlo.after hostOps1 (W2 m c) (Proc.devRef .tc main_v10) = _
  rw [hostOps1_main_v10, W2_arg m c main_arg7 (by decide) (by decide)]
theorem W3_main_v11 : W3 m c main_v11 = truncf .bf16 (m ((c : Thread nD τ).loc main_arg8)) bitsLt_bf16_f32 := by
  show StableHlo.after hostOps1 (W2 m c) (Proc.devRef .tc main_v11) = _
  rw [hostOps1_main_v11, W2_arg m c main_arg8 (by decide) (by decide)]
theorem W3_main_v12 : W3 m c main_v12 = shapeCast S1x128 (m ((c : Thread nD τ).loc main_arg9)) shapeCasts_S128_S1x128 := by
  show StableHlo.after hostOps1 (W2 m c) (Proc.devRef .tc main_v12) = _
  rw [hostOps1_main_v12, W2_arg m c main_arg9 (by decide) (by decide)]
theorem W3_main_arg11 : W3 m c main_arg11 = (m ((c : Thread nD τ).loc main_arg11)) := by
  rw [W3_of m c main_arg11 (by decide)]; exact W2_arg m c main_arg11 (by decide) (by decide)
theorem W3_main_arg3 : W3 m c main_arg3 = (m ((c : Thread nD τ).loc main_arg3)) := by
  rw [W3_of m c main_arg3 (by decide)]; exact W2_arg m c main_arg3 (by decide) (by decide)

end Cert.KernelIdeal.KVal

end
-- ==== Proof.KI.HostValsS1.lean ====
import proofs.«426792_j34668976013873_1_alg».proof.Proof.KI.HostVals

set_option maxRecDepth 16384

noncomputable section

namespace Cert.KernelIdeal.KVal

open Idealize.ShloMosaic Idealize.ShloMosaic.TcCoe Cert.KernelIdeal Cert.KernelIdeal.Gen Cert.KernelIdeal.Rgn Cert.IdxRange

variable {F : FTy → Type} [FloatOps F]

variable (V : Valuation τ sig (Elt F))

set_option maxHeartbeats 2000000 in
theorem hostOps1_1_main_v13 : StableHlo.after hostOps1_1 V (Proc.devRef .tc main_v13) = take600 (V (Proc.devRef .tc main_v4)) (V (Proc.devRef .tc main_v8)) := by
  after_results_simp <;> (try simp only [StableHlo.TRef.ofBuf, StableHlo.TRef.toBuf, cast_eq]) <;> rfl
set_option maxHeartbeats 2000000 in
theorem hostOps1_2_main_v14 : StableHlo.after hostOps1_2 V (Proc.devRef .tc main_v14) = take600 (V (Proc.devRef .tc main_v4)) (V (Proc.devRef .tc main_v6)) := by
  after_results_simp <;> (try simp only [StableHlo.TRef.ofBuf, StableHlo.TRef.toBuf, cast_eq]) <;> rfl
theorem hostOps1_3_main_v16 : StableHlo.after hostOps1_3 V (Proc.devRef .tc main_v16) = catMsgK (V (Proc.devRef .tc main_v13)) (V (Proc.devRef .tc main_v14)) := by
  host_results <;> rfl
set_option maxHeartbeats 2000000 in
theorem hostOps2_main_v29 : StableHlo.after hostOps2 V (Proc.devRef .tc main_v29) = aggrK (V (Proc.devRef .tc main_v17)) (V (Proc.devRef .tc main_v8)) := by
  after_results_simp <;> (try simp only [StableHlo.TRef.ofBuf, StableHlo.TRef.toBuf, cast_eq]) <;> rfl
set_option maxHeartbeats 2000000 in
theorem hostOps2_main_v44 : StableHlo.after hostOps2 V (Proc.devRef .tc main_v44) = pooledK (V (Proc.devRef .tc main_v4)) (V (Proc.devRef .tc main_arg11)) (V (Proc.devRef .tc main_arg3)) := by
  after_results_simp <;> (try simp only [StableHlo.TRef.ofBuf, StableHlo.TRef.toBuf, cast_eq]) <;> rfl
set_option maxHeartbeats 2000000 in
theorem hostOps2_1_main_v45 : StableHlo.after hostOps2_1 V (Proc.devRef .tc main_v45) = take100 (V (Proc.devRef .tc main_v44)) (V (Proc.devRef .tc main_arg11)) := by
  after_results_simp <;> (try simp only [StableHlo.TRef.ofBuf, StableHlo.TRef.toBuf, cast_eq]) <;> rfl
theorem hostOps2_2_main_v47 : StableHlo.after hostOps2_2 V (Proc.devRef .tc main_v47) = catUpdK (V (Proc.devRef .tc main_v4)) (V (Proc.devRef .tc main_v29)) (V (Proc.devRef .tc main_v45)) := by
  host_results <;> rfl

end Cert.KernelIdeal.KVal

end
-- ==== Proof.KI.HostValsS2.lean ====
/-
  One layer's host stretches, each read at the buffers a later launch or stretch reads, from any contents
  entering the stretch.

  In the program's order: the node rows taken at every edge's destination; the same at every edge's source;
  the two laid side by side and rounded to bf16. After the message launch: the messages averaged over the
  edges arriving at each node, and the node rows pooled per graph; each node's graph's pooled row taken; the
  node row, the edge mean and the pooled row laid side by side and rounded to bf16.
-/
import proofs.«426792_j34668976013873_1_alg».proof.Proof.KI.HostVals

set_option maxRecDepth 16384

noncomputable section

namespace Cert.KernelIdeal.KVal

open Idealize.ShloMosaic Idealize.ShloMosaic.TcCoe Cert.KernelIdeal Cert.KernelIdeal.Gen Cert.KernelIdeal.Rgn Cert.IdxRange

variable {F : FTy → Type} [FloatOps F]

variable (V : Valuation τ sig (Elt F))

set_option maxHeartbeats 2000000 in
/-- The rows of the layer's node array at the edges' destinations. -/
theorem hostOps3_main_v49 : StableHlo.after hostOps3 V (Proc.devRef .tc main_v49) = take600 (V (Proc.devRef .tc main_v48)) (V (Proc.devRef .tc main_v8)) := by
  after_results_simp <;> (try simp only [StableHlo.TRef.ofBuf, StableHlo.TRef.toBuf, cast_eq]) <;> rfl
set_option maxHeartbeats 2000000 in
/-- The rows of the layer's node array at the edges' sources. -/
theorem hostOps3_1_main_v50 : StableHlo.after hostOps3_1 V (Proc.devRef .tc main_v50) = take600 (V (Proc.devRef .tc main_v48)) (V (Proc.devRef .tc main_v6)) := by
  after_results_simp <;> (try simp only [StableHlo.TRef.ofBuf, StableHlo.TRef.toBuf, cast_eq]) <;> rfl
/-- The message launch's input. -/
theorem hostOps3_2_main_v52 : StableHlo.after hostOps3_2 V (Proc.devRef .tc main_v52) = catMsgK (V (Proc.devRef .tc main_v49)) (V (Proc.devRef .tc main_v50)) := by
  host_results <;> rfl
set_option maxHeartbeats 2000000 in
/-- The mean of the message launch's output over the edges arriving at each node. -/
theorem hostOps4_main_v65 : StableHlo.after hostOps4 V (Proc.devRef .tc main_v65) = aggrK (V (Proc.devRef .tc main_v53)) (V (Proc.devRef .tc main_v8)) := by
  after_results_simp <;> (try simp only [StableHlo.TRef.ofBuf, StableHlo.TRef.toBuf, cast_eq]) <;> rfl
set_option maxHeartbeats 2000000 in
/-- The pooled table of the layer's node array. -/
theorem hostOps4_main_v80 : StableHlo.after hostOps4 V (Proc.devRef .tc main_v80) = pooledK (V (Proc.devRef .tc main_v48)) (V (Proc.devRef .tc main_arg11)) (V (Proc.devRef .tc main_arg3)) := by
  after_results_simp <;> (try simp only [StableHlo.TRef.ofBuf, StableHlo.TRef.toBuf, cast_eq]) <;> rfl
set_option maxHeartbeats 2000000 in
/-- Each node's graph's row of the pooled table. -/
theorem hostOps4_1_main_v81 : StableHlo.after hostOps4_1 V (Proc.devRef .tc main_v81) = take100 (V (Proc.devRef .tc main_v80)) (V (Proc.devRef .tc main_arg11)) := by
  after_results_simp <;> (try simp only [StableHlo.TRef.ofBuf, StableHlo.TRef.toBuf, cast_eq]) <;> rfl
/-- The update launch's input. -/
theorem hostOps4_2_main_v83 : StableHlo.after hostOps4_2 V (Proc.devRef .tc main_v83) = catUpdK (V (Proc.devRef .tc main_v48)) (V (Proc.devRef .tc main_v65)) (V (Proc.devRef .tc main_v81)) := by
  host_results <;> rfl

end Cert.KernelIdeal.KVal

end
-- ==== Proof.KI.HostValsS3.lean ====
/-
  One layer's host stretches, each read at the buffers a later launch or stretch reads, from any contents
  entering the stretch.

  In the program's order: the node rows taken at every edge's destination; the same at every edge's source;
  the two laid side by side and rounded to bf16. After the message launch: the messages averaged over the
  edges arriving at each node, and the node rows pooled per graph; each node's graph's pooled row taken; the
  node row, the edge mean and the pooled row laid side by side and rounded to bf16.
-/
import proofs.«426792_j34668976013873_1_alg».proof.Proof.KI.HostVals

set_option maxRecDepth 16384

noncomputable section

namespace Cert.KernelIdeal.KVal

open Idealize.ShloMosaic Idealize.ShloMosaic.TcCoe Cert.KernelIdeal Cert.KernelIdeal.Gen Cert.KernelIdeal.Rgn Cert.IdxRange

variable {F : FTy → Type} [FloatOps F]

variable (V : Valuation τ sig (Elt F))

set_option maxHeartbeats 2000000 in
/-- The rows of the layer's node array at the edges' destinations. -/
theorem hostOps5_main_v85 : StableHlo.after hostOps5 V (Proc.devRef .tc main_v85) = take600 (V (Proc.devRef .tc main_v84)) (V (Proc.devRef .tc main_v8)) := by
  after_results_simp <;> (try simp only [StableHlo.TRef.ofBuf, StableHlo.TRef.toBuf, cast_eq]) <;> rfl
set_option maxHeartbeats 2000000 in
/-- The rows of the layer's node array at the edges' sources. -/
theorem hostOps5_1_main_v86 : StableHlo.after hostOps5_1 V (Proc.devRef .tc main_v86) = take600 (V (Proc.devRef .tc main_v84)) (V (Proc.devRef .tc main_v6)) := by
  after_results_simp <;> (try simp only [StableHlo.TRef.ofBuf, StableHlo.TRef.toBuf, cast_eq]) <;> rfl
/-- The message launch's input. -/
theorem hostOps5_2_main_v88 : StableHlo.after hostOps5_2 V (Proc.devRef .tc main_v88) = catMsgK (V (Proc.devRef .tc main_v85)) (V (Proc.devRef .tc main_v86)) := by
  host_results <;> rfl
set_option maxHeartbeats 2000000 in
/-- The mean of the message launch's output over the edges arriving at each node. -/
theorem hostOps6_main_v101 : StableHlo.after hostOps6 V (Proc.devRef .tc main_v101) = aggrK (V (Proc.devRef .tc main_v89)) (V (Proc.devRef .tc main_v8)) := by
  after_results_simp <;> (try simp only [StableHlo.TRef.ofBuf, StableHlo.TRef.toBuf, cast_eq]) <;> rfl
set_option maxHeartbeats 2000000 in
/-- The pooled table of the layer's node array. -/
theorem hostOps6_main_v116 : StableHlo.after hostOps6 V (Proc.devRef .tc main_v116) = pooledK (V (Proc.devRef .tc main_v84)) (V (Proc.devRef .tc main_arg11)) (V (Proc.devRef .tc main_arg3)) := by
  after_results_simp <;> (try simp only [StableHlo.TRef.ofBuf, StableHlo.TRef.toBuf, cast_eq]) <;> rfl
set_option maxHeartbeats 2000000 in
/-- Each node's graph's row of the pooled table. -/
theorem hostOps6_1_main_v117 : StableHlo.after hostOps6_1 V (Proc.devRef .tc main_v117) = take100 (V (Proc.devRef .tc main_v116)) (V (Proc.devRef .tc main_arg11)) := by
  after_results_simp <;> (try simp only [StableHlo.TRef.ofBuf, StableHlo.TRef.toBuf, cast_eq]) <;> rfl
/-- The update launch's input. -/
theorem hostOps6_2_main_v119 : StableHlo.after hostOps6_2 V (Proc.devRef .tc main_v119) = catUpdK (V (Proc.devRef .tc main_v84)) (V (Proc.devRef .tc main_v101)) (V (Proc.devRef .tc main_v117)) := by
  host_results <;> rfl

end Cert.KernelIdeal.KVal

end
-- ==== Proof.KI.HostValsW1.lean ====
import proofs.«426792_j34668976013873_1_alg».proof.Proof.KI.HostVals
import proofs.«426792_j34668976013873_1_alg».proof.Proof.KI.HostValsS1
import proofs.«426792_j34668976013873_1_alg».proof.Proof.KI.HostValsS2
import proofs.«426792_j34668976013873_1_alg».proof.Proof.KI.HostValsS3

set_option maxRecDepth 16384

noncomputable section

namespace Cert.KernelIdeal.KVal

open Idealize.ShloMosaic Idealize.ShloMosaic.TcCoe Cert.KernelIdeal Cert.KernelIdeal.Gen Cert.KernelIdeal.Rgn Cert.IdxRange

variable {F : FTy → Type} [FloatOps F]

section Wiring

local notation "Val" => Valuation τ sig (Elt F)

abbrev Cn (F : FTy → Type) (r : Ref sig .tc) : Type := (r : DevRef τ sig).ty.Contents (Elt F)

abbrev WritesIn (ops : List (HloOp τ sig (Elt F))) (W : List (Ref sig .tc)) : Prop :=
  ops.Forall fun op => op.writes ⊆ (W.map (Proc.devRef (τ := τ) .tc)).toFinset

abbrev carried : List (Ref sig .tc) := [main_v6, main_v8, main_v9, main_v10, main_v11, main_v12, main_arg11, main_arg3]

variable {A B C : List (HloOp τ sig (Elt F))} {WA WB WC : List (Ref sig .tc)}

-- a stretch changes only what it writes, three times over
theorem after3_of (wA : WritesIn A WA) (wB : WritesIn B WB) (wC : WritesIn C WC) {r : Ref sig .tc} (h : r ∉ WA ++ WB ++ WC) (V : Val) :
    StableHlo.after C (StableHlo.after B (StableHlo.after A V)) r = V r := by
  simp only [List.mem_append, not_or] at h
  rw [StableHlo.after_of_writes_sub C _ wC h.2, StableHlo.after_of_writes_sub B _ wB h.1.2, StableHlo.after_of_writes_sub A _ wA h.1.1]

-- t₁ and t₂ are computed from x before anything writes x, and t₁ outlives the stretch computing t₂
theorem msg_flow (wA : WritesIn A WA) (wB : WritesIn B WB) (x d s t₁ t₂ y : Ref sig .tc)
    (f₁ : Cn F x → Cn F d → Cn F t₁) (f₂ : Cn F x → Cn F s → Cn F t₂) (g : Cn F t₁ → Cn F t₂ → Cn F y)
    (h₁ : ∀ V : Val, StableHlo.after A V t₁ = f₁ (V x) (V d))
    (h₂ : ∀ V : Val, StableHlo.after B V t₂ = f₂ (V x) (V s))
    (h₃ : ∀ V : Val, StableHlo.after C V y = g (V t₁) (V t₂))
    (hx : x ∉ WA) (hs : s ∉ WA) (ht : t₁ ∉ WB) (V : Val) :
    StableHlo.after C (StableHlo.after B (StableHlo.after A V)) y = g (f₁ (V x) (V d)) (f₂ (V x) (V s)) := by
  rw [h₃, h₂, StableHlo.after_of_writes_sub B _ wB ht, h₁, StableHlo.after_of_writes_sub A _ wA hx, StableHlo.after_of_writes_sub A _ wA hs]

-- a and p come from the first stretch, q from p in the second, and x, k, a are written by neither before they are read
theorem upd_flow (wA : WritesIn A WA) (wB : WritesIn B WB) (x y d k w a p q u : Ref sig .tc)
    (f₁ : Cn F y → Cn F d → Cn F a) (f₂ : Cn F x → Cn F k → Cn F w → Cn F p) (f₃ : Cn F p → Cn F k → Cn F q)
    (g : Cn F x → Cn F a → Cn F q → Cn F u)
    (h₁ : ∀ V : Val, StableHlo.after A V a = f₁ (V y) (V d))
    (h₂ : ∀ V : Val, StableHlo.after A V p = f₂ (V x) (V k) (V w))
    (h₃ : ∀ V : Val, StableHlo.after B V q = f₃ (V p) (V k))
    (h₄ : ∀ V : Val, StableHlo.after C V u = g (V x) (V a) (V q))
    (hxA : x ∉ WA) (hxB : x ∉ WB) (hk : k ∉ WA) (ha : a ∉ WB) (V : Val) :
    StableHlo.after C (StableHlo.after B (StableHlo.after A V)) u
      = g (V x) (f₁ (V y) (V d)) (f₃ (f₂ (V x) (V k) (V w)) (V k)) := by
  rw [h₄, h₃, StableHlo.after_of_writes_sub B _ wB ha, h₁, h₂, StableHlo.after_of_writes_sub B _ wB hxB,
    StableHlo.after_of_writes_sub A _ wA hxA, StableHlo.after_of_writes_sub A _ wA hk]

end Wiring

variable (m : (ℓ : Loc nD τ sig) → Buf (Elt F) ℓ) (c : Dev nD)

theorem W6_of (r : Ref sig .tc) (h : r ∉ hostOps1_1_W ++ hostOps1_2_W ++ hostOps1_3_W) : W6 m c r = W3 m c r :=
  after3_of hostOps1_1_writes hostOps1_2_writes hostOps1_3_writes h _
-- a launch replaces its output array only
theorem W7_of (r : Ref sig .tc) (h : r ∉ hostOps1_1_W ++ hostOps1_2_W ++ hostOps1_3_W) (hy : r ≠ main_v17) : W7 m c r = W3 m c r :=
  (Function.update_of_ne (StableHlo.devRef_ne_of_ne hy) _ _).trans (W6_of m c r h)
theorem W10_of (r : Ref sig .tc) (h : r ∉ hostOps1_1_W ++ hostOps1_2_W ++ hostOps1_3_W) (hy : r ≠ main_v17)
    (h' : r ∉ hostOps2_W ++ hostOps2_1_W ++ hostOps2_2_W) : W10 m c r = W3 m c r :=
  (after3_of hostOps2_writes hostOps2_1_writes hostOps2_2_writes h' _).trans (W7_of m c r h hy)
theorem W11_of (r : Ref sig .tc) (hr : r ∈ carried) : W11 m c r = W3 m c r :=
  have H : ∀ r ∈ carried, r ≠ main_v48 ∧ r ∉ hostOps1_1_W ++ hostOps1_2_W ++ hostOps1_3_W ∧ r ≠ main_v17
      ∧ r ∉ hostOps2_W ++ hostOps2_1_W ++ hostOps2_2_W := by decide
  (Function.update_of_ne (StableHlo.devRef_ne_of_ne (H r hr).1) _ _).trans (W10_of m c r (H r hr).2.1 (H r hr).2.2.1 (H r hr).2.2.2)
theorem W11_main_v48 : W11 m c main_v48 = o11 m c := Function.update_self _ _ _

theorem W6_main_v16 : W6 m c main_v16 = catMsgK (take600 (o2 m c) (dstK (m ((c : Thread nD τ).loc main_arg10)))) (take600 (o2 m c) (srcK (m ((c : Thread nD τ).loc main_arg10)))) :=
  (msg_flow hostOps1_1_writes hostOps1_2_writes main_v4 main_v8 main_v6 main_v13 main_v14 main_v16 take600 take600 catMsgK
    hostOps1_1_main_v13 hostOps1_2_main_v14 hostOps1_3_main_v16 (by decide) (by decide) (by decide) (W3 m c)).trans
    (by rw [W3_main_v4, W3_main_v8, W3_main_v6])
theorem W6_main_v9 : W6 m c main_v9 = truncf .bf16 (m ((c : Thread nD τ).loc main_arg6)) bitsLt_bf16_f32 :=
  (W6_of m c _ (by decide)).trans (W3_main_v9 m c)
theorem W6_main_v10 : W6 m c main_v10 = shapeCast S1x128 (m ((c : Thread nD τ).loc main_arg7)) shapeCasts_S128_S1x128 :=
  (W6_of m c _ (by decide)).trans (W3_main_v10 m c)

theorem W10_main_v47 : W10 m c main_v47 = catUpdK (o2 m c) (aggrK (o7 m c) (dstK (m ((c : Thread nD τ).loc main_arg10)))) (take100 (pooledK (o2 m c) (m ((c : Thread nD τ).loc main_arg11)) (m ((c : Thread nD τ).loc main_arg3))) (m ((c : Thread nD τ).loc main_arg11))) :=
  (upd_flow hostOps2_writes hostOps2_1_writes main_v4 main_v17 main_v8 main_arg11 main_arg3 main_v29 main_v44 main_v45 main_v47
    aggrK pooledK take100 catUpdK hostOps2_main_v29 hostOps2_main_v44 hostOps2_1_main_v45 hostOps2_2_main_v47
    (by decide) (by decide) (by decide) (by decide) (W7 m c)).trans
    (by rw [show W7 m c main_v17 = o7 m c from Function.update_self _ _ _, W7_of m c main_v4 (by decide) (by decide),
      W7_of m c main_v8 (by decide) (by decide), W7_of m c main_arg11 (by decide) (by decide), W7_of m c main_arg3 (by decide) (by decide),
      W3_main_v4, W3_main_v8, W3_main_arg11, W3_main_arg3])
theorem W10_main_v4 : W10 m c main_v4 = o2 m c :=
  (W10_of m c _ (by decide) (by decide) (by decide)).trans (W3_main_v4 m c)
theorem W10_main_v11 : W10 m c main_v11 = truncf .bf16 (m ((c : Thread nD τ).loc main_arg8)) bitsLt_bf16_f32 :=
  (W10_of m c _ (by decide) (by decide) (by decide)).trans (W3_main_v11 m c)
theorem W10_main_v12 : W10 m c main_v12 = shapeCast S1x128 (m ((c : Thread nD τ).loc main_arg9)) shapeCasts_S128_S1x128 :=
  (W10_of m c _ (by decide) (by decide) (by decide)).trans (W3_main_v12 m c)

theorem W14_of (r : Ref sig .tc) (h : r ∉ hostOps3_W ++ hostOps3_1_W ++ hostOps3_2_W) : W14 m c r = W11 m c r :=
  after3_of hostOps3_writes hostOps3_1_writes hostOps3_2_writes h _
theorem W15_of (r : Ref sig .tc) (h : r ∉ hostOps3_W ++ hostOps3_1_W ++ hostOps3_2_W) (hy : r ≠ main_v53) : W15 m c r = W11 m c r :=
  (Function.update_of_ne (StableHlo.devRef_ne_of_ne hy) _ _).trans (W14_of m c r h)
theorem W18_of (r : Ref sig .tc) (h : r ∉ hostOps3_W ++ hostOps3_1_W ++ hostOps3_2_W) (hy : r ≠ main_v53)
    (h' : r ∉ hostOps4_W ++ hostOps4_1_W ++ hostOps4_2_W) : W18 m c r = W11 m c r :=
  (after3_of hostOps4_writes hostOps4_1_writes hostOps4_2_writes h' _).trans (W15_of m c r h hy)
theorem W19_of (r : Ref sig .tc) (hr : r ∈ carried) : W19 m c r = W3 m c r :=
  have H : ∀ r ∈ carried, r ≠ main_v84 ∧ r ∉ hostOps3_W ++ hostOps3_1_W ++ hostOps3_2_W ∧ r ≠ main_v53
      ∧ r ∉ hostOps4_W ++ hostOps4_1_W ++ hostOps4_2_W := by decide
  (Function.update_of_ne (StableHlo.devRef_ne_of_ne (H r hr).1) _ _).trans
    ((W18_of m c r (H r hr).2.1 (H r hr).2.2.1 (H r hr).2.2.2).trans (W11_of m c r hr))
theorem W19_main_v84 : W19 m c main_v84 = o19 m c := Function.update_self _ _ _

theorem W14_main_v52 : W14 m c main_v52 = catMsgK (take600 (o11 m c) (dstK (m ((c : Thread nD τ).loc main_arg10)))) (take600 (o11 m c) (srcK (m ((c : Thread nD τ).loc main_arg10)))) :=
  (msg_flow hostOps3_writes hostOps3_1_writes main_v48 main_v8 main_v6 main_v49 main_v50 main_v52 take600 take600 catMsgK
    hostOps3_main_v49 hostOps3_1_main_v50 hostOps3_2_main_v52 (by decide) (by decide) (by decide) (W11 m c)).trans
    (by rw [W11_main_v48, W11_of m c main_v8 (by decide), W11_of m c main_v6 (by decide), W3_main_v8, W3_main_v6])
theorem W14_main_v9 : W14 m c main_v9 = truncf .bf16 (m ((c : Thread nD τ).loc main_arg6)) bitsLt_bf16_f32 :=
  (W14_of m c _ (by decide)).trans ((W11_of m c _ (by decide)).trans (W3_main_v9 m c))
theorem W14_main_v10 : W14 m c main_v10 = shapeCast S1x128 (m ((c : Thread nD τ).loc main_arg7)) shapeCasts_S128_S1x128 :=
  (W14_of m c _ (by decide)).trans ((W11_of m c _ (by decide)).trans (W3_main_v10 m c))

theorem W18_main_v83 : W18 m c main_v83 = catUpdK (o11 m c) (aggrK (o15 m c) (dstK (m ((c : Thread nD τ).loc main_arg10)))) (take100 (pooledK (o11 m c) (m ((c : Thread nD τ).loc main_arg11)) (m ((c : Thread nD τ).loc main_arg3))) (m ((c : Thread nD τ).loc main_arg11))) :=
  (upd_flow hostOps4_writes hostOps4_1_writes main_v48 main_v53 main_v8 main_arg11 main_arg3 main_v65 main_v80 main_v81 main_v83
    aggrK pooledK take100 catUpdK hostOps4_main_v65 hostOps4_main_v80 hostOps4_1_main_v81 hostOps4_2_main_v83
    (by decide) (by decide) (by decide) (by decide) (W15 m c)).trans
    (by rw [show W15 m c main_v53 = o15 m c from Function.update_self _ _ _, W15_of m c main_v48 (by decide) (by decide),
      W15_of m c main_v8 (by decide) (by decide), W15_of m c main_arg11 (by decide) (by decide), W15_of m c main_arg3 (by decide) (by decide),
      W11_main_v48, W11_of m c main_v8 (by decide), W11_of m c main_arg11 (by decide), W11_of m c main_arg3 (by decide),
      W3_main_v8, W3_main_arg11, W3_main_arg3])
theorem W18_main_v48 : W18 m c main_v48 = o11 m c :=
  (W18_of m c _ (by decide) (by decide) (by decide)).trans (W11_main_v48 m c)
theorem W18_main_v11 : W18 m c main_v11 = truncf .bf16 (m ((c : Thread nD τ).loc main_arg8)) bitsLt_bf16_f32 :=
  (W18_of m c _ (by decide) (by decide) (by decide)).trans ((W11_of m c _ (by decide)).trans (W3_main_v11 m c))
theorem W18_main_v12 : W18 m c main_v12 = shapeCast S1x128 (m ((c : Thread nD τ).loc main_arg9)) shapeCasts_S128_S1x128 :=
  (W18_of m c _ (by decide) (by decide) (by decide)).trans ((W11_of m c _ (by decide)).trans (W3_main_v12 m c))

theorem W22_of (r : Ref sig .tc) (h : r ∉ hostOps5_W ++ hostOps5_1_W ++ hostOps5_2_W) : W22 m c r = W19 m c r :=
  after3_of hostOps5_writes hostOps5_1_writes hostOps5_2_writes h _
theorem W23_of (r : Ref sig .tc) (h : r ∉ hostOps5_W ++ hostOps5_1_W ++ hostOps5_2_W) (hy : r ≠ main_v89) : W23 m c r = W19 m c r :=
  (Function.update_of_ne (StableHlo.devRef_ne_of_ne hy) _ _).trans (W22_of m c r h)
theorem W26_of (r : Ref sig .tc) (h : r ∉ hostOps5_W ++ hostOps5_1_W ++ hostOps5_2_W) (hy : r ≠ main_v89)
    (h' : r ∉ hostOps6_W ++ hostOps6_1_W ++ hostOps6_2_W) : W26 m c r = W19 m c r :=
  (after3_of hostOps6_writes hostOps6_1_writes hostOps6_2_writes h' _).trans (W23_of m c r h hy)

theorem W22_main_v88 : W22 m c main_v88 = catMsgK (take600 (o19 m c) (dstK (m ((c : Thread nD τ).loc main_arg10)))) (take600 (o19 m c) (srcK (m ((c : Thread nD τ).loc main_arg10)))) :=
  (msg_flow hostOps5_writes hostOps5_1_writes main_v84 main_v8 main_v6 main_v85 main_v86 main_v88 take600 take600 catMsgK
    hostOps5_main_v85 hostOps5_1_main_v86 hostOps5_2_main_v88 (by decide) (by decide) (by decide) (W19 m c)).trans
    (by rw [W19_main_v84, W19_of m c main_v8 (by decide), W19_of m c main_v6 (by decide), W3_main_v8, W3_main_v6])
theorem W22_main_v9 : W22 m c main_v9 = truncf .bf16 (m ((c : Thread nD τ).loc main_arg6)) bitsLt_bf16_f32 :=
  (W22_of m c _ (by decide)).trans ((W19_of m c _ (by decide)).trans (W3_main_v9 m c))
theorem W22_main_v10 : W22 m c main_v10 = shapeCast S1x128 (m ((c : Thread nD τ).loc main_arg7)) shapeCasts_S128_S1x128 :=
  (W22_of m c _ (by decide)).trans ((W19_of m c _ (by decide)).trans (W3_main_v10 m c))

theorem W26_main_v119 : W26 m c main_v119 = catUpdK (o19 m c) (aggrK (o23 m c) (dstK (m ((c : Thread nD τ).loc main_arg10)))) (take100 (pooledK (o19 m c) (m ((c : Thread nD τ).loc main_arg11)) (m ((c : Thread nD τ).loc main_arg3))) (m ((c : Thread nD τ).loc main_arg11))) :=
  (upd_flow hostOps6_writes hostOps6_1_writes main_v84 main_v89 main_v8 main_arg11 main_arg3 main_v101 main_v116 main_v117 main_v119
    aggrK pooledK take100 catUpdK hostOps6_main_v101 hostOps6_main_v116 hostOps6_1_main_v117 hostOps6_2_main_v119
    (by decide) (by decide) (by decide) (by decide) (W23 m c)).trans
    (by rw [show W23 m c main_v89 = o23 m c from Function.update_self _ _ _, W23_of m c main_v84 (by decide) (by decide),
      W23_of m c main_v8 (by decide) (by decide), W23_of m c main_arg11 (by decide) (by decide), W23_of m c main_arg3 (by decide) (by decide),
      W19_main_v84, W19_of m c main_v8 (by decide), W19_of m c main_arg11 (by decide), W19_of m c main_arg3 (by decide),
      W3_main_v8, W3_main_arg11, W3_main_arg3])
theorem W26_main_v84 : W26 m c main_v84 = o19 m c :=
  (W26_of m c _ (by decide) (by decide) (by decide)).trans (W19_main_v84 m c)
theorem W26_main_v11 : W26 m c main_v11 = truncf .bf16 (m ((c : Thread nD τ).loc main_arg8)) bitsLt_bf16_f32 :=
  (W26_of m c _ (by decide) (by decide) (by decide)).trans ((W19_of m c _ (by decide)).trans (W3_main_v11 m c))
theorem W26_main_v12 : W26 m c main_v12 = shapeCast S1x128 (m ((c : Thread nD τ).loc main_arg9)) shapeCasts_S128_S1x128 :=
  (W26_of m c _ (by decide) (by decide) (by decide)).trans ((W19_of m c _ (by decide)).trans (W3_main_v12 m c))

end Cert.KernelIdeal.KVal

end
-- ==== Proof.KI.Value.lean ====
import proofs.«426792_j34668976013873_1_alg».proof.Proof.KI.Regs
import proofs.«426792_j34668976013873_1_alg».proof.Proof.KI.LayerK
import proofs.«426792_j34668976013873_1_alg».proof.Proof.KI.Val0
import proofs.«426792_j34668976013873_1_alg».proof.Proof.KI.Val1
import proofs.«426792_j34668976013873_1_alg».proof.Proof.KI.Val2
import proofs.«426792_j34668976013873_1_alg».proof.Proof.KI.Val3
import proofs.«426792_j34668976013873_1_alg».proof.Proof.KI.Val4
import proofs.«426792_j34668976013873_1_alg».proof.Proof.KI.Val5
import proofs.«426792_j34668976013873_1_alg».proof.Proof.KI.Val6
import proofs.«426792_j34668976013873_1_alg».proof.Proof.KI.HostValsW1

set_option maxRecDepth 16384

noncomputable section

namespace Cert.KernelIdeal.KVal

open Idealize.ShloMosaic Idealize.ShloMosaic.TcCoe Cert.KernelIdeal Cert.KernelIdeal.Gen Cert.KernelIdeal.Rgn Cert.IdxRange

variable (m : (ℓ : Loc nD τ sig) → Buf (Elt Ideal) ℓ) (c : Dev nD)

theorem o2_val : o2 (F := Ideal) m c = encK (m ((c : Thread nD τ).loc main_arg0)) (m ((c : Thread nD τ).loc main_arg1)) (m ((c : Thread nD τ).loc main_arg2)) (m ((c : Thread nD τ).loc main_arg4)) (m ((c : Thread nD τ).loc main_arg5)) := by
  unfold o2
  rw [arr0_eq]
  rw [W1_main_v1, W1_main_v2, W1_main_v3]
  rfl

theorem o7_val : o7 (F := Ideal) m c
    = msgG (catMsgK (F := Ideal) (take600 (F := Ideal) (o2 m c) (dstK (F := Ideal) (m ((c : Thread nD τ).loc main_arg10)))) (take600 (F := Ideal) (o2 m c) (srcK (F := Ideal) (m ((c : Thread nD τ).loc main_arg10)))))
        (truncf (F := Ideal) (φ := .f32) .bf16 (m ((c : Thread nD τ).loc main_arg6)) bitsLt_bf16_f32) (shapeCast S1x128 (m ((c : Thread nD τ).loc main_arg7)) shapeCasts_S128_S1x128) := by
  unfold o7
  rw [arr1_eq]
  rw [W6_main_v16, W6_main_v9, W6_main_v10]

theorem o11_val : o11 (F := Ideal) m c = layerK (o2 m c) (srcK (F := Ideal) (m ((c : Thread nD τ).loc main_arg10))) (dstK (F := Ideal) (m ((c : Thread nD τ).loc main_arg10))) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg11)) := by
  unfold o11
  rw [arr2_eq]
  rw [W10_main_v47, W10_main_v4, W10_main_v11, W10_main_v12, o7_val]
  rfl

theorem o15_val : o15 (F := Ideal) m c
    = msgG (catMsgK (F := Ideal) (take600 (F := Ideal) (o11 m c) (dstK (F := Ideal) (m ((c : Thread nD τ).loc main_arg10)))) (take600 (F := Ideal) (o11 m c) (srcK (F := Ideal) (m ((c : Thread nD τ).loc main_arg10)))))
        (truncf (F := Ideal) (φ := .f32) .bf16 (m ((c : Thread nD τ).loc main_arg6)) bitsLt_bf16_f32) (shapeCast S1x128 (m ((c : Thread nD τ).loc main_arg7)) shapeCasts_S128_S1x128) := by
  unfold o15
  rw [arr3_eq]
  rw [W14_main_v52, W14_main_v9, W14_main_v10]

theorem o19_val : o19 (F := Ideal) m c = layerK (o11 m c) (srcK (F := Ideal) (m ((c : Thread nD τ).loc main_arg10))) (dstK (F := Ideal) (m ((c : Thread nD τ).loc main_arg10))) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg11)) := by
  unfold o19
  rw [arr4_eq]
  rw [W18_main_v83, W18_main_v48, W18_main_v11, W18_main_v12, o15_val]
  rfl

theorem o23_val : o23 (F := Ideal) m c
    = msgG (catMsgK (F := Ideal) (take600 (F := Ideal) (o19 m c) (dstK (F := Ideal) (m ((c : Thread nD τ).loc main_arg10)))) (take600 (F := Ideal) (o19 m c) (srcK (F := Ideal) (m ((c : Thread nD τ).loc main_arg10)))))
        (truncf (F := Ideal) (φ := .f32) .bf16 (m ((c : Thread nD τ).loc main_arg6)) bitsLt_bf16_f32) (shapeCast S1x128 (m ((c : Thread nD τ).loc main_arg7)) shapeCasts_S128_S1x128) := by
  unfold o23
  rw [arr5_eq]
  rw [W22_main_v88, W22_main_v9, W22_main_v10]

theorem o27_val : o27 (F := Ideal) m c = layerK (o19 m c) (srcK (F := Ideal) (m ((c : Thread nD τ).loc main_arg10))) (dstK (F := Ideal) (m ((c : Thread nD τ).loc main_arg10))) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg11)) := by
  unfold o27
  rw [arr6_eq]
  rw [W26_main_v119, W26_main_v84, W26_main_v11, W26_main_v12, o23_val]
  rfl

theorem kernel_value : o27 (F := Ideal) m c
    = layerK (layerK (layerK (encK (m ((c : Thread nD τ).loc main_arg0)) (m ((c : Thread nD τ).loc main_arg1)) (m ((c : Thread nD τ).loc main_arg2)) (m ((c : Thread nD τ).loc main_arg4)) (m ((c : Thread nD τ).loc main_arg5))) (srcK (F := Ideal) (m ((c : Thread nD τ).loc main_arg10))) (dstK (F := Ideal) (m ((c : Thread nD τ).loc main_arg10))) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg11))) (srcK (F := Ideal) (m ((c : Thread nD τ).loc main_arg10))) (dstK (F := Ideal) (m ((c : Thread nD τ).loc main_arg10))) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg11))) (srcK (F := Ideal) (m ((c : Thread nD τ).loc main_arg10))) (dstK (F := Ideal) (m ((c : Thread nD τ).loc main_arg10))) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg11)) := by
  rw [o27_val, o19_val, o11_val, o2_val]

end Cert.KernelIdeal.KVal

end
-- ==== Proof.Ref.Layer.lean ====
import proofs.«426792_j34668976013873_1_alg».proof.ReferenceIdeal

/-!
# The reference network, layer by layer

The reference computes node features of a graph with 100000 nodes and 600000 directed edges in
three steps of message passing. This module names its values as plain functions of the inputs:

* `srcR`, `dstR`: the two rows of the 2 × 600000 edge-index table, as vectors of length 600000;
* `encR`: the encoder, the three node-input blocks laid side by side (15 + 1 + 32 = 48 columns),
  multiplied by a 48 × 128 matrix, plus a bias row;
* `layerR`: one layer, a function of the node features `x` (100000 × 128), the two index rows and
  the layer's parameters. Every index is first wrapped (a negative index has the table's length
  added). The features are gathered at the edges' two ends and laid side by side (256 columns),
  multiplied by a 256 × 128 matrix, plus a bias: the edge messages. The messages are summed into
  their destination nodes and divided by the larger of 1 and the number of incoming edges (the mean
  over incoming edges). The node features are summed into 384 clusters and divided in the same way
  by the larger of 1 and the cluster's size, then scaled per cluster; each node reads back its
  cluster's row. The three 128-column blocks (features, edge mean, cluster row) are laid side by
  side (384 columns), multiplied by a 384 × 128 matrix, plus a bias; where the result `h` is
  positive it is kept and elsewhere it is scaled by the constant 0.01 (as a 32-bit float); the
  layer's value is `x` plus that;
* `resR`: the encoder followed by the layer three times, with the same index rows and parameters,
  at the inputs a memory holds.

Each definition lists the intermediate values in the order the program computes them, one per
operation, each the operation's function applied to the values named before it.
-/

noncomputable section

namespace Cert.ReferenceIdeal.RefVal

open Idealize.ShloMosaic Idealize.ShloMosaic.TcCoe Cert.ReferenceIdeal
open Cert.ReferenceIdeal.Facts₀

variable {F : FTy → Type} [FloatOps F] [Facts]

/-- Row 0 of the edge-index table: the slice of its first row, read as a vector of length 600000. -/
def srcR (a10 : (⟨S2x600000, .i32⟩ : BufTy).Contents (Elt F)) : (⟨S600000, .i32⟩ : BufTy).Contents (Elt F) :=
  have v6 : (⟨S1x600000, .i32⟩ : BufTy).Contents (Elt F) := ((extractStridedSlice S1x600000 ![0, 0] · slices_S2x600000_S1x600000_0_0) : (⟨S2x600000, .i32⟩ : BufTy).Contents (Elt F) → (⟨S1x600000, .i32⟩ : BufTy).Contents (Elt F)) a10
  have v7 : (⟨S600000, .i32⟩ : BufTy).Contents (Elt F) := shapeCast S600000 v6 shapeCasts_S1x600000_S600000
  v7

/-- Row 1 of the edge-index table: the slice of its second row, read as a vector of length 600000. -/
def dstR (a10 : (⟨S2x600000, .i32⟩ : BufTy).Contents (Elt F)) : (⟨S600000, .i32⟩ : BufTy).Contents (Elt F) :=
  have v8 : (⟨S1x600000, .i32⟩ : BufTy).Contents (Elt F) := ((extractStridedSlice S1x600000 ![1, 0] · slices_S2x600000_S1x600000_1_0) : (⟨S2x600000, .i32⟩ : BufTy).Contents (Elt F) → (⟨S1x600000, .i32⟩ : BufTy).Contents (Elt F)) a10
  have v9 : (⟨S600000, .i32⟩ : BufTy).Contents (Elt F) := shapeCast S600000 v8 shapeCasts_S1x600000_S600000
  v9

/-- The encoder: `[a0 | a1 as a column | a2] · a4 + a5` (the bias `a5` repeated down the rows). -/
def encR (a0 : (⟨S100000x15, .f32⟩ : BufTy).Contents (Elt F)) (a1 : (⟨S100000, .f32⟩ : BufTy).Contents (Elt F)) (a2 : (⟨S100000x32, .f32⟩ : BufTy).Contents (Elt F))
    (a4 : (⟨S48x128, .f32⟩ : BufTy).Contents (Elt F)) (a5 : (⟨S128, .f32⟩ : BufTy).Contents (Elt F)) : (⟨S100000x128, .f32⟩ : BufTy).Contents (Elt F) :=
  have v0 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) a1
  have v1 : (⟨S100000x48, .f32⟩ : BufTy).Contents (Elt F) := concatenate S100000x48 1 [⟨S100000x15, a0⟩, ⟨S100000x1, v0⟩, ⟨S100000x32, a2⟩] concatenates_S100000x15_S100000x1_S100000x32_S100000x48_d1
  have v2 : (⟨S100000x128, .f32⟩ : BufTy).Contents (Elt F) := ((fun l r => Host.dotGeneral dot_S100000x48_S48x128_S100000x128_1_0_0_1_n_n none l r) : (⟨S100000x48, .f32⟩ : BufTy).Contents (Elt F) → (⟨S48x128, .f32⟩ : BufTy).Contents (Elt F) → (⟨S100000x128, .f32⟩ : BufTy).Contents (Elt F)) v1 a4
  have v3 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) a5
  have v4 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v3
  have v5 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v2 v4
  v5

/-- One message-passing layer: from the node features `x`, the index rows `src` and `dst`, the cluster
    scale `a3`, the edge weights and bias `a6`, `a7`, the node weights and bias `a8`, `a9` and the
    cluster index `a11`, the node features after the layer. The values are named as the first layer's. -/
def layerR (x : (⟨S100000x128, .f32⟩ : BufTy).Contents (Elt F)) (src dst : (⟨S600000, .i32⟩ : BufTy).Contents (Elt F))
    (a3 : (⟨S384, .f32⟩ : BufTy).Contents (Elt F)) (a6 : (⟨S256x128, .f32⟩ : BufTy).Contents (Elt F)) (a7 : (⟨S128, .f32⟩ : BufTy).Contents (Elt F))
    (a8 : (⟨S384x128, .f32⟩ : BufTy).Contents (Elt F)) (a9 : (⟨S128, .f32⟩ : BufTy).Contents (Elt F)) (a11 : (⟨S100000, .i32⟩ : BufTy).Contents (Elt F)) :
    (⟨S100000x128, .f32⟩ : BufTy).Contents (Elt F) :=
  have c : (⟨S_, .i32⟩ : BufTy).Contents (Elt F) := (constantI S_ 32 0#32)
  have v10 : (⟨S600000, .i32⟩ : BufTy).Contents (Elt F) := (broadcastInDim S600000 ![] bcast_S_S600000 : (⟨S_, .i32⟩ : BufTy).Contents (Elt F) → (⟨S600000, .i32⟩ : BufTy).Contents (Elt F)) c
  have v11 : (⟨S600000, .i1⟩ : BufTy).Contents (Elt F) := (cmpi .slt : (⟨S600000, .i32⟩ : BufTy).Contents (Elt F) → (⟨S600000, .i32⟩ : BufTy).Contents (Elt F) → (⟨S600000, .i1⟩ : BufTy).Contents (Elt F)) dst v10
  have c_0 : (⟨S_, .i32⟩ : BufTy).Contents (Elt F) := (constantI S_ 32 100000#32)
  have v12 : (⟨S600000, .i32⟩ : BufTy).Contents (Elt F) := (broadcastInDim S600000 ![] bcast_S_S600000 : (⟨S_, .i32⟩ : BufTy).Contents (Elt F) → (⟨S600000, .i32⟩ : BufTy).Contents (Elt F)) c_0
  have v13 : (⟨S600000, .i32⟩ : BufTy).Contents (Elt F) := (addi : (⟨S600000, .i32⟩ : BufTy).Contents (Elt F) → (⟨S600000, .i32⟩ : BufTy).Contents (Elt F) → (⟨S600000, .i32⟩ : BufTy).Contents (Elt F)) dst v12
  have v14 : (⟨S600000, .i32⟩ : BufTy).Contents (Elt F) := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) v11 v13 dst
  have v15 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) v14
  have v16 : (⟨S600000x128, .f32⟩ : BufTy).Contents (Elt F) := ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) x v15
  have c_1 : (⟨S_, .i32⟩ : BufTy).Contents (Elt F) := (constantI S_ 32 0#32)
  have v17 : (⟨S600000, .i32⟩ : BufTy).Contents (Elt F) := (broadcastInDim S600000 ![] bcast_S_S600000 : (⟨S_, .i32⟩ : BufTy).Contents (Elt F) → (⟨S600000, .i32⟩ : BufTy).Contents (Elt F)) c_1
  have v18 : (⟨S600000, .i1⟩ : BufTy).Contents (Elt F) := (cmpi .slt : (⟨S600000, .i32⟩ : BufTy).Contents (Elt F) → (⟨S600000, .i32⟩ : BufTy).Contents (Elt F) → (⟨S600000, .i1⟩ : BufTy).Contents (Elt F)) src v17
  have c_2 : (⟨S_, .i32⟩ : BufTy).Contents (Elt F) := (constantI S_ 32 100000#32)
  have v19 : (⟨S600000, .i32⟩ : BufTy).Contents (Elt F) := (broadcastInDim S600000 ![] bcast_S_S600000 : (⟨S_, .i32⟩ : BufTy).Contents (Elt F) → (⟨S600000, .i32⟩ : BufTy).Contents (Elt F)) c_2
  have v20 : (⟨S600000, .i32⟩ : BufTy).Contents (Elt F) := (addi : (⟨S600000, .i32⟩ : BufTy).Contents (Elt F) → (⟨S600000, .i32⟩ : BufTy).Contents (Elt F) → (⟨S600000, .i32⟩ : BufTy).Contents (Elt F)) src v19
  have v21 : (⟨S600000, .i32⟩ : BufTy).Contents (Elt F) := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) v18 v20 src
  have v22 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) v21
  have v23 : (⟨S600000x128, .f32⟩ : BufTy).Contents (Elt F) := ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) x v22
  have v24 : (⟨S600000x256, .f32⟩ : BufTy).Contents (Elt F) := ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)) v16 v23
  have v25 : (⟨S600000x128, .f32⟩ : BufTy).Contents (Elt F) := ((fun l r => Host.dotGeneral dot_S600000x256_S256x128_S600000x128_1_0_0_1_n_n none l r) : (⟨S600000x256, .f32⟩ : BufTy).Contents (Elt F) → (⟨S256x128, .f32⟩ : BufTy).Contents (Elt F) → (⟨S600000x128, .f32⟩ : BufTy).Contents (Elt F)) v24 a6
  have v26 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) a7
  have v27 : (⟨S600000x128, .f32⟩ : BufTy).Contents (Elt F) := (broadcastInDim S600000x128 ![0, 1] bcast_S1x128_S600000x128_0_1 : (⟨S1x128, .f32⟩ : BufTy).Contents (Elt F) → (⟨S600000x128, .f32⟩ : BufTy).Contents (Elt F)) v26
  have v28 : (⟨S600000x128, .f32⟩ : BufTy).Contents (Elt F) := (addf : (⟨S600000x128, .f32⟩ : BufTy).Contents (Elt F) → (⟨S600000x128, .f32⟩ : BufTy).Contents (Elt F) → (⟨S600000x128, .f32⟩ : BufTy).Contents (Elt F)) v25 v27
  have cst : (⟨S_, .f32⟩ : BufTy).Contents (Elt F) := (constant (F := F) S_ .f32 0x00000000#32)
  have v29 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst
  have v30 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) dst
  have v31 : (⟨S100000x128, .f32⟩ : BufTy).Contents (Elt F) := ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) v29 v30 v28
  have cst_3 : (⟨S_, .f32⟩ : BufTy).Contents (Elt F) := (constant (F := F) S_ .f32 0x3F800000#32)
  have v32 : (⟨S600000, .f32⟩ : BufTy).Contents (Elt F) := (broadcastInDim S600000 ![] bcast_S_S600000 : (⟨S_, .f32⟩ : BufTy).Contents (Elt F) → (⟨S600000, .f32⟩ : BufTy).Contents (Elt F)) cst_3
  have cst_4 : (⟨S_, .f32⟩ : BufTy).Contents (Elt F) := (constant (F := F) S_ .f32 0x00000000#32)
  have v33 : (⟨S100000, .f32⟩ : BufTy).Contents (Elt F) := (broadcastInDim S100000 ![] bcast_S_S100000 : (⟨S_, .f32⟩ : BufTy).Contents (Elt F) → (⟨S100000, .f32⟩ : BufTy).Contents (Elt F)) cst_4
  have v34 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) dst
  have v35 : (⟨S100000, .f32⟩ : BufTy).Contents (Elt F) := ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) v33 v34 v32
  have cst_5 : (⟨S_, .f32⟩ : BufTy).Contents (Elt F) := (constant (F := F) S_ .f32 0x3F800000#32)
  have v36 : (⟨S100000, .f32⟩ : BufTy).Contents (Elt F) := (broadcastInDim S100000 ![] bcast_S_S100000 : (⟨S_, .f32⟩ : BufTy).Contents (Elt F) → (⟨S100000, .f32⟩ : BufTy).Contents (Elt F)) cst_5
  have v37 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v35 v36
  have v38 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v37
  have v39 : (⟨S100000x128, .f32⟩ : BufTy).Contents (Elt F) := (broadcastInDim S100000x128 ![0, 1] bcast_S100000x1_S100000x128_0_1 : (⟨S100000x1, .f32⟩ : BufTy).Contents (Elt F) → (⟨S100000x128, .f32⟩ : BufTy).Contents (Elt F)) v38
  have v40 : (⟨S100000x128, .f32⟩ : BufTy).Contents (Elt F) := (Host.divf : (⟨S100000x128, .f32⟩ : BufTy).Contents (Elt F) → (⟨S100000x128, .f32⟩ : BufTy).Contents (Elt F) → (⟨S100000x128, .f32⟩ : BufTy).Contents (Elt F)) v31 v39
  have cst_6 : (⟨S_, .f32⟩ : BufTy).Contents (Elt F) := (constant (F := F) S_ .f32 0x00000000#32)
  have v41 : (⟨S384x128, .f32⟩ : BufTy).Contents (Elt F) := (broadcastInDim S384x128 ![] bcast_S_S384x128 : (⟨S_, .f32⟩ : BufTy).Contents (Elt F) → (⟨S384x128, .f32⟩ : BufTy).Contents (Elt F)) cst_6
  have v42 : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) a11
  have v43 : (⟨S384x128, .f32⟩ : BufTy).Contents (Elt F) := ((fun x i u => Host.scatterAdd scatter_S384x128_S100000x1_S100000x128_1_0_0_1 x i u) : (⟨S384x128, .f32⟩ : BufTy).Contents (Elt F) → (⟨S100000x1, .i32⟩ : BufTy).Contents (Elt F) → (⟨S100000x128, .f32⟩ : BufTy).Contents (Elt F) → (⟨S384x128, .f32⟩ : BufTy).Contents (Elt F)) v41 v42 x
  have cst_7 : (⟨S_, .f32⟩ : BufTy).Contents (Elt F) := (constant (F := F) S_ .f32 0x3F800000#32)
  have v44 : (⟨S100000, .f32⟩ : BufTy).Contents (Elt F) := (broadcastInDim S100000 ![] bcast_S_S100000 : (⟨S_, .f32⟩ : BufTy).Contents (Elt F) → (⟨S100000, .f32⟩ : BufTy).Contents (Elt F)) cst_7
  have cst_8 : (⟨S_, .f32⟩ : BufTy).Contents (Elt F) := (constant (F := F) S_ .f32 0x00000000#32)
  have v45 : (⟨S384, .f32⟩ : BufTy).Contents (Elt F) := (broadcastInDim S384 ![] bcast_S_S384 : (⟨S_, .f32⟩ : BufTy).Contents (Elt F) → (⟨S384, .f32⟩ : BufTy).Contents (Elt F)) cst_8
  have v46 : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) a11
  have v47 : (⟨S384, .f32⟩ : BufTy).Contents (Elt F) := ((fun x i u => Host.scatterAdd scatter_S384_S100000x1_S100000_n_0_0_1 x i u) : (⟨S384, .f32⟩ : BufTy).Contents (Elt F) → (⟨S100000x1, .i32⟩ : BufTy).Contents (Elt F) → (⟨S100000, .f32⟩ : BufTy).Contents (Elt F) → (⟨S384, .f32⟩ : BufTy).Contents (Elt F)) v45 v46 v44
  have cst_9 : (⟨S_, .f32⟩ : BufTy).Contents (Elt F) := (constant (F := F) S_ .f32 0x3F800000#32)
  have v48 : (⟨S384, .f32⟩ : BufTy).Contents (Elt F) := (broadcastInDim S384 ![] bcast_S_S384 : (⟨S_, .f32⟩ : BufTy).Contents (Elt F) → (⟨S384, .f32⟩ : BufTy).Contents (Elt F)) cst_9
  have v49 : (⟨S384, .f32⟩ : BufTy).Contents (Elt F) := (maximumf : (⟨S384, .f32⟩ : BufTy).Contents (Elt F) → (⟨S384, .f32⟩ : BufTy).Contents (Elt F) → (⟨S384, .f32⟩ : BufTy).Contents (Elt F)) v47 v48
  have v50 : (⟨S384x1, .f32⟩ : BufTy).Contents (Elt F) := (broadcastInDim S384x1 ![0] bcast_S384_S384x1_0 : (⟨S384, .f32⟩ : BufTy).Contents (Elt F) → (⟨S384x1, .f32⟩ : BufTy).Contents (Elt F)) v49
  have v51 : (⟨S384x128, .f32⟩ : BufTy).Contents (Elt F) := (broadcastInDim S384x128 ![0, 1] bcast_S384x1_S384x128_0_1 : (⟨S384x1, .f32⟩ : BufTy).Contents (Elt F) → (⟨S384x128, .f32⟩ : BufTy).Contents (Elt F)) v50
  have v52 : (⟨S384x128, .f32⟩ : BufTy).Contents (Elt F) := (Host.divf : (⟨S384x128, .f32⟩ : BufTy).Contents (Elt F) → (⟨S384x128, .f32⟩ : BufTy).Contents (Elt F) → (⟨S384x128, .f32⟩ : BufTy).Contents (Elt F)) v43 v51
  have v53 : (⟨S384x1, .f32⟩ : BufTy).Contents (Elt F) := (broadcastInDim S384x1 ![0] bcast_S384_S384x1_0 : (⟨S384, .f32⟩ : BufTy).Contents (Elt F) → (⟨S384x1, .f32⟩ : BufTy).Contents (Elt F)) a3
  have v54 : (⟨S384x128, .f32⟩ : BufTy).Contents (Elt F) := (broadcastInDim S384x128 ![0, 1] bcast_S384x1_S384x128_0_1 : (⟨S384x1, .f32⟩ : BufTy).Contents (Elt F) → (⟨S384x128, .f32⟩ : BufTy).Contents (Elt F)) v53
  have v55 : (⟨S384x128, .f32⟩ : BufTy).Contents (Elt F) := (mulf : (⟨S384x128, .f32⟩ : BufTy).Contents (Elt F) → (⟨S384x128, .f32⟩ : BufTy).Contents (Elt F) → (⟨S384x128, .f32⟩ : BufTy).Contents (Elt F)) v52 v54
  have c_10 : (⟨S_, .i32⟩ : BufTy).Contents (Elt F) := (constantI S_ 32 0#32)
  have v56 : (⟨S100000, .i32⟩ : BufTy).Contents (Elt F) := (broadcastInDim S100000 ![] bcast_S_S100000 : (⟨S_, .i32⟩ : BufTy).Contents (Elt F) → (⟨S100000, .i32⟩ : BufTy).Contents (Elt F)) c_10
  have v57 : (⟨S100000, .i1⟩ : BufTy).Contents (Elt F) := (cmpi .slt : (⟨S100000, .i32⟩ : BufTy).Contents (Elt F) → (⟨S100000, .i32⟩ : BufTy).Contents (Elt F) → (⟨S100000, .i1⟩ : BufTy).Contents (Elt F)) a11 v56
  have c_11 : (⟨S_, .i32⟩ : BufTy).Contents (Elt F) := (constantI S_ 32 384#32)
  have v58 : (⟨S100000, .i32⟩ : BufTy).Contents (Elt F) := (broadcastInDim S100000 ![] bcast_S_S100000 : (⟨S_, .i32⟩ : BufTy).Contents (Elt F) → (⟨S100000, .i32⟩ : BufTy).Contents (Elt F)) c_11
  have v59 : (⟨S100000, .i32⟩ : BufTy).Contents (Elt F) := (addi : (⟨S100000, .i32⟩ : BufTy).Contents (Elt F) → (⟨S100000, .i32⟩ : BufTy).Contents (Elt F) → (⟨S100000, .i32⟩ : BufTy).Contents (Elt F)) a11 v58
  have v60 : (⟨S100000, .i32⟩ : BufTy).Contents (Elt F) := (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) v57 v59 a11
  have v61 : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) v60
  have v62 : (⟨S100000x128, .f32⟩ : BufTy).Contents (Elt F) := ((fun x i => Host.gather gather_S384x128_S100000x1_S100000x128_1_0_n_n_0_1_1128 x i) : (⟨S384x128, .f32⟩ : BufTy).Contents (Elt F) → (⟨S100000x1, .i32⟩ : BufTy).Contents (Elt F) → (⟨S100000x128, .f32⟩ : BufTy).Contents (Elt F)) v55 v61
  have v63 : (⟨S100000x384, .f32⟩ : BufTy).Contents (Elt F) := concatenate S100000x384 1 [⟨S100000x128, x⟩, ⟨S100000x128, v40⟩, ⟨S100000x128, v62⟩] concatenates_S100000x128_S100000x128_S100000x128_S100000x384_d1
  have v64 : (⟨S100000x128, .f32⟩ : BufTy).Contents (Elt F) := ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)) v63 a8
  have v65 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) a9
  have v66 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v65
  have v67 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v64 v66
  have cst_12 : (⟨S_, .f32⟩ : BufTy).Contents (Elt F) := (constant (F := F) S_ .f32 0x00000000#32)
  have v68 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_12
  have v69 : (⟨S100000x128, .i1⟩ : BufTy).Contents (Elt F) := (cmpf .ogt : (⟨S100000x128, .f32⟩ : BufTy).Contents (Elt F) → (⟨S100000x128, .f32⟩ : BufTy).Contents (Elt F) → (⟨S100000x128, .i1⟩ : BufTy).Contents (Elt F)) v67 v68
  have cst_13 : (⟨S_, .f32⟩ : BufTy).Contents (Elt F) := (constant (F := F) S_ .f32 0x3C23D70A#32)
  have v70 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_13
  have v71 : (⟨S100000x128, .f32⟩ : BufTy).Contents (Elt F) := (mulf : (⟨S100000x128, .f32⟩ : BufTy).Contents (Elt F) → (⟨S100000x128, .f32⟩ : BufTy).Contents (Elt F) → (⟨S100000x128, .f32⟩ : BufTy).Contents (Elt F)) v70 v67
  have v72 : (⟨S100000x128, .f32⟩ : BufTy).Contents (Elt F) := (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) v69 v67 v71
  have v73 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) x v72
  v73

/-- The reference's result at the inputs a memory `m` holds on device `c`: the encoder, then the layer
    three times over the same index rows and parameters. -/
def resR (m : (ℓ : Loc nD τ sig) → Buf (Elt F) ℓ) (c : Dev nD) : Buf (Elt F) ((c.tc : Thread nD τ).loc main_v201) :=
  layerR
    (layerR
      (layerR (encR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
        (srcR (m ((c.tc : Thread nD τ).loc main_arg10))) (dstR (m ((c.tc : Thread nD τ).loc main_arg10)))
        (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)))
      (srcR (m ((c.tc : Thread nD τ).loc main_arg10))) (dstR (m ((c.tc : Thread nD τ).loc main_arg10)))
      (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)))
    (srcR (m ((c.tc : Thread nD τ).loc main_arg10))) (dstR (m ((c.tc : Thread nD τ).loc main_arg10)))
    (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))

end Cert.ReferenceIdeal.RefVal

end
-- ==== Proof.Ref.Results.lean ====
import Idealize.ShloMosaic.Lib.StableHlo.Run

namespace Cert.ReferenceIdeal.RefVal

open Idealize.ShloMosaic Idealize.ShloMosaic.StableHlo

variable {τ : Topo} {sig : RefSig} {Val : EltTy → Type}

/-- `nary_result` at a literal family of three references: operand `k`'s contents read at its own buffer. -/
theorem nary3_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a))
          (Fin.cons (G (Proc.devRef .tc b)) (fun i => i.elim0)))) := by
  rw [nary_result]; congr 1; funext k; fin_cases k <;> rfl

/-- Reads one buffer after a line of operations: each result is its function of its operands' contents, other buffers as before. -/
macro "results_at" : tactic =>
  `(tactic| (simp (disch := decide) only [after_cons, after_nil,
      nullary_result', unary_result', binary_result', ternary_result', reshape_result', nary3_result',
      nullary_result_ne', unary_result_ne', binary_result_ne', ternary_result_ne', reshape_result_ne',
      nary_result_ne']))

end Cert.ReferenceIdeal.RefVal
-- ==== Proof.Ref.OpsPre.lean ====
import proofs.«426792_j34668976013873_1_alg».proof.Proof.Ref.Layer
import proofs.«426792_j34668976013873_1_alg».proof.Proof.Ref.Results
import Idealize.ShloMosaic.Lib.Pipeline.Regions

noncomputable section

namespace Cert.ReferenceIdeal.RefVal

open Idealize.ShloMosaic Idealize.ShloMosaic.TcCoe Idealize.SL.Sem Idealize.ShloMosaic.StableHlo Cert.ReferenceIdeal
open Cert.ReferenceIdeal.Facts₀

variable {F : FTy → Type} [FloatOps F] [Facts]

/-- The ten operations before the first layer: the encoder and the two rows of the index table. -/
def opsPre : List (HloOp τ sig (Elt F)) :=
  [
    unary main_arg1 main_v0 (broadcastInDim S100000x1 ![0] bcast_S100000_S100000x1_0 : (⟨S100000, .f32⟩ : BufTy).Contents (Elt F) → (⟨S100000x1, .f32⟩ : BufTy).Contents (Elt F)),
    nary ![main_arg0, main_v0, main_arg2] main_v1 (fun u => concatenate S100000x48 1 [⟨S100000x15, u 0⟩, ⟨S100000x1, u 1⟩, ⟨S100000x32, u 2⟩] concatenates_S100000x15_S100000x1_S100000x32_S100000x48_d1),
    binary main_v1 main_arg4 main_v2 ((fun l r => Host.dotGeneral dot_S100000x48_S48x128_S100000x128_1_0_0_1_n_n none l r) : (⟨S100000x48, .f32⟩ : BufTy).Contents (Elt F) → (⟨S48x128, .f32⟩ : BufTy).Contents (Elt F) → (⟨S100000x128, .f32⟩ : BufTy).Contents (Elt F)),
    unary main_arg5 main_v3 (broadcastInDim S1x128 ![1] bcast_S128_S1x128_1 : (⟨S128, .f32⟩ : BufTy).Contents (Elt F) → (⟨S1x128, .f32⟩ : BufTy).Contents (Elt F)),
    unary main_v3 main_v4 (broadcastInDim S100000x128 ![0, 1] bcast_S1x128_S100000x128_0_1 : (⟨S1x128, .f32⟩ : BufTy).Contents (Elt F) → (⟨S100000x128, .f32⟩ : BufTy).Contents (Elt F)),
    binary main_v2 main_v4 main_v5 (addf : (⟨S100000x128, .f32⟩ : BufTy).Contents (Elt F) → (⟨S100000x128, .f32⟩ : BufTy).Contents (Elt F) → (⟨S100000x128, .f32⟩ : BufTy).Contents (Elt F)),
    unary main_arg10 main_v6 ((extractStridedSlice S1x600000 ![0, 0] · slices_S2x600000_S1x600000_0_0) : (⟨S2x600000, .i32⟩ : BufTy).Contents (Elt F) → (⟨S1x600000, .i32⟩ : BufTy).Contents (Elt F)),
    reshape main_v6 main_v7 rfl shapeCasts_S1x600000_S600000,
    unary main_arg10 main_v8 ((extractStridedSlice S1x600000 ![1, 0] · slices_S2x600000_S1x600000_1_0) : (⟨S2x600000, .i32⟩ : BufTy).Contents (Elt F) → (⟨S1x600000, .i32⟩ : BufTy).Contents (Elt F)),
    reshape main_v8 main_v9 rfl shapeCasts_S1x600000_S600000 ]

noncomputable def wPre : List (Ref sig .tc) :=
  [main_v0, main_v1, main_v2, main_v3, main_v4, main_v5, main_v6, main_v7, main_v8, main_v9]

theorem opsPre_sub : (opsPre (F := F)).Forall fun op => op.bufs ⊆ tcRefs τ sig := by
  simp only [opsPre, List.forall_cons, List.Forall, unary_bufs_sub, binary_bufs_sub, nary_bufs_sub,
    reshape_bufs_sub, and_self]

theorem opsPre_fresh : (opsPre (F := F)).Forall fun op => op.fresh = ∅ :=
  ⟨rfl, rfl, rfl, rfl, rfl, rfl, rfl, rfl, rfl, rfl⟩

/-- Each operation writes its own buffer only, so a reference outside `wPre` keeps its contents. -/
theorem pre_frame {r : Ref sig .tc} (hr : r ∉ wPre) (V : Valuation τ sig (Elt F)) :
    after opsPre V (Proc.devRef .tc r) = V (Proc.devRef .tc r) := by
  refine after_of_writes_sub (W := wPre) _ V ?_ hr
  simp only [opsPre, wPre, List.forall_cons, List.Forall, unary_writes, binary_writes, nary_writes, reshape_writes,
    List.map_cons, List.map_nil, List.toFinset_cons, List.toFinset_nil, Finset.singleton_subset_iff,
    Finset.mem_insert, true_or, or_true, and_self]

theorem pre_v5 (V : Valuation τ sig (Elt F)) :
    after opsPre V (Proc.devRef .tc main_v5) = encR (V (Proc.devRef .tc main_arg0)) (V (Proc.devRef .tc main_arg1))
      (V (Proc.devRef .tc main_arg2)) (V (Proc.devRef .tc main_arg4)) (V (Proc.devRef .tc main_arg5)) := by
  unfold opsPre
  results_at
  chain_rfl

theorem pre_v7 (V : Valuation τ sig (Elt F)) :
    after opsPre V (Proc.devRef .tc main_v7) = srcR (V (Proc.devRef .tc main_arg10)) := by
  unfold opsPre
  results_at
  chain_rfl

theorem pre_v9 (V : Valuation τ sig (Elt F)) :
    after opsPre V (Proc.devRef .tc main_v9) = dstR (V (Proc.devRef .tc main_arg10)) := by
  unfold opsPre
  results_at
  chain_rfl

end Cert.ReferenceIdeal.RefVal

end
-- ==== Proof.Ref.LayerOps.lean ====
import proofs.«426792_j34668976013873_1_alg».proof.Proof.Ref.Layer
import proofs.«426792_j34668976013873_1_alg».proof.Proof.Ref.Results
import Idealize.ShloMosaic.Lib.Pipeline.Regions

noncomputable section

namespace Cert.ReferenceIdeal.RefVal

open Idealize.ShloMosaic Idealize.ShloMosaic.TcCoe Idealize.SL.Sem Idealize.ShloMosaic.StableHlo Cert.ReferenceIdeal
open Cert.ReferenceIdeal.Facts₀

variable {F : FTy → Type} [FloatOps F] [Facts]

abbrev rSrc : TRef sig ⟨S600000, .i32⟩ := .of main_v7
abbrev rDst : TRef sig ⟨S600000, .i32⟩ := .of main_v9
abbrev rA3 : TRef sig ⟨S384, .f32⟩ := .of main_arg3
abbrev rA6 : TRef sig ⟨S256x128, .f32⟩ := .of main_arg6
abbrev rA7 : TRef sig ⟨S128, .f32⟩ := .of main_arg7
abbrev rA8 : TRef sig ⟨S384x128, .f32⟩ := .of main_arg8
abbrev rA9 : TRef sig ⟨S128, .f32⟩ := .of main_arg9
abbrev rA11 : TRef sig ⟨S100000, .i32⟩ := .of main_arg11

/-- The buffers one layer writes, one per operation, named as `layerR` names its values. -/
structure LBufs where
  (c c_0 c_1 c_2 c_10 c_11 : TRef sig ⟨S_, .i32⟩)
  (v10 v12 v13 v14 v17 v19 v20 v21 : TRef sig ⟨S600000, .i32⟩)
  (v11 v18 : TRef sig ⟨S600000, .i1⟩)
  (v15 v22 v30 v34 : TRef sig ⟨S600000x1, .i32⟩)
  (v16 v23 v25 v27 v28 : TRef sig ⟨S600000x128, .f32⟩)
  (v24 : TRef sig ⟨S600000x256, .f32⟩)
  (v26 v65 : TRef sig ⟨S1x128, .f32⟩)
  (cst cst_3 cst_4 cst_5 cst_6 cst_7 cst_8 cst_9 cst_12 cst_13 : TRef sig ⟨S_, .f32⟩)
  (v29 v31 v39 v40 v62 v64 v66 v67 v68 v70 v71 v72 v73 : TRef sig ⟨S100000x128, .f32⟩)
  (v32 : TRef sig ⟨S600000, .f32⟩)
  (v33 v35 v36 v37 v44 : TRef sig ⟨S100000, .f32⟩)
  (v38 : TRef sig ⟨S100000x1, .f32⟩)
  (v41 v43 v51 v52 v54 v55 : TRef sig ⟨S384x128, .f32⟩)
  (v42 v46 v61 : TRef sig ⟨S100000x1, .i32⟩)
  (v45 v47 v48 v49 : TRef sig ⟨S384, .f32⟩)
  (v50 v53 : TRef sig ⟨S384x1, .f32⟩)
  (v56 v58 v59 v60 : TRef sig ⟨S100000, .i32⟩)
  (v57 : TRef sig ⟨S100000, .i1⟩)
  (v63 : TRef sig ⟨S100000x384, .f32⟩)
  (v69 : TRef sig ⟨S100000x128, .i1⟩)

def LBufs.refs (B : LBufs) : List (Ref sig .tc) := [
  B.c.ref, B.v10.ref, B.v11.ref, B.c_0.ref, B.v12.ref, B.v13.ref, B.v14.ref, B.v15.ref, B.v16.ref, B.c_1.ref,
  B.v17.ref, B.v18.ref, B.c_2.ref, B.v19.ref, B.v20.ref, B.v21.ref, B.v22.ref, B.v23.ref, B.v24.ref, B.v25.ref,
  B.v26.ref, B.v27.ref, B.v28.ref, B.cst.ref, B.v29.ref, B.v30.ref, B.v31.ref, B.cst_3.ref, B.v32.ref, B.cst_4.ref,
  B.v33.ref, B.v34.ref, B.v35.ref, B.cst_5.ref, B.v36.ref, B.v37.ref, B.v38.ref, B.v39.ref, B.v40.ref, B.cst_6.ref,
  B.v41.ref, B.v42.ref, B.v43.ref, B.cst_7.ref, B.v44.ref, B.cst_8.ref, B.v45.ref, B.v46.ref, B.v47.ref, B.cst_9.ref,
  B.v48.ref, B.v49.ref, B.v50.ref, B.v51.ref, B.v52.ref, B.v53.ref, B.v54.ref, B.v55.ref, B.c_10.ref, B.v56.ref,
  B.v57.ref, B.c_11.ref, B.v58.ref, B.v59.ref, B.v60.ref, B.v61.ref, B.v62.ref, B.v63.ref, B.v64.ref, B.v65.ref,
  B.v66.ref, B.v67.ref, B.cst_12.ref, B.v68.ref, B.v69.ref, B.cst_13.ref, B.v70.ref, B.v71.ref, B.v72.ref, B.v73.ref]

/-- The eighty operations of a layer reading the node features from `xin` and writing the buffers `B`. -/
def layerOps (xin : TRef sig ⟨S100000x128, .f32⟩) (B : LBufs) : List (HloOp τ sig (Elt F)) := [
    TRef.nullary B.c (constantI S_ 32 0#32),
    TRef.unary B.c B.v10 (broadcastInDim S600000 ![] bcast_S_S600000),
    TRef.binary rDst B.v10 B.v11 (cmpi .slt),
    TRef.nullary B.c_0 (constantI S_ 32 100000#32),
    TRef.unary B.c_0 B.v12 (broadcastInDim S600000 ![] bcast_S_S600000),
    TRef.binary rDst B.v12 B.v13 addi,
    TRef.ternary B.v11 B.v13 rDst B.v14 select,
    TRef.unary B.v14 B.v15 (broadcastInDim S600000x1 ![0] bcast_S600000_S600000x1_0),
    TRef.binary xin B.v15 B.v16 (fun x i => Host.gather gather_S100000x128_S600000x1_S600000x128_1_0_n_n_0_1_1128 x i),
    TRef.nullary B.c_1 (constantI S_ 32 0#32),
    TRef.unary B.c_1 B.v17 (broadcastInDim S600000 ![] bcast_S_S600000),
    TRef.binary rSrc B.v17 B.v18 (cmpi .slt),
    TRef.nullary B.c_2 (constantI S_ 32 100000#32),
    TRef.unary B.c_2 B.v19 (broadcastInDim S600000 ![] bcast_S_S600000),
    TRef.binary rSrc B.v19 B.v20 addi,
    TRef.ternary B.v18 B.v20 rSrc B.v21 select,
    TRef.unary B.v21 B.v22 (broadcastInDim S600000x1 ![0] bcast_S600000_S600000x1_0),
    TRef.binary xin B.v22 B.v23 (fun x i => Host.gather gather_S100000x128_S600000x1_S600000x128_1_0_n_n_0_1_1128 x i),
    TRef.binary B.v16 B.v23 B.v24 (fun a b => concatenate S600000x256 1 [⟨S600000x128, a⟩, ⟨S600000x128, b⟩] concatenates_S600000x128_S600000x128_S600000x256_d1),
    TRef.binary B.v24 rA6 B.v25 (fun l r => Host.dotGeneral dot_S600000x256_S256x128_S600000x128_1_0_0_1_n_n none l r),
    TRef.unary rA7 B.v26 (broadcastInDim S1x128 ![1] bcast_S128_S1x128_1),
    TRef.unary B.v26 B.v27 (broadcastInDim S600000x128 ![0, 1] bcast_S1x128_S600000x128_0_1),
    TRef.binary B.v25 B.v27 B.v28 addf,
    TRef.nullary B.cst (constant S_ .f32 0x00000000#32),
    TRef.unary B.cst B.v29 (broadcastInDim S100000x128 ![] bcast_S_S100000x128),
    TRef.unary rDst B.v30 (broadcastInDim S600000x1 ![0] bcast_S600000_S600000x1_0),
    TRef.ternary B.v29 B.v30 B.v28 B.v31 (fun x i u => Host.scatterAdd scatter_S100000x128_S600000x1_S600000x128_1_0_0_1 x i u),
    TRef.nullary B.cst_3 (constant S_ .f32 0x3F800000#32),
    TRef.unary B.cst_3 B.v32 (broadcastInDim S600000 ![] bcast_S_S600000),
    TRef.nullary B.cst_4 (constant S_ .f32 0x00000000#32),
    TRef.unary B.cst_4 B.v33 (broadcastInDim S100000 ![] bcast_S_S100000),
    TRef.unary rDst B.v34 (broadcastInDim S600000x1 ![0] bcast_S600000_S600000x1_0),
    TRef.ternary B.v33 B.v34 B.v32 B.v35 (fun x i u => Host.scatterAdd scatter_S100000_S600000x1_S600000_n_0_0_1 x i u),
    TRef.nullary B.cst_5 (constant S_ .f32 0x3F800000#32),
    TRef.unary B.cst_5 B.v36 (broadcastInDim S100000 ![] bcast_S_S100000),
    TRef.binary B.v35 B.v36 B.v37 maximumf,
    TRef.unary B.v37 B.v38 (broadcastInDim S100000x1 ![0] bcast_S100000_S100000x1_0),
    TRef.unary B.v38 B.v39 (broadcastInDim S100000x128 ![0, 1] bcast_S100000x1_S100000x128_0_1),
    TRef.binary B.v31 B.v39 B.v40 Host.divf,
    TRef.nullary B.cst_6 (constant S_ .f32 0x00000000#32),
    TRef.unary B.cst_6 B.v41 (broadcastInDim S384x128 ![] bcast_S_S384x128),
    TRef.unary rA11 B.v42 (broadcastInDim S100000x1 ![0] bcast_S100000_S100000x1_0),
    TRef.ternary B.v41 B.v42 xin B.v43 (fun x i u => Host.scatterAdd scatter_S384x128_S100000x1_S100000x128_1_0_0_1 x i u),
    TRef.nullary B.cst_7 (constant S_ .f32 0x3F800000#32),
    TRef.unary B.cst_7 B.v44 (broadcastInDim S100000 ![] bcast_S_S100000),
    TRef.nullary B.cst_8 (constant S_ .f32 0x00000000#32),
    TRef.unary B.cst_8 B.v45 (broadcastInDim S384 ![] bcast_S_S384),
    TRef.unary rA11 B.v46 (broadcastInDim S100000x1 ![0] bcast_S100000_S100000x1_0),
    TRef.ternary B.v45 B.v46 B.v44 B.v47 (fun x i u => Host.scatterAdd scatter_S384_S100000x1_S100000_n_0_0_1 x i u),
    TRef.nullary B.cst_9 (constant S_ .f32 0x3F800000#32),
    TRef.unary B.cst_9 B.v48 (broadcastInDim S384 ![] bcast_S_S384),
    TRef.binary B.v47 B.v48 B.v49 maximumf,
    TRef.unary B.v49 B.v50 (broadcastInDim S384x1 ![0] bcast_S384_S384x1_0),
    TRef.unary B.v50 B.v51 (broadcastInDim S384x128 ![0, 1] bcast_S384x1_S384x128_0_1),
    TRef.binary B.v43 B.v51 B.v52 Host.divf,
    TRef.unary rA3 B.v53 (broadcastInDim S384x1 ![0] bcast_S384_S384x1_0),
    TRef.unary B.v53 B.v54 (broadcastInDim S384x128 ![0, 1] bcast_S384x1_S384x128_0_1),
    TRef.binary B.v52 B.v54 B.v55 mulf,
    TRef.nullary B.c_10 (constantI S_ 32 0#32),
    TRef.unary B.c_10 B.v56 (broadcastInDim S100000 ![] bcast_S_S100000),
    TRef.binary rA11 B.v56 B.v57 (cmpi .slt),
    TRef.nullary B.c_11 (constantI S_ 32 384#32),
    TRef.unary B.c_11 B.v58 (broadcastInDim S100000 ![] bcast_S_S100000),
    TRef.binary rA11 B.v58 B.v59 addi,
    TRef.ternary B.v57 B.v59 rA11 B.v60 select,
    TRef.unary B.v60 B.v61 (broadcastInDim S100000x1 ![0] bcast_S100000_S100000x1_0),
    TRef.binary B.v55 B.v61 B.v62 (fun x i => Host.gather gather_S384x128_S100000x1_S100000x128_1_0_n_n_0_1_1128 x i),
    nary ![xin.ref, B.v40.ref, B.v62.ref] B.v63.ref (fun u => B.v63.toBuf (concatenate S100000x384 1 [⟨S100000x128, xin.ofBuf (u 0)⟩, ⟨S100000x128, B.v40.ofBuf (u 1)⟩, ⟨S100000x128, B.v62.ofBuf (u 2)⟩] concatenates_S100000x128_S100000x128_S100000x128_S100000x384_d1)) (fun k => by fin_cases k <;> exact TRef.dev _) B.v63.dev,
    TRef.binary B.v63 rA8 B.v64 (fun l r => Host.dotGeneral dot_S100000x384_S384x128_S100000x128_1_0_0_1_n_n none l r),
    TRef.unary rA9 B.v65 (broadcastInDim S1x128 ![1] bcast_S128_S1x128_1),
    TRef.unary B.v65 B.v66 (broadcastInDim S100000x128 ![0, 1] bcast_S1x128_S100000x128_0_1),
    TRef.binary B.v64 B.v66 B.v67 addf,
    TRef.nullary B.cst_12 (constant S_ .f32 0x00000000#32),
    TRef.unary B.cst_12 B.v68 (broadcastInDim S100000x128 ![] bcast_S_S100000x128),
    TRef.binary B.v67 B.v68 B.v69 (cmpf .ogt),
    TRef.nullary B.cst_13 (constant S_ .f32 0x3C23D70A#32),
    TRef.unary B.cst_13 B.v70 (broadcastInDim S100000x128 ![] bcast_S_S100000x128),
    TRef.binary B.v70 B.v67 B.v71 mulf,
    TRef.ternary B.v69 B.v67 B.v71 B.v72 select,
    TRef.binary xin B.v72 B.v73 addf]

variable (xin : TRef sig ⟨S100000x128, .f32⟩) (B : LBufs)

theorem layerOps_sub : (layerOps (F := F) xin B).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., binary_bufs_sub ..,
    unary_bufs_sub .., unary_bufs_sub .., binary_bufs_sub .., nullary_bufs_sub .., unary_bufs_sub ..,
    unary_bufs_sub .., ternary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., unary_bufs_sub .., binary_bufs_sub ..,
    unary_bufs_sub .., unary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., nary_bufs_sub .., binary_bufs_sub .., unary_bufs_sub ..,
    unary_bufs_sub .., binary_bufs_sub .., nullary_bufs_sub .., unary_bufs_sub .., binary_bufs_sub ..,
    nullary_bufs_sub .., unary_bufs_sub .., binary_bufs_sub .., ternary_bufs_sub .., binary_bufs_sub ..⟩

theorem layerOps_fresh : (layerOps (F := F) xin B).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

/-- A line whose operations write exactly the listed references, one each, leaves any other reference as it was. -/
theorem after_of_forall₂ {τ : Topo} {sig : RefSig} {Val : EltTy → Type} {ops : List (HloOp τ sig Val)}
    {W : List (Ref sig .tc)}
    (h : List.Forall₂ (fun op y => op.writes = {Proc.devRef .tc y}) ops W) {r : Ref sig .tc} (hr : r ∉ W)
    (V : Valuation τ sig Val) : after ops V (Proc.devRef .tc r) = V (Proc.devRef .tc r) := by
  refine after_of_forall_not_mem ops V ?_
  induction h with
  | nil => intro _ h; cases h
  | cons hxy _ ih =>
    intro op hop
    rcases List.mem_cons.1 hop with rfl | hop
    · rw [hxy, Finset.mem_singleton]
      exact devRef_ne_of_ne fun e => hr (e ▸ List.mem_cons_self)
    · exact ih (fun m => hr (List.mem_cons_of_mem _ m)) op hop

theorem layer_frame {r : Ref sig .tc} (hr : r ∉ B.refs) (V : Valuation τ sig (Elt F)) :
    after (layerOps xin B) V (Proc.devRef .tc r) = V (Proc.devRef .tc r) :=
  after_of_forall₂ (by unfold layerOps LBufs.refs; repeat' constructor) hr V

/-- A layer's value at node features `xv`, its other eight inputs read from the valuation `V`. -/
def lay (V : Valuation τ sig (Elt F)) :
    (⟨S100000x128, .f32⟩ : BufTy).Contents (Elt F) → (⟨S100000x128, .f32⟩ : BufTy).Contents (Elt F) :=
  fun xv => layerR xv (V (Proc.devRef .tc main_v7)) (V (Proc.devRef .tc main_v9)) (V (Proc.devRef .tc main_arg3))
    (V (Proc.devRef .tc main_arg6)) (V (Proc.devRef .tc main_arg7)) (V (Proc.devRef .tc main_arg8))
    (V (Proc.devRef .tc main_arg9)) (V (Proc.devRef .tc main_arg11))

/-- A layer that writes none of the eight shared inputs leaves `lay` as it was. -/
theorem lay_frame
    (h : ∀ r ∈ [main_v7, main_v9, main_arg3, main_arg6, main_arg7, main_arg8, main_arg9, main_arg11], r ∉ B.refs)
    (V : Valuation τ sig (Elt F)) :
    lay (after (layerOps xin B) V) = lay V := by
  have e := fun r hr => layer_frame xin B (h r hr) V
  unfold lay
  rw [e main_v7 (by decide), e main_v9 (by decide), e main_arg3 (by decide), e main_arg6 (by decide),
    e main_arg7 (by decide), e main_arg8 (by decide), e main_arg9 (by decide), e main_arg11 (by decide)]

abbrev bufs1 : LBufs := ⟨
  .of main_c, .of main_c_0, .of main_c_1, .of main_c_2, .of main_c_10, .of main_c_11, .of main_v10, .of main_v12,
  .of main_v13, .of main_v14, .of main_v17, .of main_v19, .of main_v20, .of main_v21, .of main_v11, .of main_v18,
  .of main_v15, .of main_v22, .of main_v30, .of main_v34, .of main_v16, .of main_v23, .of main_v25, .of main_v27,
  .of main_v28, .of main_v24, .of main_v26, .of main_v65, .of main_cst, .of main_cst_3, .of main_cst_4,
  .of main_cst_5, .of main_cst_6, .of main_cst_7, .of main_cst_8, .of main_cst_9, .of main_cst_12, .of main_cst_13,
  .of main_v29, .of main_v31, .of main_v39, .of main_v40, .of main_v62, .of main_v64, .of main_v66, .of main_v67,
  .of main_v68, .of main_v70, .of main_v71, .of main_v72, .of main_v73, .of main_v32, .of main_v33, .of main_v35,
  .of main_v36, .of main_v37, .of main_v44, .of main_v38, .of main_v41, .of main_v43, .of main_v51, .of main_v52,
  .of main_v54, .of main_v55, .of main_v42, .of main_v46, .of main_v61, .of main_v45, .of main_v47, .of main_v48,
  .of main_v49, .of main_v50, .of main_v53, .of main_v56, .of main_v58, .of main_v59, .of main_v60, .of main_v57,
  .of main_v63, .of main_v69⟩
abbrev bufs2 : LBufs := ⟨
  .of main_c_14, .of main_c_15, .of main_c_16, .of main_c_17, .of main_c_26, .of main_c_27, .of main_v74,
  .of main_v76, .of main_v77, .of main_v78, .of main_v81, .of main_v83, .of main_v84, .of main_v85, .of main_v75,
  .of main_v82, .of main_v79, .of main_v86, .of main_v94, .of main_v98, .of main_v80, .of main_v87, .of main_v89,
  .of main_v91, .of main_v92, .of main_v88, .of main_v90, .of main_v129, .of main_cst_18, .of main_cst_19,
  .of main_cst_20, .of main_cst_21, .of main_cst_22, .of main_cst_23, .of main_cst_24, .of main_cst_25,
  .of main_cst_28, .of main_cst_29, .of main_v93, .of main_v95, .of main_v103, .of main_v104, .of main_v126,
  .of main_v128, .of main_v130, .of main_v131, .of main_v132, .of main_v134, .of main_v135, .of main_v136,
  .of main_v137, .of main_v96, .of main_v97, .of main_v99, .of main_v100, .of main_v101, .of main_v108,
  .of main_v102, .of main_v105, .of main_v107, .of main_v115, .of main_v116, .of main_v118, .of main_v119,
  .of main_v106, .of main_v110, .of main_v125, .of main_v109, .of main_v111, .of main_v112, .of main_v113,
  .of main_v114, .of main_v117, .of main_v120, .of main_v122, .of main_v123, .of main_v124, .of main_v121,
  .of main_v127, .of main_v133⟩
abbrev bufs3 : LBufs := ⟨
  .of main_c_30, .of main_c_31, .of main_c_32, .of main_c_33, .of main_c_42, .of main_c_43, .of main_v138,
  .of main_v140, .of main_v141, .of main_v142, .of main_v145, .of main_v147, .of main_v148, .of main_v149,
  .of main_v139, .of main_v146, .of main_v143, .of main_v150, .of main_v158, .of main_v162, .of main_v144,
  .of main_v151, .of main_v153, .of main_v155, .of main_v156, .of main_v152, .of main_v154, .of main_v193,
  .of main_cst_34, .of main_cst_35, .of main_cst_36, .of main_cst_37, .of main_cst_38, .of main_cst_39,
  .of main_cst_40, .of main_cst_41, .of main_cst_44, .of main_cst_45, .of main_v157, .of main_v159, .of main_v167,
  .of main_v168, .of main_v190, .of main_v192, .of main_v194, .of main_v195, .of main_v196, .of main_v198,
  .of main_v199, .of main_v200, .of main_v201, .of main_v160, .of main_v161, .of main_v163, .of main_v164,
  .of main_v165, .of main_v172, .of main_v166, .of main_v169, .of main_v171, .of main_v179, .of main_v180,
  .of main_v182, .of main_v183, .of main_v170, .of main_v174, .of main_v189, .of main_v173, .of main_v175,
  .of main_v176, .of main_v177, .of main_v178, .of main_v181, .of main_v184, .of main_v186, .of main_v187,
  .of main_v188, .of main_v185, .of main_v191, .of main_v197⟩

/-- Each operation's result read back in turn gives `layerR`'s chain of values with every name replaced by its value. -/
theorem l1_val (V : Valuation τ sig (Elt F)) :
    after (layerOps (.of main_v5) bufs1) V (Proc.devRef .tc main_v73) = lay V (V (Proc.devRef .tc main_v5)) := by
  unfold layerOps
  results_at
  chain_rfl

theorem l2_val (V : Valuation τ sig (Elt F)) :
    after (layerOps (.of main_v73) bufs2) V (Proc.devRef .tc main_v137) = lay V (V (Proc.devRef .tc main_v73)) := by
  unfold layerOps
  results_at
  chain_rfl

theorem l3_val (V : Valuation τ sig (Elt F)) :
    after (layerOps (.of main_v137) bufs3) V (Proc.devRef .tc main_v201) = lay V (V (Proc.devRef .tc main_v137)) := by
  unfold layerOps
  results_at
  chain_rfl

end Cert.ReferenceIdeal.RefVal

end
-- ==== Proof.Ref.Run.lean ====
import proofs.«426792_j34668976013873_1_alg».proof.Proof.Gen.ReferenceIdeal
import proofs.«426792_j34668976013873_1_alg».proof.Proof.Ref.OpsPre
import proofs.«426792_j34668976013873_1_alg».proof.Proof.Ref.LayerOps
import Idealize.ShloMosaic.Lib.Pipeline.Frame

noncomputable section

namespace Cert.ReferenceIdeal.RefVal

open Idealize.ShloMosaic Idealize.ShloMosaic.TcCoe Idealize.SL.Sem Idealize.ShloMosaic.StableHlo Cert.ReferenceIdeal

variable {F : FTy → Type} [FloatOps F]

/-- The program's 250 operations: the encoder's stretch, then the layer's stretch three times. -/
def ops : List (HloOp τ sig (Elt F)) :=
  opsPre ++ (layerOps (.of main_v5) bufs1 ++ (layerOps (.of main_v73) bufs2 ++ layerOps (.of main_v137) bufs3))

theorem main_eq (c : Dev nD) : main (F := F) c = seq ops := by
  chain_rfl

/-- The encoder's stretch leaves the index rows in `main_v7`, `main_v9` and the parameters as they were. -/
theorem lay_pre (V : Valuation τ sig (Elt F)) :
    lay (after opsPre V) = fun xv => layerR xv (srcR (V (Proc.devRef .tc main_arg10))) (dstR (V (Proc.devRef .tc main_arg10)))
      (V (Proc.devRef .tc main_arg3)) (V (Proc.devRef .tc main_arg6)) (V (Proc.devRef .tc main_arg7))
      (V (Proc.devRef .tc main_arg8)) (V (Proc.devRef .tc main_arg9)) (V (Proc.devRef .tc main_arg11)) := by
  unfold lay
  rw [pre_v7, pre_v9, pre_frame (r := main_arg3) (by decide), pre_frame (r := main_arg6) (by decide),
    pre_frame (r := main_arg7) (by decide), pre_frame (r := main_arg8) (by decide),
    pre_frame (r := main_arg9) (by decide), pre_frame (r := main_arg11) (by decide)]

/-- Folding the four stretches one after the other: each layer's value at what the stretch before it left. -/
theorem res_val (m : (ℓ : Loc nD τ sig) → Buf (Elt F) ℓ) (c : Dev nD) :
    after ops (launchContents m c) (Proc.devRef .tc main_v201) = resR m c := by
  unfold ops
  rw [after_append, after_append, after_append, l3_val, lay_frame _ bufs2 (by decide), l2_val,
    lay_frame _ bufs1 (by decide), l1_val, lay_pre, pre_v5]
  rfl

/-- A reference no stretch writes holds at the end what it held at the start. -/
theorem arg_val {r : Ref sig .tc} (h : r ∉ wPre ++ (bufs1.refs ++ (bufs2.refs ++ bufs3.refs)))
    (V : Valuation τ sig (Elt F)) : after ops V (Proc.devRef .tc r) = V (Proc.devRef .tc r) := by
  simp only [List.mem_append, not_or] at h
  unfold ops
  rw [after_append, after_append, after_append, layer_frame _ _ h.2.2.2, layer_frame _ _ h.2.2.1,
    layer_frame _ _ h.2.1, pre_frame h.1]

/-- Every weakly fair execution ends with the result buffer at `resR` of the initial memory and the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v201) = resR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      refine ⟨(h c _).trans (res_val m c), ?_⟩
      repeat' apply And.intro
      all_goals exact (h c _).trans (arg_val (by decide) _))
    (run_seq (by decide) (by decide) defs main (fun _ => ops) main_eq
      (fun _ => List.forall_append.2 ⟨opsPre_sub, List.forall_append.2 ⟨layerOps_sub .., List.forall_append.2
        ⟨layerOps_sub .., layerOps_sub ..⟩⟩⟩) m ρ
      (fun _ => List.forall_iff_forall_mem.1 (List.forall_append.2 ⟨opsPre_fresh, List.forall_append.2
        ⟨layerOps_fresh .., List.forall_append.2 ⟨layerOps_fresh .., layerOps_fresh ..⟩⟩⟩)))

end Cert.ReferenceIdeal.RefVal

end
-- ==== Proof.IdxRange.lean ====
import proofs.«426792_j34668976013873_1_alg».proof.Defs
import proofs.«426792_j34668976013873_1_alg».proof.Proof.TakeDefs
import Idealize.ShloMosaic.Lib.Affine
import Idealize.ShloMosaic.Lib.ReduceAll
import Idealize.ShloMosaic.PureOps.Reduce

noncomputable section

namespace Cert.IdxRange

open Idealize.ShloMosaic Idealize.SL.Sem

variable {F : FTy → Type} [FloatOps F]
variable [hK : Cert.KernelIdeal.Facts] [hR : Cert.ReferenceIdeal.Facts]

theorem wrap_id (w n : BitVec 32) (h0 : 0 ≤ w.toInt) :
    Scalar.select (IntOp.cmpi .slt w 0#32) (IntOp.addi w n) w = w := by
  have hne : ¬ IntOp.cmpi .slt w 0#32 = 1#1 := by
    rw [IntOp.cmpi_slt, show (0#32 : BitVec 32).toInt = 0 from by decide]; omega
  unfold Scalar.select
  exact if_neg hne

theorem flag_wrap (w n M : BitVec 32) (N : Int) (hM : M.toInt = N - 1) (h : 0 ≤ w.toInt ∧ w.toInt < N) :
    IntOp.andi (IntOp.cmpi .sge (Scalar.select (IntOp.cmpi .slt w 0#32) (IntOp.addi w n) w) 0#32)
      (IntOp.cmpi .sle (Scalar.select (IntOp.cmpi .slt w 0#32) (IntOp.addi w n) w) M) = 1#1 := by
  rw [wrap_id w n h.1, IntOp.andi_eq_one, IntOp.cmpi_sge, IntOp.cmpi_sle, hM,
    show (0#32 : BitVec 32).toInt = 0 from by decide]
  omega

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

theorem reduce_andi_ones {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  rw [Host.reduce_eq_foldl, hi]
  exact foldl_andi_ones x _ fun n _ => hx n

theorem select_ones {s : Shape} {α : Type} (m : IVec s 1) (a b : s.Idx → α) (hm : ∀ j, m j = 1#1) : select m a b = a := by
  funext j
  show Scalar.select (m j) (a j) (b j) = a j
  rw [hm j]; rfl

theorem take600_eq (x : (⟨Cert.KernelIdeal.S100000x128, .f32⟩ : BufTy).Contents (Elt F))
    (idx : (⟨Cert.KernelIdeal.S600000, .i32⟩ : BufTy).Contents (Elt F))
    (h : ∀ i, 0 ≤ (idx i).toInt ∧ (idx i).toInt < 100000) : take600 x idx = gat600 x idx := by
  unfold take600 gat600
  dsimp only
  refine (select_ones _ _ _ fun k => ?_).trans ?_
  · refine reduce_andi_ones _ _ _ _ (fun i => ?_) (fun _ => rfl) _
    exact flag_wrap _ _ 99999#32 100000 (by decide) (h _)
  · rfl

theorem take100_eq (p : (⟨Cert.KernelIdeal.S384x128, .f32⟩ : BufTy).Contents (Elt F))
    (idx : (⟨Cert.KernelIdeal.S100000, .i32⟩ : BufTy).Contents (Elt F))
    (h : ∀ i, 0 ≤ (idx i).toInt ∧ (idx i).toInt < 384) : take100 p idx = gat100 p idx := by
  unfold take100 gat100
  dsimp only
  refine (select_ones _ _ _ fun k => ?_).trans ?_
  · refine reduce_andi_ones _ _ _ _ (fun i => ?_) (fun _ => rfl) _
    exact flag_wrap _ _ 383#32 384 (by decide) (h _)
  · rfl

theorem inRange_of_cmp (w N : BitVec 32) (n : Int) (hN : N.toInt = n) (h0 : IntOp.cmpi .sge w 0#32 = 1#1)
    (h1 : IntOp.cmpi .slt w N = 1#1) : 0 ≤ w.toInt ∧ w.toInt < n := by
  have a := IntOp.cmpi_sge.1 h0
  have b := IntOp.cmpi_slt.1 h1
  rw [show (0#32 : BitVec 32).toInt = 0 from by decide] at a
  rw [hN] at b
  exact ⟨a, b⟩

instance subsingleton_S_ : Subsingleton Cert.Pre_finite_inputs.S_.Idx := ⟨fun a b => funext fun d => d.elim0⟩

theorem ranges [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, 0 ≤ (dstK (F := Ideal) (m ((c.tc : Thread Cert.KernelIdeal.nD Cert.KernelIdeal.τ).loc Cert.KernelIdeal.main_arg10)) i).toInt
        ∧ (dstK (F := Ideal) (m ((c.tc : Thread Cert.KernelIdeal.nD Cert.KernelIdeal.τ).loc Cert.KernelIdeal.main_arg10)) i).toInt < 100000)
    ∧ (∀ i, 0 ≤ (srcK (F := Ideal) (m ((c.tc : Thread Cert.KernelIdeal.nD Cert.KernelIdeal.τ).loc Cert.KernelIdeal.main_arg10)) i).toInt
        ∧ (srcK (F := Ideal) (m ((c.tc : Thread Cert.KernelIdeal.nD Cert.KernelIdeal.τ).loc Cert.KernelIdeal.main_arg10)) i).toInt < 100000)
    ∧ (∀ i, 0 ≤ ((m ((c.tc : Thread Cert.KernelIdeal.nD Cert.KernelIdeal.τ).loc Cert.KernelIdeal.main_arg11)) i).toInt
        ∧ ((m ((c.tc : Thread Cert.KernelIdeal.nD Cert.KernelIdeal.τ).loc Cert.KernelIdeal.main_arg11)) i).toInt < 384) := by
  have e := congrFun (hpre c) (fun a => a.elim0)
  obtain ⟨e3, h63⟩ := IntOp.andi_eq_one.1 e
  obtain ⟨e2, h59⟩ := IntOp.andi_eq_one.1 e3
  obtain ⟨e1, h55⟩ := IntOp.andi_eq_one.1 e2
  obtain ⟨-, h51⟩ := IntOp.andi_eq_one.1 e1
  have hE : ∀ i', 0 ≤ ((m ((c.tc : Thread Cert.KernelIdeal.nD Cert.KernelIdeal.τ).loc Cert.KernelIdeal.main_arg10)) i').toInt
      ∧ ((m ((c.tc : Thread Cert.KernelIdeal.nD Cert.KernelIdeal.τ).loc Cert.KernelIdeal.main_arg10)) i').toInt < 100000 := fun i' =>
    inRange_of_cmp _ 100000#32 100000 (by decide) (Host.reduce_andi_all _ _ _ _ _ h51 i') (Host.reduce_andi_all _ _ _ _ _ h55 i')
  have hC : ∀ i', 0 ≤ ((m ((c.tc : Thread Cert.KernelIdeal.nD Cert.KernelIdeal.τ).loc Cert.KernelIdeal.main_arg11)) i').toInt
      ∧ ((m ((c.tc : Thread Cert.KernelIdeal.nD Cert.KernelIdeal.τ).loc Cert.KernelIdeal.main_arg11)) i').toInt < 384 := fun i' =>
    inRange_of_cmp _ 384#32 384 (by decide) (Host.reduce_andi_all _ _ _ _ _ h59 i') (Host.reduce_andi_all _ _ _ _ _ h63 i')
  exact ⟨fun i => hE _, fun i => hE _, hC⟩

end Cert.IdxRange

end
-- ==== Proof.KI.BridgeUpd.lean ====
import proofs.«426792_j34668976013873_1_alg».proof.Proof.KI.FnUpd
import proofs.«426792_j34668976013873_1_alg».proof.Proof.Gen.ReferenceIdeal
import proofs.«426792_j34668976013873_1_alg».proof.ReferenceIdeal
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.Bridge

open Idealize.ShloMosaic Idealize.ShloMosaic.ValueIdx
open Cert.KernelIdeal Cert.KernelIdeal.Gen Cert.KernelIdeal.KVal
open scoped BigOperators

theorem lhs_ref_0 (i : S100000x128.Idx) (q : Cert.ReferenceIdeal.dot_S100000x384_S384x128_S100000x128_1_0_0_1_n_n.contr.Idx) :
    (Cert.ReferenceIdeal.dot_S100000x384_S384x128_S100000x128_1_0_0_1_n_n.lhsIdx i q 0).val = (i 0).val := by
  unfold DotDims.lhsIdx
  rw [dif_neg (show ¬(0 : Fin S100000x384.rank) ∈ Cert.ReferenceIdeal.dot_S100000x384_S384x128_S100000x128_1_0_0_1_n_n.lhsBatch by decide),
    dif_pos (show (0 : Fin S100000x384.rank) ∈ Cert.ReferenceIdeal.dot_S100000x384_S384x128_S100000x128_1_0_0_1_n_n.lhsNonContracting by decide)]
  rfl

theorem lhs_ref_1 (i : S100000x128.Idx) (q : Cert.ReferenceIdeal.dot_S100000x384_S384x128_S100000x128_1_0_0_1_n_n.contr.Idx) :
    (Cert.ReferenceIdeal.dot_S100000x384_S384x128_S100000x128_1_0_0_1_n_n.lhsIdx i q 1).val = (q ⟨0, by decide⟩).val :=
  Cert.ReferenceIdeal.dot_S100000x384_S384x128_S100000x128_1_0_0_1_n_n.lhsIdx_val_of_single rfl i q

theorem rhs_ref_0 (i : S100000x128.Idx) (q : Cert.ReferenceIdeal.dot_S100000x384_S384x128_S100000x128_1_0_0_1_n_n.contr.Idx) :
    (Cert.ReferenceIdeal.dot_S100000x384_S384x128_S100000x128_1_0_0_1_n_n.rhsIdx i q 0).val = (q ⟨0, by decide⟩).val :=
  Cert.ReferenceIdeal.dot_S100000x384_S384x128_S100000x128_1_0_0_1_n_n.rhsIdx_val_of_single rfl i q

theorem rhs_ref_1 (i : S100000x128.Idx) (q : Cert.ReferenceIdeal.dot_S100000x384_S384x128_S100000x128_1_0_0_1_n_n.contr.Idx) :
    (Cert.ReferenceIdeal.dot_S100000x384_S384x128_S100000x128_1_0_0_1_n_n.rhsIdx i q 1).val = (i 1).val := by
  unfold DotDims.rhsIdx
  rw [dif_neg (show ¬(1 : Fin S384x128.rank) ∈ Cert.ReferenceIdeal.dot_S100000x384_S384x128_S100000x128_1_0_0_1_n_n.rhsBatch by decide),
    dif_pos (show (1 : Fin S384x128.rank) ∈ Cert.ReferenceIdeal.dot_S100000x384_S384x128_S100000x128_1_0_0_1_n_n.rhsNonContracting by decide)]
  rfl

theorem dot_ref_apply (a : FVec Ideal S100000x384 .f32) (w : FVec Ideal S384x128 .f32) (r : Fin 100000) (c : Fin 128) :
    Host.dotGeneral (F := Ideal) Cert.ReferenceIdeal.dot_S100000x384_S384x128_S100000x128_1_0_0_1_n_n none a w (ix2 r c)
      = ∑ k : Fin 384, a (ix2 r k) * w (ix2 k c) := by
  simp only [Host.dotGeneral]
  rw [Ideal.dotGeneral_apply,
    ← Equiv.sum_comp (contrEquiv1 Cert.ReferenceIdeal.dot_S100000x384_S384x128_S100000x128_1_0_0_1_n_n 384 rfl rfl).symm]
  refine Finset.sum_congr rfl fun k _ => ?_
  have hk := contrEquiv1_symm_val Cert.ReferenceIdeal.dot_S100000x384_S384x128_S100000x128_1_0_0_1_n_n 384 rfl rfl k
  have el : Cert.ReferenceIdeal.dot_S100000x384_S384x128_S100000x128_1_0_0_1_n_n.lhsIdx (ix2 r c)
      ((contrEquiv1 Cert.ReferenceIdeal.dot_S100000x384_S384x128_S100000x128_1_0_0_1_n_n 384 rfl rfl).symm k) = ix2 r k :=
    funext fun b => Fin.ext (by
      match b with
      | ⟨0, _⟩ => exact lhs_ref_0 _ _
      | ⟨1, _⟩ => exact (lhs_ref_1 _ _).trans hk)
  have er : Cert.ReferenceIdeal.dot_S100000x384_S384x128_S100000x128_1_0_0_1_n_n.rhsIdx (ix2 r c)
      ((contrEquiv1 Cert.ReferenceIdeal.dot_S100000x384_S384x128_S100000x128_1_0_0_1_n_n 384 rfl rfl).symm k) = ix2 k c :=
    funext fun b => Fin.ext (by
      match b with
      | ⟨0, _⟩ => exact (rhs_ref_0 _ _).trans hk
      | ⟨1, _⟩ => exact rhs_ref_1 _ _)
  rw [el, er]

theorem bias_ref_apply (a9 : FVec Ideal S128 .f32) (r : Fin 100000) (c : Fin 128) :
    broadcastInDim S100000x128 ![0, 1] Cert.ReferenceIdeal.Facts₀.bcast_S1x128_S100000x128_0_1
        (broadcastInDim S1x128 ![1] Cert.ReferenceIdeal.Facts₀.bcast_S128_S1x128_1 a9) (ix2 r c) = a9 (ix1 c) := by
  refine (broadcastInDim_oneRow_apply Cert.ReferenceIdeal.Facts₀.bcast_S1x128_S100000x128_0_1 _ r c).trans ?_
  refine broadcastInDim_apply ![1] Cert.ReferenceIdeal.Facts₀.bcast_S128_S1x128_1 a9 (ix2 (0 : Fin 1) c) (ix1 c) ?_
  intro a
  match a with
  | ⟨0, _⟩ => rfl

theorem bias_row_apply (a9 : FVec Ideal S128 .f32) (c : Fin 128) :
    shapeCast S1x128 a9 shapeCasts_S128_S1x128 (ix2 (0 : Fin 1) c) = a9 (ix1 c) := by
  refine shapeCast_apply a9 shapeCasts_S128_S1x128 (ix2 (0 : Fin 1) c) (ix1 c) ?_
  rw [Shape.rowMajor_val_two, Shape.rowMajor_val_one]
  show c.val = 0 * 128 + c.val
  omega

theorem upd_bridge (cat : Vec Ideal S100000x384 .f32) (x : Vec Ideal S100000x128 .f32) (a8 : Vec Ideal S384x128 .f32)
    (a9 : Vec Ideal S128 .f32) :
    updG (truncf (F := Ideal) (φ := .f32) .bf16 cat bitsLt_bf16_f32) x (truncf (F := Ideal) (φ := .f32) .bf16 a8 bitsLt_bf16_f32)
        (shapeCast S1x128 a9 shapeCasts_S128_S1x128)
      = (let u := addf (Host.dotGeneral (F := Ideal) (φ₁ := .f32) (φ₂ := .f32) Cert.ReferenceIdeal.dot_S100000x384_S384x128_S100000x128_1_0_0_1_n_n none cat a8)
            (broadcastInDim S100000x128 ![0, 1] Cert.ReferenceIdeal.Facts₀.bcast_S1x128_S100000x128_0_1
              (broadcastInDim S1x128 ![1] Cert.ReferenceIdeal.Facts₀.bcast_S128_S1x128_1 a9));
         addf x (select (cmpf .ogt u (broadcastInDim S100000x128 ![] Cert.ReferenceIdeal.Facts₀.bcast_S_S100000x128
              (constant (F := Ideal) S_ .f32 0x00000000#32))) u
            (mulf (broadcastInDim S100000x128 ![] Cert.ReferenceIdeal.Facts₀.bcast_S_S100000x128
              (constant (F := Ideal) S_ .f32 0x3C23D70A#32)) u))) := by
  funext i
  obtain ⟨r, c, rfl⟩ : ∃ (r : Fin 100000) (c : Fin 128), i = ix2 r c := ⟨i 0, i 1, eq_ix2 i⟩
  rw [updG_ix2]
  unfold affAt
  rw [bias_row_apply]
  simp only [broadcastInDim_constant, addf_apply, select_apply, cmpf_apply, mulf_apply, broadcast_apply]
  rw [dot_ref_apply, bias_ref_apply]
  rfl

end Cert.Bridge

end
-- ==== Proof.KI.BridgeMM.lean ====
import proofs.«426792_j34668976013873_1_alg».proof.Proof.KI.Val0
import proofs.«426792_j34668976013873_1_alg».proof.Proof.KI.Val1
import proofs.«426792_j34668976013873_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal Cert.KernelIdeal.Facts₀ Cert.KernelIdeal.KVal
open scoped BigOperators

theorem refEnc_lhs_0 (i : S100000x128.Idx) (q : Cert.ReferenceIdeal.dot_S100000x48_S48x128_S100000x128_1_0_0_1_n_n.contr.Idx) :
    (Cert.ReferenceIdeal.dot_S100000x48_S48x128_S100000x128_1_0_0_1_n_n.lhsIdx i q 0).val = (i 0).val := by
  unfold DotDims.lhsIdx
  rw [dif_neg (show ¬(0 : Fin S100000x48.rank) ∈ Cert.ReferenceIdeal.dot_S100000x48_S48x128_S100000x128_1_0_0_1_n_n.lhsBatch by decide),
    dif_pos (show (0 : Fin S100000x48.rank) ∈ Cert.ReferenceIdeal.dot_S100000x48_S48x128_S100000x128_1_0_0_1_n_n.lhsNonContracting by decide)]
  rfl

theorem refEnc_lhs_1 (i : S100000x128.Idx) (q : Cert.ReferenceIdeal.dot_S100000x48_S48x128_S100000x128_1_0_0_1_n_n.contr.Idx) :
    (Cert.ReferenceIdeal.dot_S100000x48_S48x128_S100000x128_1_0_0_1_n_n.lhsIdx i q 1).val = (q ⟨0, by decide⟩).val :=
  Cert.ReferenceIdeal.dot_S100000x48_S48x128_S100000x128_1_0_0_1_n_n.lhsIdx_val_of_single rfl i q

theorem refEnc_rhs_0 (i : S100000x128.Idx) (q : Cert.ReferenceIdeal.dot_S100000x48_S48x128_S100000x128_1_0_0_1_n_n.contr.Idx) :
    (Cert.ReferenceIdeal.dot_S100000x48_S48x128_S100000x128_1_0_0_1_n_n.rhsIdx i q 0).val = (q ⟨0, by decide⟩).val :=
  Cert.ReferenceIdeal.dot_S100000x48_S48x128_S100000x128_1_0_0_1_n_n.rhsIdx_val_of_single rfl i q

theorem refEnc_rhs_1 (i : S100000x128.Idx) (q : Cert.ReferenceIdeal.dot_S100000x48_S48x128_S100000x128_1_0_0_1_n_n.contr.Idx) :
    (Cert.ReferenceIdeal.dot_S100000x48_S48x128_S100000x128_1_0_0_1_n_n.rhsIdx i q 1).val = (i 1).val := by
  unfold DotDims.rhsIdx
  rw [dif_neg (show ¬(1 : Fin S48x128.rank) ∈ Cert.ReferenceIdeal.dot_S100000x48_S48x128_S100000x128_1_0_0_1_n_n.rhsBatch by decide),
    dif_pos (show (1 : Fin S48x128.rank) ∈ Cert.ReferenceIdeal.dot_S100000x48_S48x128_S100000x128_1_0_0_1_n_n.rhsNonContracting by decide)]
  rfl

theorem refEnc_apply (l : FVec Ideal S100000x48 .f32) (w : FVec Ideal S48x128 .f32) (r : Fin 100000) (j : Fin 128) :
    Host.dotGeneral (F := Ideal) Cert.ReferenceIdeal.dot_S100000x48_S48x128_S100000x128_1_0_0_1_n_n none l w (ix2 r j) = ∑ k : Fin 48, l (ix2 r k) * w (ix2 k j) := by
  show FloatOps.dotGeneral _ none _ l w (ix2 r j) = _
  rw [Ideal.dotGeneral_apply, ← Equiv.sum_comp (contrEquiv1 Cert.ReferenceIdeal.dot_S100000x48_S48x128_S100000x128_1_0_0_1_n_n 48 rfl rfl).symm]
  refine Finset.sum_congr rfl fun k _ => ?_
  have hk := contrEquiv1_symm_val Cert.ReferenceIdeal.dot_S100000x48_S48x128_S100000x128_1_0_0_1_n_n 48 rfl rfl k
  have el : Cert.ReferenceIdeal.dot_S100000x48_S48x128_S100000x128_1_0_0_1_n_n.lhsIdx (ix2 r j) ((contrEquiv1 Cert.ReferenceIdeal.dot_S100000x48_S48x128_S100000x128_1_0_0_1_n_n 48 rfl rfl).symm k) = ix2 r k :=
    funext fun a => Fin.ext (by
      match a with
      | ⟨0, _⟩ => exact refEnc_lhs_0 _ _
      | ⟨1, _⟩ => exact (refEnc_lhs_1 _ _).trans hk)
  have er : Cert.ReferenceIdeal.dot_S100000x48_S48x128_S100000x128_1_0_0_1_n_n.rhsIdx (ix2 r j) ((contrEquiv1 Cert.ReferenceIdeal.dot_S100000x48_S48x128_S100000x128_1_0_0_1_n_n 48 rfl rfl).symm k) = ix2 k j :=
    funext fun a => Fin.ext (by
      match a with
      | ⟨0, _⟩ => exact (refEnc_rhs_0 _ _).trans hk
      | ⟨1, _⟩ => exact refEnc_rhs_1 _ _)
  rw [el, er]

theorem refMsg_lhs_0 (i : S600000x128.Idx) (q : Cert.ReferenceIdeal.dot_S600000x256_S256x128_S600000x128_1_0_0_1_n_n.contr.Idx) :
    (Cert.ReferenceIdeal.dot_S600000x256_S256x128_S600000x128_1_0_0_1_n_n.lhsIdx i q 0).val = (i 0).val := by
  unfold DotDims.lhsIdx
  rw [dif_neg (show ¬(0 : Fin S600000x256.rank) ∈ Cert.ReferenceIdeal.dot_S600000x256_S256x128_S600000x128_1_0_0_1_n_n.lhsBatch by decide),
    dif_pos (show (0 : Fin S600000x256.rank) ∈ Cert.ReferenceIdeal.dot_S600000x256_S256x128_S600000x128_1_0_0_1_n_n.lhsNonContracting by decide)]
  rfl

theorem refMsg_lhs_1 (i : S600000x128.Idx) (q : Cert.ReferenceIdeal.dot_S600000x256_S256x128_S600000x128_1_0_0_1_n_n.contr.Idx) :
    (Cert.ReferenceIdeal.dot_S600000x256_S256x128_S600000x128_1_0_0_1_n_n.lhsIdx i q 1).val = (q ⟨0, by decide⟩).val :=
  Cert.ReferenceIdeal.dot_S600000x256_S256x128_S600000x128_1_0_0_1_n_n.lhsIdx_val_of_single rfl i q

theorem refMsg_rhs_0 (i : S600000x128.Idx) (q : Cert.ReferenceIdeal.dot_S600000x256_S256x128_S600000x128_1_0_0_1_n_n.contr.Idx) :
    (Cert.ReferenceIdeal.dot_S600000x256_S256x128_S600000x128_1_0_0_1_n_n.rhsIdx i q 0).val = (q ⟨0, by decide⟩).val :=
  Cert.ReferenceIdeal.dot_S600000x256_S256x128_S600000x128_1_0_0_1_n_n.rhsIdx_val_of_single rfl i q

theorem refMsg_rhs_1 (i : S600000x128.Idx) (q : Cert.ReferenceIdeal.dot_S600000x256_S256x128_S600000x128_1_0_0_1_n_n.contr.Idx) :
    (Cert.ReferenceIdeal.dot_S600000x256_S256x128_S600000x128_1_0_0_1_n_n.rhsIdx i q 1).val = (i 1).val := by
  unfold DotDims.rhsIdx
  rw [dif_neg (show ¬(1 : Fin S256x128.rank) ∈ Cert.ReferenceIdeal.dot_S600000x256_S256x128_S600000x128_1_0_0_1_n_n.rhsBatch by decide),
    dif_pos (show (1 : Fin S256x128.rank) ∈ Cert.ReferenceIdeal.dot_S600000x256_S256x128_S600000x128_1_0_0_1_n_n.rhsNonContracting by decide)]
  rfl

theorem refMsg_apply (l : FVec Ideal S600000x256 .f32) (w : FVec Ideal S256x128 .f32) (r : Fin 600000) (j : Fin 128) :
    Host.dotGeneral (F := Ideal) Cert.ReferenceIdeal.dot_S600000x256_S256x128_S600000x128_1_0_0_1_n_n none l w (ix2 r j) = ∑ k : Fin 256, l (ix2 r k) * w (ix2 k j) := by
  show FloatOps.dotGeneral _ none _ l w (ix2 r j) = _
  rw [Ideal.dotGeneral_apply, ← Equiv.sum_comp (contrEquiv1 Cert.ReferenceIdeal.dot_S600000x256_S256x128_S600000x128_1_0_0_1_n_n 256 rfl rfl).symm]
  refine Finset.sum_congr rfl fun k _ => ?_
  have hk := contrEquiv1_symm_val Cert.ReferenceIdeal.dot_S600000x256_S256x128_S600000x128_1_0_0_1_n_n 256 rfl rfl k
  have el : Cert.ReferenceIdeal.dot_S600000x256_S256x128_S600000x128_1_0_0_1_n_n.lhsIdx (ix2 r j) ((contrEquiv1 Cert.ReferenceIdeal.dot_S600000x256_S256x128_S600000x128_1_0_0_1_n_n 256 rfl rfl).symm k) = ix2 r k :=
    funext fun a => Fin.ext (by
      match a with
      | ⟨0, _⟩ => exact refMsg_lhs_0 _ _
      | ⟨1, _⟩ => exact (refMsg_lhs_1 _ _).trans hk)
  have er : Cert.ReferenceIdeal.dot_S600000x256_S256x128_S600000x128_1_0_0_1_n_n.rhsIdx (ix2 r j) ((contrEquiv1 Cert.ReferenceIdeal.dot_S600000x256_S256x128_S600000x128_1_0_0_1_n_n 256 rfl rfl).symm k) = ix2 k j :=
    funext fun a => Fin.ext (by
      match a with
      | ⟨0, _⟩ => exact (refMsg_rhs_0 _ _).trans hk
      | ⟨1, _⟩ => exact refMsg_rhs_1 _ _)
  rw [el, er]

theorem mm_bias_rows_apply {n : ℕ} (a : Vec Ideal S128 .f32)
    (h1 : S128.BroadcastsInDim S1x128 (![1] : Fin 1 → Fin S1x128.rank))
    (h2 : S1x128.BroadcastsInDim ⟨2, ![n, 128]⟩ (![0, 1] : Fin 2 → Fin 2)) (r : Fin n) (j : Fin 128) :
    broadcastInDim ⟨2, ![n, 128]⟩ ![0, 1] h2 (broadcastInDim S1x128 ![1] h1 a) (ix2 r j) = a (ix1 j) := by
  rw [broadcastInDim_apply ![0, 1] h2 _ (ix2 r j) (ix2 (0 : Fin 1) j) (fun ax => by
    match ax with
    | ⟨0, _⟩ => rfl
    | ⟨1, _⟩ => rfl)]
  exact broadcastInDim_apply ![1] h1 a (ix2 (0 : Fin 1) j) (ix1 j) (fun ax => by
    match ax with
    | ⟨0, _⟩ => rfl)

theorem mm_bias_row_apply (a : Vec Ideal S128 .f32) (j : Fin 128) :
    shapeCast S1x128 a shapeCasts_S128_S1x128 (ix2 (0 : Fin 1) j) = a (ix1 j) :=
  shapeCast_a_1a_apply a shapeCasts_S128_S1x128 (0 : Fin 1) j

theorem enc_bridge (xc : Vec Ideal S100000x48 .f32) (a4 : Vec Ideal S48x128 .f32) (a5 : Vec Ideal S128 .f32) :
    encG xc (truncf (F := Ideal) (φ := .f32) .bf16 a4 bitsLt_bf16_f32) (shapeCast S1x128 a5 shapeCasts_S128_S1x128)
      = addf (Host.dotGeneral (F := Ideal) (φ₁ := .f32) (φ₂ := .f32) Cert.ReferenceIdeal.dot_S100000x48_S48x128_S100000x128_1_0_0_1_n_n none xc a4)
          (broadcastInDim S100000x128 ![0, 1] Cert.ReferenceIdeal.Facts₀.bcast_S1x128_S100000x128_0_1
            (broadcastInDim S1x128 ![1] Cert.ReferenceIdeal.Facts₀.bcast_S128_S1x128_1 a5)) := by
  funext i
  obtain ⟨r, j, rfl⟩ : ∃ (r : Fin 100000) (j : Fin 128), i = ix2 r j := ⟨i 0, i 1, eq_ix2 i⟩
  rw [encG_ix2, addf_apply, refEnc_apply, mm_bias_row_apply]
  exact congrArg _ (mm_bias_rows_apply a5 _ _ r j).symm

theorem msg_bridge (cat : Vec Ideal S600000x256 .f32) (a6 : Vec Ideal S256x128 .f32) (a7 : Vec Ideal S128 .f32) :
    msgG (truncf (F := Ideal) (φ := .f32) .bf16 cat bitsLt_bf16_f32) (truncf (F := Ideal) (φ := .f32) .bf16 a6 bitsLt_bf16_f32) (shapeCast S1x128 a7 shapeCasts_S128_S1x128)
      = addf (Host.dotGeneral (F := Ideal) (φ₁ := .f32) (φ₂ := .f32) Cert.ReferenceIdeal.dot_S600000x256_S256x128_S600000x128_1_0_0_1_n_n none cat a6)
          (broadcastInDim S600000x128 ![0, 1] Cert.ReferenceIdeal.Facts₀.bcast_S1x128_S600000x128_0_1
            (broadcastInDim S1x128 ![1] Cert.ReferenceIdeal.Facts₀.bcast_S128_S1x128_1 a7)) := by
  funext i
  obtain ⟨r, j, rfl⟩ : ∃ (r : Fin 600000) (j : Fin 128), i = ix2 r j := ⟨i 0, i 1, eq_ix2 i⟩
  rw [msgG_ix2, addf_apply, refMsg_apply, mm_bias_row_apply]
  exact congrArg _ (mm_bias_rows_apply a7 _ _ r j).symm

end Cert.Bridge

end
-- ==== Proof.Bridge.lean ====
import proofs.«426792_j34668976013873_1_alg».proof.Proof.Gen.KernelIdeal
import proofs.«426792_j34668976013873_1_alg».proof.Proof.Gen.ReferenceIdeal
import proofs.«426792_j34668976013873_1_alg».proof.Proof.KI.LayerK
import proofs.«426792_j34668976013873_1_alg».proof.Proof.Ref.Layer
import proofs.«426792_j34668976013873_1_alg».proof.Proof.IdxRange
import proofs.«426792_j34668976013873_1_alg».proof.Proof.KI.BridgeUpd
import proofs.«426792_j34668976013873_1_alg».proof.Proof.KI.BridgeMM

set_option maxRecDepth 16384

noncomputable section

namespace Cert.Bridge

open Idealize.ShloMosaic
open Cert.KernelIdeal Cert.KernelIdeal.Facts₀ Cert.KernelIdeal.KVal Cert.IdxRange

theorem src_eq (a10 : (⟨S2x600000, .i32⟩ : BufTy).Contents (Elt Ideal)) : srcK (F := Ideal) a10 = Cert.ReferenceIdeal.RefVal.srcR (F := Ideal) a10 := rfl

theorem dst_eq (a10 : (⟨S2x600000, .i32⟩ : BufTy).Contents (Elt Ideal)) : dstK (F := Ideal) a10 = Cert.ReferenceIdeal.RefVal.dstR (F := Ideal) a10 := rfl

theorem enc_eq (a0 : (⟨S100000x15, .f32⟩ : BufTy).Contents (Elt Ideal)) (a1 : (⟨S100000, .f32⟩ : BufTy).Contents (Elt Ideal)) (a2 : (⟨S100000x32, .f32⟩ : BufTy).Contents (Elt Ideal))
    (a4 : (⟨S48x128, .f32⟩ : BufTy).Contents (Elt Ideal)) (a5 : (⟨S128, .f32⟩ : BufTy).Contents (Elt Ideal)) :
    encK a0 a1 a2 a4 a5 = Cert.ReferenceIdeal.RefVal.encR (F := Ideal) a0 a1 a2 a4 a5 := by
  unfold encK
  rw [enc_bridge]
  rfl

theorem layer_eq (x : (⟨S100000x128, .f32⟩ : BufTy).Contents (Elt Ideal)) (src dst : (⟨S600000, .i32⟩ : BufTy).Contents (Elt Ideal))
    (a3 : (⟨S384, .f32⟩ : BufTy).Contents (Elt Ideal)) (a6 : (⟨S256x128, .f32⟩ : BufTy).Contents (Elt Ideal)) (a7 : (⟨S128, .f32⟩ : BufTy).Contents (Elt Ideal))
    (a8 : (⟨S384x128, .f32⟩ : BufTy).Contents (Elt Ideal)) (a9 : (⟨S128, .f32⟩ : BufTy).Contents (Elt Ideal)) (a11 : (⟨S100000, .i32⟩ : BufTy).Contents (Elt Ideal))
    (hs : ∀ i, 0 ≤ (src i).toInt ∧ (src i).toInt < 100000) (hd : ∀ i, 0 ≤ (dst i).toInt ∧ (dst i).toInt < 100000)
    (hc : ∀ i, 0 ≤ (a11 i).toInt ∧ (a11 i).toInt < 384) :
    layerK x src dst a3 a6 a7 a8 a9 a11 = Cert.ReferenceIdeal.RefVal.layerR (F := Ideal) x src dst a3 a6 a7 a8 a9 a11 := by
  unfold layerK
  rw [take600_eq x dst hd, take600_eq x src hs, take100_eq _ a11 hc]
  unfold catMsgK catUpdK
  dsimp only
  rw [msg_bridge, upd_bridge]
  rfl

end Cert.Bridge

end
-- ==== Proof.lean ====
import proofs.«426792_j34668976013873_1_alg».proof.Defs
import proofs.«426792_j34668976013873_1_alg».proof.Proof.Gen.Kernel
import proofs.«426792_j34668976013873_1_alg».proof.Proof.Gen.KernelIdeal
import proofs.«426792_j34668976013873_1_alg».proof.Proof.Gen.ReferenceIdeal
import proofs.«426792_j34668976013873_1_alg».proof.Proof.Gen.Pre_finite_inputs
import proofs.«426792_j34668976013873_1_alg».proof.Proof.K.Regs
import proofs.«426792_j34668976013873_1_alg».proof.Proof.KI.Regs
import proofs.«426792_j34668976013873_1_alg».proof.Proof.KI.RunVal
import proofs.«426792_j34668976013873_1_alg».proof.Proof.KI.Value
import proofs.«426792_j34668976013873_1_alg».proof.Proof.Ref.Run
import proofs.«426792_j34668976013873_1_alg».proof.Proof.IdxRange
import proofs.«426792_j34668976013873_1_alg».proof.Proof.Bridge
import Idealize.ShloMosaic.Adequacy
import Idealize.ShloMosaic.Init

noncomputable section

namespace Cert.Proof

open Idealize.ShloMosaic Idealize.SL.Sem

theorem frame_k : Cert.frame_Kernel := fun m g _ => Cert.Kernel.Rgn.frame (F := Bits) m g

theorem frame_ki : Cert.frame_KernelIdeal := fun m g _ => Cert.KernelIdeal.Rgn.frame (F := Ideal) m g

theorem frame_ri : Cert.frame_ReferenceIdeal := fun m g _ =>
  (θ_run (Cert.ReferenceIdeal.defs (F := Ideal)) _ _).mono (fun _ h c => (h c).2) (Cert.ReferenceIdeal.RefVal.run (F := Ideal) m g)

theorem algebraic : Cert.algebraic_KernelIdeal_ReferenceIdeal := by
  intro m g m' g' hpre hagree
  refine ⟨fun c => Cert.KernelIdeal.Rgn.o27 (F := Ideal) m c, Cert.KernelIdeal.Rgn.run_val (F := Ideal) m g, ?_⟩
  refine (θ_run (Cert.ReferenceIdeal.defs (F := Ideal)) _ _).mono (fun _ h c => ⟨(h c).1.trans ?_, (h c).2⟩)
    (Cert.ReferenceIdeal.RefVal.run (F := Ideal) m' g')
  obtain ⟨hd, hs, hc⟩ := Cert.IdxRange.ranges m hpre c
  obtain ⟨e0, e1, e2, e3, e4, e5, e6, e7, e8, e9, e10, e11, -⟩ := hagree c
  show Cert.ReferenceIdeal.RefVal.resR (F := Ideal) m' c = Cert.KernelIdeal.Rgn.o27 (F := Ideal) m c
  rw [Cert.KernelIdeal.KVal.kernel_value m c]
  unfold Cert.ReferenceIdeal.RefVal.resR
  rw [e0, e1, e2, e3, e4, e5, e6, e7, e8, e9, e10, e11]
  rw [← Cert.Bridge.src_eq, ← Cert.Bridge.dst_eq, ← Cert.Bridge.enc_eq,
    ← Cert.Bridge.layer_eq _ _ _ _ _ _ _ _ _ hs hd hc, ← Cert.Bridge.layer_eq _ _ _ _ _ _ _ _ _ hs hd hc,
    ← Cert.Bridge.layer_eq _ _ _ _ _ _ _ _ _ hs hd hc]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
